-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)) →
    ∃ (v0 : (c : Dev Cert.KernelIdeal.nD) → Buf (Elt Ideal) ((c.tc : Thread Cert.KernelIdeal.nD Cert.KernelIdeal.τ).loc Cert.KernelIdeal.main_v73)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v73) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v152) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x2 : Shape := ⟨2, ![100000, 2]⟩
abbrev S2x1600000 : Shape := ⟨2, ![2, 1600000]⟩
abbrev S4x64 : Shape := ⟨2, ![4, 64]⟩
abbrev S64 : Shape := ⟨1, ![64]⟩
abbrev S128x64 : Shape := ⟨2, ![128, 64]⟩
abbrev S64x64 : Shape := ⟨2, ![64, 64]⟩
abbrev S64x1 : Shape := ⟨2, ![64, 1]⟩
abbrev S1 : Shape := ⟨1, ![1]⟩
abbrev S_ : Shape := ⟨0, ![]⟩

class Facts : Prop where
  bcast_S_S100000x2 : S_.BroadcastsInDim S100000x2 (![] : Fin 0 → Fin S100000x2.rank)
  reducesTo_S100000x2_S_d0_1 : S100000x2.ReducesTo [0, 1] S_
  h_S_ : 0 < S_.numel
  bcast_S_S4x64 : S_.BroadcastsInDim S4x64 (![] : Fin 0 → Fin S4x64.rank)
  reducesTo_S4x64_S_d0_1 : S4x64.ReducesTo [0, 1] S_
  bcast_S_S64 : S_.BroadcastsInDim S64 (![] : Fin 0 → Fin S64.rank)
  reducesTo_S64_S_d0 : S64.ReducesTo [0] S_
  bcast_S_S128x64 : S_.BroadcastsInDim S128x64 (![] : Fin 0 → Fin S128x64.rank)
  reducesTo_S128x64_S_d0_1 : S128x64.ReducesTo [0, 1] S_
  bcast_S_S64x64 : S_.BroadcastsInDim S64x64 (![] : Fin 0 → Fin S64x64.rank)
  reducesTo_S64x64_S_d0_1 : S64x64.ReducesTo [0, 1] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_
  bcast_S_S2x1600000 : S_.BroadcastsInDim S2x1600000 (![] : Fin 0 → Fin S2x1600000.rank)
  reducesTo_S2x1600000_S_d0_1 : S2x1600000.ReducesTo [0, 1] S_

variable [Facts]

def fn_part6 {F : FTy → Type} [FloatOps F] (main_arg2 : IVec S2x1600000 32) (main_arg22 : FVec F S1 .f32) (main_v98 : IVec S_ 1) (main_v101 : IVec S64x1 1) (main_c_39 : IVec S_ 1) : IVec S_ 1 :=
  let main_v102 : IVec S_ 1 := (fun x v => Host.reduce IntOp.andi x v reducesTo_S64x1_S_d0_1 h_S_) main_v101 main_c_39
  let main_v103 : IVec S_ 1 := andi main_v98 main_v102
  let main_v104 : FVec F S1 .f32 := Host.absf main_arg22
  let main_cst_40 : FVec F S_ .f32 := constant S_ .f32 0x7F800000#32
  let main_v105 : FVec F S1 .f32 := broadcastInDim S1 ![] bcast_S_S1 main_cst_40
  let main_v106 : IVec S1 1 := cmpf .olt main_v104 main_v105
  let main_c_41 : IVec S_ 1 := constantI S_ 1 1#1
  let main_v107 : IVec S_ 1 := (fun x v => Host.reduce IntOp.andi x v reducesTo_S1_S_d0 h_S_) main_v106 main_c_41
  let main_v108 : IVec S_ 1 := andi main_v103 main_v107
  let main_c_42 : IVec S_ 32 := constantI S_ 32 0#32
  let main_v109 : IVec S2x1600000 32 := broadcastInDim S2x1600000 ![] bcast_S_S2x1600000 main_c_42
  let main_v110 : IVec S2x1600000 1 := cmpi .sge main_arg2 main_v109
  let main_c_43 : IVec S_ 1 := constantI S_ 1 1#1
  let main_v111 : IVec S_ 1 := (fun x v => Host.reduce IntOp.andi x v reducesTo_S2x1600000_S_d0_1 h_S_) main_v110 main_c_43
  let main_v112 : IVec S_ 1 := andi main_v108 main_v111
  let main_c_44 : IVec S_ 32 := constantI S_ 32 100000#32
  let main_v113 : IVec S2x1600000 32 := broadcastInDim S2x1600000 ![] bcast_S_S2x1600000 main_c_44
  let main_v114 : IVec S2x1600000 1 := cmpi .slt main_arg2 main_v113
  let main_c_45 : IVec S_ 1 := constantI S_ 1 1#1
  let main_v115 : IVec S_ 1 := (fun x v => Host.reduce IntOp.andi x v reducesTo_S2x1600000_S_d0_1 h_S_) main_v114 main_c_45
  let main_v116 : IVec S_ 1 := andi main_v112 main_v115
  main_v116

def fn_part5 {F : FTy → Type} [FloatOps F] (main_arg2 : IVec S2x1600000 32) (main_arg19 : FVec F S64 .f32) (main_arg20 : FVec F S64 .f32) (main_arg21 : FVec F S64x1 .f32) (main_arg22 : FVec F S1 .f32) (main_v83 : IVec S_ 1) (main_v84 : FVec F S64 .f32) (main_cst_32 : FVec F S_ .f32) : IVec S_ 1 :=
  let main_v85 : FVec F S64 .f32 := broadcastInDim S64 ![] bcast_S_S64 main_cst_32
  let main_v86 : IVec S64 1 := cmpf .olt main_v84 main_v85
  let main_c_33 : IVec S_ 1 := constantI S_ 1 1#1
  let main_v87 : IVec S_ 1 := (fun x v => Host.reduce IntOp.andi x v reducesTo_S64_S_d0 h_S_) main_v86 main_c_33
  let main_v88 : IVec S_ 1 := andi main_v83 main_v87
  let main_v89 : FVec F S64 .f32 := Host.absf main_arg19
  let main_cst_34 : FVec F S_ .f32 := constant S_ .f32 0x7F800000#32
  let main_v90 : FVec F S64 .f32 := broadcastInDim S64 ![] bcast_S_S64 main_cst_34
  let main_v91 : IVec S64 1 := cmpf .olt main_v89 main_v90
  let main_c_35 : IVec S_ 1 := constantI S_ 1 1#1
  let main_v92 : IVec S_ 1 := (fun x v => Host.reduce IntOp.andi x v reducesTo_S64_S_d0 h_S_) main_v91 main_c_35
  let main_v93 : IVec S_ 1 := andi main_v88 main_v92
  let main_v94 : FVec F S64 .f32 := Host.absf main_arg20
  let main_cst_36 : FVec F S_ .f32 := constant S_ .f32 0x7F800000#32
  let main_v95 : FVec F S64 .f32 := broadcastInDim S64 ![] bcast_S_S64 main_cst_36
  let main_v96 : IVec S64 1 := cmpf .olt main_v94 main_v95
  let main_c_37 : IVec S_ 1 := constantI S_ 1 1#1
  let main_v97 : IVec S_ 1 := (fun x v => Host.reduce IntOp.andi x v reducesTo_S64_S_d0 h_S_) main_v96 main_c_37
  let main_v98 : IVec S_ 1 := andi main_v93 main_v97
  let main_v99 : FVec F S64x1 .f32 := Host.absf main_arg21
  let main_cst_38 : FVec F S_ .f32 := constant S_ .f32 0x7F800000#32
  let main_v100 : FVec F S64x1 .f32 := broadcastInDim S64x1 ![] bcast_S_S64x1 main_cst_38
  let main_v101 : IVec S64x1 1 := cmpf .olt main_v99 main_v100
  let main_c_39 : IVec S_ 1 := constantI S_ 1 1#1
  fn_part6 (F := F) main_arg2 main_arg22 main_v98 main_v101 main_c_39

def fn_part4 {F : FTy → Type} [FloatOps F] (main_arg2 : IVec S2x1600000 32) (main_arg15 : FVec F S64 .f32) (main_arg16 : FVec F S64 .f32) (main_arg17 : FVec F S64x64 .f32) (main_arg18 : FVec F S64 .f32) (main_arg19 : FVec F S64 .f32) (main_arg20 : FVec F S64 .f32) (main_arg21 : FVec F S64x1 .f32) (main_arg22 : FVec F S1 .f32) (main_v63 : IVec S_ 1) (main_v67 : IVec S_ 1) : IVec S_ 1 :=
  let main_v68 : IVec S_ 1 := andi main_v63 main_v67
  let main_v69 : FVec F S64 .f32 := Host.absf main_arg15
  let main_cst_26 : FVec F S_ .f32 := constant S_ .f32 0x7F800000#32
  let main_v70 : FVec F S64 .f32 := broadcastInDim S64 ![] bcast_S_S64 main_cst_26
  let main_v71 : IVec S64 1 := cmpf .olt main_v69 main_v70
  let main_c_27 : IVec S_ 1 := constantI S_ 1 1#1
  let main_v72 : IVec S_ 1 := (fun x v => Host.reduce IntOp.andi x v reducesTo_S64_S_d0 h_S_) main_v71 main_c_27
  let main_v73 : IVec S_ 1 := andi main_v68 main_v72
  let main_v74 : FVec F S64 .f32 := Host.absf main_arg16
  let main_cst_28 : FVec F S_ .f32 := constant S_ .f32 0x7F800000#32
  let main_v75 : FVec F S64 .f32 := broadcastInDim S64 ![] bcast_S_S64 main_cst_28
  let main_v76 : IVec S64 1 := cmpf .olt main_v74 main_v75
  let main_c_29 : IVec S_ 1 := constantI S_ 1 1#1
  let main_v77 : IVec S_ 1 := (fun x v => Host.reduce IntOp.andi x v reducesTo_S64_S_d0 h_S_) main_v76 main_c_29
  let main_v78 : IVec S_ 1 := andi main_v73 main_v77
  let main_v79 : FVec F S64x64 .f32 := Host.absf main_arg17
  let main_cst_30 : FVec F S_ .f32 := constant S_ .f32 0x7F800000#32
  let main_v80 : FVec F S64x64 .f32 := broadcastInDim S64x64 ![] bcast_S_S64x64 main_cst_30
  let main_v81 : IVec S64x64 1 := cmpf .olt main_v79 main_v80
  let main_c_31 : IVec S_ 1 := constantI S_ 1 1#1
  let main_v82 : IVec S_ 1 := (fun x v => Host.reduce IntOp.andi x v reducesTo_S64x64_S_d0_1 h_S_) main_v81 main_c_31
  let main_v83 : IVec S_ 1 := andi main_v78 main_v82
  let main_v84 : FVec F S64 .f32 := Host.absf main_arg18
  let main_cst_32 : FVec F S_ .f32 := constant S_ .f32 0x7F800000#32
  fn_part5 (F := F) main_arg2 main_arg19 main_arg20 main_arg21 main_arg22 main_v83 main_v84 main_cst_32

def fn_part3 {F : FTy → Type} [FloatOps F] (main_arg2 : IVec S2x1600000 32) (main_arg12 : FVec F S64 .f32) (main_arg13 : FVec F S128x64 .f32) (main_arg14 : FVec F S64 .f32) (main_arg15 : FVec F S64 .f32) (main_arg16 : FVec F S64 .f32) (main_arg17 : FVec F S64x64 .f32) (main_arg18 : FVec F S64 .f32) (main_arg19 : FVec F S64 .f32) (main_arg20 : FVec F S64 .f32) (main_arg21 : FVec F S64x1 .f32) (main_arg22 : FVec F S1 .f32) (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  let main_v54 : FVec F S64 .f32 := Host.absf main_arg12
  let main_cst_20 : FVec F S_ .f32 := constant S_ .f32 0x7F800000#32
  let main_v55 : FVec F S64 .f32 := broadcastInDim S64 ![] bcast_S_S64 main_cst_20
  let main_v56 : IVec S64 1 := cmpf .olt main_v54 main_v55
  let main_c_21 : IVec S_ 1 := constantI S_ 1 1#1
  let main_v57 : IVec S_ 1 := (fun x v => Host.reduce IntOp.andi x v reducesTo_S64_S_d0 h_S_) main_v56 main_c_21
  let main_v58 : IVec S_ 1 := andi main_v53 main_v57
  let main_v59 : FVec F S128x64 .f32 := Host.absf main_arg13
  let main_cst_22 : FVec F S_ .f32 := constant S_ .f32 0x7F800000#32
  let main_v60 : FVec F S128x64 .f32 := broadcastInDim S128x64 ![] bcast_S_S128x64 main_cst_22
  let main_v61 : IVec S128x64 1 := cmpf .olt main_v59 main_v60
  let main_c_23 : IVec S_ 1 := constantI S_ 1 1#1
  let main_v62 : IVec S_ 1 := (fun x v => Host.reduce IntOp.andi x v reducesTo_S128x64_S_d0_1 h_S_) main_v61 main_c_23
  let main_v63 : IVec S_ 1 := andi main_v58 main_v62
  let main_v64 : FVec F S64 .f32 := Host.absf main_arg14
  let main_cst_24 : FVec F S_ .f32 := constant S_ .f32 0x7F800000#32
  let main_v65 : FVec F S64 .f32 := broadcastInDim S64 ![] bcast_S_S64 main_cst_24
  let main_v66 : IVec S64 1 := cmpf .olt main_v64 main_v65
  let main_c_25 : IVec S_ 1 := constantI S_ 1 1#1
  let main_v67 : IVec S_ 1 := (fun x v => Host.reduce IntOp.andi x v reducesTo_S64_S_d0 h_S_) main_v66 main_c_25
  fn_part4 (F := F) main_arg2 main_arg15 main_arg16 main_arg17 main_arg18 main_arg19 main_arg20 main_arg21 main_arg22 main_v63 main_v67

def fn_part2 {F : FTy → Type} [FloatOps F] (main_arg2 : IVec S2x1600000 32) (main_arg8 : FVec F S64 .f32) (main_arg9 : FVec F S64x64 .f32) (main_arg10 : FVec F S64 .f32) (main_arg11 : FVec F S64 .f32) (main_arg12 : FVec F S64 .f32) (main_arg13 : FVec F S128x64 .f32) (main_arg14 : FVec F S64 .f32) (main_arg15 : FVec F S64 .f32) (main_arg16 : FVec F S64 .f32) (main_arg17 : FVec F S64x64 .f32) (main_arg18 : FVec F S64 .f32) (main_arg19 : FVec F S64 .f32) (main_arg20 : FVec F S64 .f32) (main_arg21 : FVec F S64x1 .f32) (main_arg22 : FVec F S1 .f32) (main_v33 : IVec S_ 1) : IVec S_ 1 :=
  let main_v34 : FVec F S64 .f32 := Host.absf main_arg8
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S64x64 .f32 := Host.absf main_arg9
  let main_cst_14 : FVec F S_ .f32 := constant S_ .f32 0x7F800000#32
  let main_v40 : FVec F S64x64 .f32 := broadcastInDim S64x64 ![] bcast_S_S64x64 main_cst_14
  let main_v41 : IVec S64x64 1 := cmpf .olt main_v39 main_v40
  let main_c_15 : IVec S_ 1 := constantI S_ 1 1#1
  let main_v42 : IVec S_ 1 := (fun x v => Host.reduce IntOp.andi x v reducesTo_S64x64_S_d0_1 h_S_) main_v41 main_c_15
  let main_v43 : IVec S_ 1 := andi main_v38 main_v42
  let main_v44 : FVec F S64 .f32 := Host.absf main_arg10
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  let main_v49 : FVec F S64 .f32 := Host.absf main_arg11
  let main_cst_18 : FVec F S_ .f32 := constant S_ .f32 0x7F800000#32
  let main_v50 : FVec F S64 .f32 := broadcastInDim S64 ![] bcast_S_S64 main_cst_18
  fn_part3 (F := F) main_arg2 main_arg12 main_arg13 main_arg14 main_arg15 main_arg16 main_arg17 main_arg18 main_arg19 main_arg20 main_arg21 main_arg22 main_v48 main_v49 main_v50

def fn_part1 {F : FTy → Type} [FloatOps F] (main_arg2 : IVec S2x1600000 32) (main_arg5 : FVec F S128x64 .f32) (main_arg6 : FVec F S64 .f32) (main_arg7 : FVec F S64 .f32) (main_arg8 : FVec F S64 .f32) (main_arg9 : FVec F S64x64 .f32) (main_arg10 : FVec F S64 .f32) (main_arg11 : FVec F S64 .f32) (main_arg12 : FVec F S64 .f32) (main_arg13 : FVec F S128x64 .f32) (main_arg14 : FVec F S64 .f32) (main_arg15 : FVec F S64 .f32) (main_arg16 : FVec F S64 .f32) (main_arg17 : FVec F S64x64 .f32) (main_arg18 : FVec F S64 .f32) (main_arg19 : FVec F S64 .f32) (main_arg20 : FVec F S64 .f32) (main_arg21 : FVec F S64x1 .f32) (main_arg22 : FVec F S1 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S128x64 .f32 := Host.absf main_arg5
  let main_cst_6 : FVec F S_ .f32 := constant S_ .f32 0x7F800000#32
  let main_v20 : FVec F S128x64 .f32 := broadcastInDim S128x64 ![] bcast_S_S128x64 main_cst_6
  let main_v21 : IVec S128x64 1 := cmpf .olt main_v19 main_v20
  let main_c_7 : IVec S_ 1 := constantI S_ 1 1#1
  let main_v22 : IVec S_ 1 := (fun x v => Host.reduce IntOp.andi x v reducesTo_S128x64_S_d0_1 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg2 main_arg8 main_arg9 main_arg10 main_arg11 main_arg12 main_arg13 main_arg14 main_arg15 main_arg16 main_arg17 main_arg18 main_arg19 main_arg20 main_arg21 main_arg22 main_v33

def fn {F : FTy → Type} [FloatOps F] (main_arg0 : FVec F S100000x2 .f32) (main_arg1 : FVec F S100000x2 .f32) (main_arg2 : IVec S2x1600000 32) (main_arg3 : FVec F S4x64 .f32) (main_arg4 : FVec F S64 .f32) (main_arg5 : FVec F S128x64 .f32) (main_arg6 : FVec F S64 .f32) (main_arg7 : FVec F S64 .f32) (main_arg8 : FVec F S64 .f32) (main_arg9 : FVec F S64x64 .f32) (main_arg10 : FVec F S64 .f32) (main_arg11 : FVec F S64 .f32) (main_arg12 : FVec F S64 .f32) (main_arg13 : FVec F S128x64 .f32) (main_arg14 : FVec F S64 .f32) (main_arg15 : FVec F S64 .f32) (main_arg16 : FVec F S64 .f32) (main_arg17 : FVec F S64x64 .f32) (main_arg18 : FVec F S64 .f32) (main_arg19 : FVec F S64 .f32) (main_arg20 : FVec F S64 .f32) (main_arg21 : FVec F S64x1 .f32) (main_arg22 : FVec F S1 .f32) : IVec S_ 1 :=
  let main_v0 : FVec F S100000x2 .f32 := Host.absf main_arg0
  let main_cst : FVec F S_ .f32 := constant S_ .f32 0x7F800000#32
  let main_v1 : FVec F S100000x2 .f32 := broadcastInDim S100000x2 ![] bcast_S_S100000x2 main_cst
  let main_v2 : IVec S100000x2 1 := cmpf .olt main_v0 main_v1
  let main_c : IVec S_ 1 := constantI S_ 1 1#1
  let main_v3 : IVec S_ 1 := (fun x v => Host.reduce IntOp.andi x v reducesTo_S100000x2_S_d0_1 h_S_) main_v2 main_c
  let main_v4 : FVec F S100000x2 .f32 := Host.absf main_arg1
  let main_cst_0 : FVec F S_ .f32 := constant S_ .f32 0x7F800000#32
  let main_v5 : FVec F S100000x2 .f32 := broadcastInDim S100000x2 ![] bcast_S_S100000x2 main_cst_0
  let main_v6 : IVec S100000x2 1 := cmpf .olt main_v4 main_v5
  let main_c_1 : IVec S_ 1 := constantI S_ 1 1#1
  let main_v7 : IVec S_ 1 := (fun x v => Host.reduce IntOp.andi x v reducesTo_S100000x2_S_d0_1 h_S_) main_v6 main_c_1
  let main_v8 : IVec S_ 1 := andi main_v3 main_v7
  let main_v9 : FVec F S4x64 .f32 := Host.absf main_arg3
  let main_cst_2 : FVec F S_ .f32 := constant S_ .f32 0x7F800000#32
  let main_v10 : FVec F S4x64 .f32 := broadcastInDim S4x64 ![] bcast_S_S4x64 main_cst_2
  let main_v11 : IVec S4x64 1 := cmpf .olt main_v9 main_v10
  let main_c_3 : IVec S_ 1 := constantI S_ 1 1#1
  let main_v12 : IVec S_ 1 := (fun x v => Host.reduce IntOp.andi x v reducesTo_S4x64_S_d0_1 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg2 main_arg5 main_arg6 main_arg7 main_arg8 main_arg9 main_arg10 main_arg11 main_arg12 main_arg13 main_arg14 main_arg15 main_arg16 main_arg17 main_arg18 main_arg19 main_arg20 main_arg21 main_arg22 main_v13 main_v16
-- ==== Kernel.lean ====
abbrev S100000x2 : Shape := ⟨2, ![100000, 2]⟩
abbrev S2x1600000 : Shape := ⟨2, ![2, 1600000]⟩
abbrev S4x64 : Shape := ⟨2, ![4, 64]⟩
abbrev S64 : Shape := ⟨1, ![64]⟩
abbrev S128x64 : Shape := ⟨2, ![128, 64]⟩
abbrev S64x64 : Shape := ⟨2, ![64, 64]⟩
abbrev S64x1 : Shape := ⟨2, ![64, 1]⟩
abbrev S1 : Shape := ⟨1, ![1]⟩
abbrev S100000x4 : Shape := ⟨2, ![100000, 4]⟩
abbrev S1x64 : Shape := ⟨2, ![1, 64]⟩
abbrev S100000x64 : Shape := ⟨2, ![100000, 64]⟩
abbrev S20000x4 : Shape := ⟨2, ![20000, 4]⟩
abbrev S20000x64 : Shape := ⟨2, ![20000, 64]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1x1 : Shape := ⟨2, ![1, 1]⟩
abbrev S1600000x64 : Shape := ⟨2, ![1600000, 64]⟩
abbrev S1600000x128 : Shape := ⟨2, ![1600000, 128]⟩
abbrev S20000x128 : Shape := ⟨2, ![20000, 128]⟩
abbrev S100000x128 : Shape := ⟨2, ![100000, 128]⟩
abbrev S100000x1 : Shape := ⟨2, ![100000, 1]⟩
abbrev S20000x1 : Shape := ⟨2, ![20000, 1]⟩
abbrev S100000 : Shape := ⟨1, ![100000]⟩

abbrev nBuf : Space → Nat
  | .hbm => 158
  | .vmem => 64
  | .smem => 0
  | _ => 0

abbrev hbmTy0_0 (i : Nat) : BufTy := match i % 128 with
  | 0 => ⟨S100000x2, .f32⟩
  | 1 => ⟨S100000x2, .f32⟩
  | 2 => ⟨S2x1600000, .i32⟩
  | 3 => ⟨S4x64, .f32⟩
  | 4 => ⟨S64, .f32⟩
  | 5 => ⟨S128x64, .f32⟩
  | 6 => ⟨S64, .f32⟩
  | 7 => ⟨S64, .f32⟩
  | 8 => ⟨S64, .f32⟩
  | 9 => ⟨S64x64, .f32⟩
  | 10 => ⟨S64, .f32⟩
  | 11 => ⟨S64, .f32⟩
  | 12 => ⟨S64, .f32⟩
  | 13 => ⟨S128x64, .f32⟩
  | 14 => ⟨S64, .f32⟩
  | 15 => ⟨S64, .f32⟩
  | 16 => ⟨S64, .f32⟩
  | 17 => ⟨S64x64, .f32⟩
  | 18 => ⟨S64, .f32⟩
  | 19 => ⟨S64, .f32⟩
  | 20 => ⟨S64, .f32⟩
  | 21 => ⟨S64x1, .f32⟩
  | 22 => ⟨S1, .f32⟩
  | 23 => ⟨S100000x4, .f32⟩
  | 24 => ⟨S1x64, .f32⟩
  | 25 => ⟨S100000x64, .f32⟩
  | 26 => ⟨S1x1600000, .i32⟩
  | 27 => ⟨S1600000, .i32⟩
  | 28 => ⟨S1x1600000, .i32⟩
  | 29 => ⟨S1600000, .i32⟩
  | 30 => ⟨S_, .i32⟩
  | 31 => ⟨S1600000, .i32⟩
  | 32 => ⟨S1600000, .i1⟩
  | 33 => ⟨S_, .i32⟩
  | 34 => ⟨S1600000, .i32⟩
  | 35 => ⟨S1600000, .i32⟩
  | 36 => ⟨S1600000, .i32⟩
  | 37 => ⟨S1600000x1, .i32⟩
  | 38 => ⟨S1, .i32⟩
  | 39 => ⟨S_, .i32⟩
  | 40 => ⟨S1600000x1, .i32⟩
  | 41 => ⟨S1600000x1, .i1⟩
  | 42 => ⟨S1x1, .i32⟩
  | 43 => ⟨S1600000x1, .i32⟩
  | 44 => ⟨S1600000x1, .i1⟩
  | 45 => ⟨S1600000x1, .i1⟩
  | 46 => ⟨S_, .i1⟩
  | 47 => ⟨S1600000, .i1⟩
  | 48 => ⟨S1600000x64, .f32⟩
  | 49 => ⟨S1600000x64, .i1⟩
  | 50 => ⟨S_, .f32⟩
  | 51 => ⟨S1600000x64, .f32⟩
  | 52 => ⟨S1600000x64, .f32⟩
  | 53 => ⟨S_, .i32⟩
  | 54 => ⟨S1600000, .i32⟩
  | 55 => ⟨S1600000, .i1⟩
  | 56 => ⟨S_, .i32⟩
  | 57 => ⟨S1600000, .i32⟩
  | 58 => ⟨S1600000, .i32⟩
  | 59 => ⟨S1600000, .i32⟩
  | 60 => ⟨S1600000x1, .i32⟩
  | 61 => ⟨S1, .i32⟩
  | 62 => ⟨S_, .i32⟩
  | 63 => ⟨S1600000x1, .i32⟩
  | 64 => ⟨S1600000x1, .i1⟩
  | 65 => ⟨S1x1, .i32⟩
  | 66 => ⟨S1600000x1, .i32⟩
  | 67 => ⟨S1600000x1, .i1⟩
  | 68 => ⟨S1600000x1, .i1⟩
  | 69 => ⟨S_, .i1⟩
  | 70 => ⟨S1600000, .i1⟩
  | 71 => ⟨S1600000x64, .f32⟩
  | 72 => ⟨S1600000x64, .i1⟩
  | 73 => ⟨S_, .f32⟩
  | 74 => ⟨S1600000x64, .f32⟩
  | 75 => ⟨S1600000x64, .f32⟩
  | 76 => ⟨S1600000x128, .f32⟩
  | 77 => ⟨S1x64, .f32⟩
  | 78 => ⟨S1600000x64, .f32⟩
  | 79 => ⟨S1x64, .f32⟩
  | 80 => ⟨S1x64, .f32⟩
  | 81 => ⟨S64, .f32⟩
  | 82 => ⟨S_, .f32⟩
  | 83 => ⟨S64, .f32⟩
  | 84 => ⟨S64, .f32⟩
  | 85 => ⟨S64, .f32⟩
  | 86 => ⟨S_, .f32⟩
  | 87 => ⟨S64, .f32⟩
  | 88 => ⟨S64, .f32⟩
  | 89 => ⟨S64, .f32⟩
  | 90 => ⟨S64, .f32⟩
  | 91 => ⟨S1x64, .f32⟩
  | 92 => ⟨S1x64, .f32⟩
  | 93 => ⟨S1x64, .f32⟩
  | 94 => ⟨S1x64, .f32⟩
  | 95 => ⟨S1x64, .f32⟩
  | 96 => ⟨S1600000x64, .f32⟩
  | 97 => ⟨S1x64, .f32⟩
  | 98 => ⟨S1x64, .f32⟩
  | 99 => ⟨S64, .f32⟩
  | 100 => ⟨S_, .f32⟩
  | 101 => ⟨S64, .f32⟩
  | 102 => ⟨S64, .f32⟩
  | 103 => ⟨S64, .f32⟩
  | 104 => ⟨S_, .f32⟩
  | 105 => ⟨S64, .f32⟩
  | 106 => ⟨S64, .f32⟩
  | 107 => ⟨S64, .f32⟩
  | 108 => ⟨S64, .f32⟩
  | 109 => ⟨S1x64, .f32⟩
  | 110 => ⟨S1x64, .f32⟩
  | 111 => ⟨S1x64, .f32⟩
  | 112 => ⟨S1x64, .f32⟩
  | 113 => ⟨S1600000x64, .f32⟩
  | 114 => ⟨S_, .f32⟩
  | 115 => ⟨S100000x64, .f32⟩
  | 116 => ⟨S1600000x1, .i32⟩
  | 117 => ⟨S100000x64, .f32⟩
  | 118 => ⟨S100000x128, .f32⟩
  | 119 => ⟨S1x64, .f32⟩
  | 120 => ⟨S100000x64, .f32⟩
  | 121 => ⟨S1x64, .f32⟩
  | 122 => ⟨S1x64, .f32⟩
  | 123 => ⟨S64, .f32⟩
  | 124 => ⟨S_, .f32⟩
  | 125 => ⟨S64, .f32⟩
  | 126 => ⟨S64, .f32⟩
  | 127 => ⟨S64, .f32⟩
  | _ => ⟨S100000x2, .f32⟩

abbrev hbmTy0_1 (i : Nat) : BufTy := match i % 128 with
  | 0 => ⟨S_, .f32⟩
  | 1 => ⟨S64, .f32⟩
  | 2 => ⟨S64, .f32⟩
  | 3 => ⟨S64, .f32⟩
  | 4 => ⟨S64, .f32⟩
  | 5 => ⟨S1x64, .f32⟩
  | 6 => ⟨S1x64, .f32⟩
  | 7 => ⟨S1x64, .f32⟩
  | 8 => ⟨S1x64, .f32⟩
  | 9 => ⟨S1x64, .f32⟩
  | 10 => ⟨S100000x64, .f32⟩
  | 11 => ⟨S1x64, .f32⟩
  | 12 => ⟨S1x64, .f32⟩
  | 13 => ⟨S64, .f32⟩
  | 14 => ⟨S_, .f32⟩
  | 15 => ⟨S64, .f32⟩
  | 16 => ⟨S64, .f32⟩
  | 17 => ⟨S64, .f32⟩
  | 18 => ⟨S_, .f32⟩
  | 19 => ⟨S64, .f32⟩
  | 20 => ⟨S64, .f32⟩
  | 21 => ⟨S64, .f32⟩
  | 22 => ⟨S64, .f32⟩
  | 23 => ⟨S1x64, .f32⟩
  | 24 => ⟨S1x64, .f32⟩
  | 25 => ⟨S1x64, .f32⟩
  | 26 => ⟨S1x64, .f32⟩
  | 27 => ⟨S1x1, .f32⟩
  | 28 => ⟨S100000x1, .f32⟩
  | 29 => ⟨S100000, .f32⟩
  | _ => ⟨S100000x2, .f32⟩

abbrev hbmTy (i : Nat) : BufTy := match i / 128 with
  | 0 => hbmTy0_0 i
  | 1 => hbmTy0_1 i
  | _ => ⟨S100000x2, .f32⟩

abbrev bufTy : (tb : Table) → Fin (tcTables nBuf tb) → BufTy
  | .hbm, ⟨i, _⟩ => hbmTy i
  | .local _ .vmem, ⟨0, _⟩ => ⟨S20000x4, .f32⟩
  | .local _ .vmem, ⟨1, _⟩ => ⟨S20000x4, .f32⟩
  | .local _ .vmem, ⟨2, _⟩ => ⟨S4x64, .f32⟩
  | .local _ .vmem, ⟨3, _⟩ => ⟨S1x64, .f32⟩
  | .local _ .vmem, ⟨4, _⟩ => ⟨S20000x64, .f32⟩
  | .local _ .vmem, ⟨5, _⟩ => ⟨S20000x64, .f32⟩
  | .local _ .vmem, ⟨6, _⟩ => ⟨S20000x128, .f32⟩
  | .local _ .vmem, ⟨7, _⟩ => ⟨S20000x128, .f32⟩
  | .local _ .vmem, ⟨8, _⟩ => ⟨S128x64, .f32⟩
  | .local _ .vmem, ⟨9, _⟩ => ⟨S1x64, .f32⟩
  | .local _ .vmem, ⟨10, _⟩ => ⟨S20000x64, .f32⟩
  | .local _ .vmem, ⟨11, _⟩ => ⟨S20000x64, .f32⟩
  | .local _ .vmem, ⟨12, _⟩ => ⟨S1x64, .f32⟩
  | .local _ .vmem, ⟨13, _⟩ => ⟨S1x64, .f32⟩
  | .local _ .vmem, ⟨14, _⟩ => ⟨S20000x64, .f32⟩
  | .local _ .vmem, ⟨15, _⟩ => ⟨S20000x64, .f32⟩
  | .local _ .vmem, ⟨16, _⟩ => ⟨S1x64, .f32⟩
  | .local _ .vmem, ⟨17, _⟩ => ⟨S1x64, .f32⟩
  | .local _ .vmem, ⟨18, _⟩ => ⟨S1x64, .f32⟩
  | .local _ .vmem, ⟨19, _⟩ => ⟨S1x64, .f32⟩
  | .local _ .vmem, ⟨20, _⟩ => ⟨S64x64, .f32⟩
  | .local _ .vmem, ⟨21, _⟩ => ⟨S1x64, .f32⟩
  | .local _ .vmem, ⟨22, _⟩ => ⟨S20000x64, .f32⟩
  | .local _ .vmem, ⟨23, _⟩ => ⟨S20000x64, .f32⟩
  | .local _ .vmem, ⟨24, _⟩ => ⟨S1x64, .f32⟩
  | .local _ .vmem, ⟨25, _⟩ => ⟨S1x64, .f32⟩
  | .local _ .vmem, ⟨26, _⟩ => ⟨S20000x64, .f32⟩
  | .local _ .vmem, ⟨27, _⟩ => ⟨S20000x64, .f32⟩
  | .local _ .vmem, ⟨28, _⟩ => ⟨S1x64, .f32⟩
  | .local _ .vmem, ⟨29, _⟩ => ⟨S1x64, .f32⟩
  | .local _ .vmem, ⟨30, _⟩ => ⟨S1x64, .f32⟩
  | .local _ .vmem, ⟨31, _⟩ => ⟨S1x64, .f32⟩
  | .local _ .vmem, ⟨32, _⟩ => ⟨S20000x64, .f32⟩
  | .local _ .vmem, ⟨33, _⟩ => ⟨S20000x64, .f32⟩
  | .local _ .vmem, ⟨34, _⟩ => ⟨S20000x128, .f32⟩
  | .local _ .vmem, ⟨35, _⟩ => ⟨S20000x128, .f32⟩
  | .local _ .vmem, ⟨36, _⟩ => ⟨S128x64, .f32⟩
  | .local _ .vmem, ⟨37, _⟩ => ⟨S1x64, .f32⟩
  | .local _ .vmem, ⟨38, _⟩ => ⟨S20000x64, .f32⟩
  | .local _ .vmem, ⟨39, _⟩ => ⟨S20000x64, .f32⟩
  | .local _ .vmem, ⟨40, _⟩ => ⟨S1x64, .f32⟩
  | .local _ .vmem, ⟨41, _⟩ => ⟨S1x64, .f32⟩
  | .local _ .vmem, ⟨42, _⟩ => ⟨S20000x64, .f32⟩
  | .local _ .vmem, ⟨43, _⟩ => ⟨S20000x64, .f32⟩
  | .local _ .vmem, ⟨44, _⟩ => ⟨S1x64, .f32⟩
  | .local _ .vmem, ⟨45, _⟩ => ⟨S1x64, .f32⟩
  | .local _ .vmem, ⟨46, _⟩ => ⟨S1x64, .f32⟩
  | .local _ .vmem, ⟨47, _⟩ => ⟨S1x64, .f32⟩
  | .local _ .vmem, ⟨48, _⟩ => ⟨S64x64, .f32⟩
  | .local _ .vmem, ⟨49, _⟩ => ⟨S1x64, .f32⟩
  | .local _ .vmem, ⟨50, _⟩ => ⟨S20000x64, .f32⟩
  | .local _ .vmem, ⟨51, _⟩ => ⟨S20000x64, .f32⟩
  | .local _ .vmem, ⟨52, _⟩ => ⟨S1x64, .f32⟩
  | .local _ .vmem, ⟨53, _⟩ => ⟨S1x64, .f32⟩
  | .local _ .vmem, ⟨54, _⟩ => ⟨S20000x64, .f32⟩
  | .local _ .vmem, ⟨55, _⟩ => ⟨S20000x64, .f32⟩
  | .local _ .vmem, ⟨56, _⟩ => ⟨S1x64, .f32⟩
  | .local _ .vmem, ⟨57, _⟩ => ⟨S1x64, .f32⟩
  | .local _ .vmem, ⟨58, _⟩ => ⟨S1x64, .f32⟩
  | .local _ .vmem, ⟨59, _⟩ => ⟨S1x64, .f32⟩
  | .local _ .vmem, ⟨60, _⟩ => ⟨S64x1, .f32⟩
  | .local _ .vmem, ⟨61, _⟩ => ⟨S1x1, .f32⟩
  | .local _ .vmem, ⟨62, _⟩ => ⟨S20000x1, .f32⟩
  | .local _ .vmem, ⟨63, _⟩ => ⟨S20000x1, .f32⟩
  | _, _ => ⟨S100000x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | _, _ => false

abbrev semScoped : Fin 0 → Bool
  | ⟨_, h⟩ => absurd h (Nat.not_lt_zero _)

abbrev dmaSemScoped : Fin 64 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | _ => false

abbrev sig : RefSig :=
  ofTc nBuf bufTy 0 64 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_v0 : Ref sig .tc := ⟨.hbm, 23, rfl⟩
abbrev main_v1 : Ref sig .tc := ⟨.hbm, 24, rfl⟩
abbrev main_v2 : Ref sig .tc := ⟨.hbm, 25, rfl⟩
abbrev main_v3 : Ref sig .tc := ⟨.hbm, 26, rfl⟩
abbrev main_v4 : Ref sig .tc := ⟨.hbm, 27, rfl⟩
abbrev main_v5 : Ref sig .tc := ⟨.hbm, 28, rfl⟩
abbrev main_v6 : Ref sig .tc := ⟨.hbm, 29, rfl⟩
abbrev main_call0_c : Ref sig .tc := ⟨.hbm, 30, rfl⟩
abbrev main_call0_v0 : Ref sig .tc := ⟨.hbm, 31, rfl⟩
abbrev main_call0_v1 : Ref sig .tc := ⟨.hbm, 32, rfl⟩
abbrev main_call0_c_0 : Ref sig .tc := ⟨.hbm, 33, rfl⟩
abbrev main_call0_v2 : Ref sig .tc := ⟨.hbm, 34, rfl⟩
abbrev main_call0_v3 : Ref sig .tc := ⟨.hbm, 35, rfl⟩
abbrev main_call0_v4 : Ref sig .tc := ⟨.hbm, 36, rfl⟩
abbrev main_call0_v5 : Ref sig .tc := ⟨.hbm, 37, rfl⟩
abbrev main_call0_c_1 : Ref sig .tc := ⟨.hbm, 38, rfl⟩
abbrev main_call0_c_2 : Ref sig .tc := ⟨.hbm, 39, rfl⟩
abbrev main_call0_v6 : Ref sig .tc := ⟨.hbm, 40, rfl⟩
abbrev main_call0_v7 : Ref sig .tc := ⟨.hbm, 41, rfl⟩
abbrev main_call0_v8 : Ref sig .tc := ⟨.hbm, 42, rfl⟩
abbrev main_call0_v9 : Ref sig .tc := ⟨.hbm, 43, rfl⟩
abbrev main_call0_v10 : Ref sig .tc := ⟨.hbm, 44, rfl⟩
abbrev main_call0_v11 : Ref sig .tc := ⟨.hbm, 45, rfl⟩
abbrev main_call0_c_3 : Ref sig .tc := ⟨.hbm, 46, rfl⟩
abbrev main_call0_v12 : Ref sig .tc := ⟨.hbm, 47, rfl⟩
abbrev main_call0_v13 : Ref sig .tc := ⟨.hbm, 48, rfl⟩
abbrev main_call0_v14 : Ref sig .tc := ⟨.hbm, 49, rfl⟩
abbrev main_call0_cst : Ref sig .tc := ⟨.hbm, 50, rfl⟩
abbrev main_call0_v15 : Ref sig .tc := ⟨.hbm, 51, rfl⟩
abbrev main_v7 : Ref sig .tc := ⟨.hbm, 52, rfl⟩
abbrev main_call1_c : Ref sig .tc := ⟨.hbm, 53, rfl⟩
abbrev main_call1_v0 : Ref sig .tc := ⟨.hbm, 54, rfl⟩
abbrev main_call1_v1 : Ref sig .tc := ⟨.hbm, 55, rfl⟩
abbrev main_call1_c_0 : Ref sig .tc := ⟨.hbm, 56, rfl⟩
abbrev main_call1_v2 : Ref sig .tc := ⟨.hbm, 57, rfl⟩
abbrev main_call1_v3 : Ref sig .tc := ⟨.hbm, 58, rfl⟩
abbrev main_call1_v4 : Ref sig .tc := ⟨.hbm, 59, rfl⟩
abbrev main_call1_v5 : Ref sig .tc := ⟨.hbm, 60, rfl⟩
abbrev main_call1_c_1 : Ref sig .tc := ⟨.hbm, 61, rfl⟩
abbrev main_call1_c_2 : Ref sig .tc := ⟨.hbm, 62, rfl⟩
abbrev main_call1_v6 : Ref sig .tc := ⟨.hbm, 63, rfl⟩
abbrev main_call1_v7 : Ref sig .tc := ⟨.hbm, 64, rfl⟩
abbrev main_call1_v8 : Ref sig .tc := ⟨.hbm, 65, rfl⟩
abbrev main_call1_v9 : Ref sig .tc := ⟨.hbm, 66, rfl⟩
abbrev main_call1_v10 : Ref sig .tc := ⟨.hbm, 67, rfl⟩
abbrev main_call1_v11 : Ref sig .tc := ⟨.hbm, 68, rfl⟩
abbrev main_call1_c_3 : Ref sig .tc := ⟨.hbm, 69, rfl⟩
abbrev main_call1_v12 : Ref sig .tc := ⟨.hbm, 70, rfl⟩
abbrev main_call1_v13 : Ref sig .tc := ⟨.hbm, 71, rfl⟩
abbrev main_call1_v14 : Ref sig .tc := ⟨.hbm, 72, rfl⟩
abbrev main_call1_cst : Ref sig .tc := ⟨.hbm, 73, rfl⟩
abbrev main_call1_v15 : Ref sig .tc := ⟨.hbm, 74, rfl⟩
abbrev main_v8 : Ref sig .tc := ⟨.hbm, 75, rfl⟩
abbrev main_v9 : Ref sig .tc := ⟨.hbm, 76, rfl⟩
abbrev main_v10 : Ref sig .tc := ⟨.hbm, 77, rfl⟩
abbrev main_v11_0 : Ref sig .tc := ⟨.hbm, 78, rfl⟩
abbrev main_v11_1 : Ref sig .tc := ⟨.hbm, 79, rfl⟩
abbrev main_v11_2 : Ref sig .tc := ⟨.hbm, 80, rfl⟩
abbrev main_v12 : Ref sig .tc := ⟨.hbm, 81, rfl⟩
abbrev main_cst : Ref sig .tc := ⟨.hbm, 82, rfl⟩
abbrev main_v13 : Ref sig .tc := ⟨.hbm, 83, rfl⟩
abbrev main_v14 : Ref sig .tc := ⟨.hbm, 84, rfl⟩
abbrev main_v15 : Ref sig .tc := ⟨.hbm, 85, rfl⟩
abbrev main_cst_0 : Ref sig .tc := ⟨.hbm, 86, rfl⟩
abbrev main_v16 : Ref sig .tc := ⟨.hbm, 87, rfl⟩
abbrev main_v17 : Ref sig .tc := ⟨.hbm, 88, rfl⟩
abbrev main_v18 : Ref sig .tc := ⟨.hbm, 89, rfl⟩
abbrev main_v19 : Ref sig .tc := ⟨.hbm, 90, rfl⟩
abbrev main_v20 : Ref sig .tc := ⟨.hbm, 91, rfl⟩
abbrev main_v21 : Ref sig .tc := ⟨.hbm, 92, rfl⟩
abbrev main_v22 : Ref sig .tc := ⟨.hbm, 93, rfl⟩
abbrev main_v23 : Ref sig .tc := ⟨.hbm, 94, rfl⟩
abbrev main_v24 : Ref sig .tc := ⟨.hbm, 95, rfl⟩
abbrev main_v25_0 : Ref sig .tc := ⟨.hbm, 96, rfl⟩
abbrev main_v25_1 : Ref sig .tc := ⟨.hbm, 97, rfl⟩
abbrev main_v25_2 : Ref sig .tc := ⟨.hbm, 98, rfl⟩
abbrev main_v26 : Ref sig .tc := ⟨.hbm, 99, rfl⟩
abbrev main_cst_1 : Ref sig .tc := ⟨.hbm, 100, rfl⟩
abbrev main_v27 : Ref sig .tc := ⟨.hbm, 101, rfl⟩
abbrev main_v28 : Ref sig .tc := ⟨.hbm, 102, rfl⟩
abbrev main_v29 : Ref sig .tc := ⟨.hbm, 103, rfl⟩
abbrev main_cst_2 : Ref sig .tc := ⟨.hbm, 104, rfl⟩
abbrev main_v30 : Ref sig .tc := ⟨.hbm, 105, rfl⟩
abbrev main_v31 : Ref sig .tc := ⟨.hbm, 106, rfl⟩
abbrev main_v32 : Ref sig .tc := ⟨.hbm, 107, rfl⟩
abbrev main_v33 : Ref sig .tc := ⟨.hbm, 108, rfl⟩
abbrev main_v34 : Ref sig .tc := ⟨.hbm, 109, rfl⟩
abbrev main_v35 : Ref sig .tc := ⟨.hbm, 110, rfl⟩
abbrev main_v36 : Ref sig .tc := ⟨.hbm, 111, rfl⟩
abbrev main_v37 : Ref sig .tc := ⟨.hbm, 112, rfl⟩
abbrev main_v38 : Ref sig .tc := ⟨.hbm, 113, rfl⟩
abbrev main_cst_3 : Ref sig .tc := ⟨.hbm, 114, rfl⟩
abbrev main_v39 : Ref sig .tc := ⟨.hbm, 115, rfl⟩
abbrev main_v40 : Ref sig .tc := ⟨.hbm, 116, rfl⟩
abbrev main_v41 : Ref sig .tc := ⟨.hbm, 117, rfl⟩
abbrev main_v42 : Ref sig .tc := ⟨.hbm, 118, rfl⟩
abbrev main_v43 : Ref sig .tc := ⟨.hbm, 119, rfl⟩
abbrev main_v44_0 : Ref sig .tc := ⟨.hbm, 120, rfl⟩
abbrev main_v44_1 : Ref sig .tc := ⟨.hbm, 121, rfl⟩
abbrev main_v44_2 : Ref sig .tc := ⟨.hbm, 122, rfl⟩
abbrev main_v45 : Ref sig .tc := ⟨.hbm, 123, rfl⟩
abbrev main_cst_4 : Ref sig .tc := ⟨.hbm, 124, rfl⟩
abbrev main_v46 : Ref sig .tc := ⟨.hbm, 125, rfl⟩
abbrev main_v47 : Ref sig .tc := ⟨.hbm, 126, rfl⟩
abbrev main_v48 : Ref sig .tc := ⟨.hbm, 127, rfl⟩
abbrev main_cst_5 : Ref sig .tc := ⟨.hbm, 128, rfl⟩
abbrev main_v49 : Ref sig .tc := ⟨.hbm, 129, rfl⟩
abbrev main_v50 : Ref sig .tc := ⟨.hbm, 130, rfl⟩
abbrev main_v51 : Ref sig .tc := ⟨.hbm, 131, rfl⟩
abbrev main_v52 : Ref sig .tc := ⟨.hbm, 132, rfl⟩
abbrev main_v53 : Ref sig .tc := ⟨.hbm, 133, rfl⟩
abbrev main_v54 : Ref sig .tc := ⟨.hbm, 134, rfl⟩
abbrev main_v55 : Ref sig .tc := ⟨.hbm, 135, rfl⟩
abbrev main_v56 : Ref sig .tc := ⟨.hbm, 136, rfl⟩
abbrev main_v57 : Ref sig .tc := ⟨.hbm, 137, rfl⟩
abbrev main_v58_0 : Ref sig .tc := ⟨.hbm, 138, rfl⟩
abbrev main_v58_1 : Ref sig .tc := ⟨.hbm, 139, rfl⟩
abbrev main_v58_2 : Ref sig .tc := ⟨.hbm, 140, rfl⟩
abbrev main_v59 : Ref sig .tc := ⟨.hbm, 141, rfl⟩
abbrev main_cst_6 : Ref sig .tc := ⟨.hbm, 142, rfl⟩
abbrev main_v60 : Ref sig .tc := ⟨.hbm, 143, rfl⟩
abbrev main_v61 : Ref sig .tc := ⟨.hbm, 144, rfl⟩
abbrev main_v62 : Ref sig .tc := ⟨.hbm, 145, rfl⟩
abbrev main_cst_7 : Ref sig .tc := ⟨.hbm, 146, rfl⟩
abbrev main_v63 : Ref sig .tc := ⟨.hbm, 147, rfl⟩
abbrev main_v64 : Ref sig .tc := ⟨.hbm, 148, rfl⟩
abbrev main_v65 : Ref sig .tc := ⟨.hbm, 149, rfl⟩
abbrev main_v66 : Ref sig .tc := ⟨.hbm, 150, rfl⟩
abbrev main_v67 : Ref sig .tc := ⟨.hbm, 151, rfl⟩
abbrev main_v68 : Ref sig .tc := ⟨.hbm, 152, rfl⟩
abbrev main_v69 : Ref sig .tc := ⟨.hbm, 153, rfl⟩
abbrev main_v70 : Ref sig .tc := ⟨.hbm, 154, rfl⟩
abbrev main_v71 : Ref sig .tc := ⟨.hbm, 155, rfl⟩
abbrev main_v72 : Ref sig .tc := ⟨.hbm, 156, rfl⟩
abbrev main_v73 : Ref sig .tc := ⟨.hbm, 157, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc1_stg4_0 : Ref sig .tc := ⟨.vmem, 12, rfl⟩
abbrev cc1_stg5_0 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg3_0 : Ref sig .tc := ⟨.vmem, 18, rfl⟩
abbrev cc2_stg4_0 : Ref sig .tc := ⟨.vmem, 19, rfl⟩
abbrev cc2_stg5_0 : Ref sig .tc := ⟨.vmem, 20, rfl⟩
abbrev cc2_stg6_0 : Ref sig .tc := ⟨.vmem, 21, rfl⟩
abbrev cc2_stg7_0 : Ref sig .tc := ⟨.vmem, 22, rfl⟩
abbrev cc2_stg7_1 : Ref sig .tc := ⟨.vmem, 23, rfl⟩
abbrev cc2_stg8_0 : Ref sig .tc := ⟨.vmem, 24, rfl⟩
abbrev cc2_stg9_0 : Ref sig .tc := ⟨.vmem, 25, rfl⟩
abbrev cc3_stg0_0 : Ref sig .tc := ⟨.vmem, 26, rfl⟩
abbrev cc3_stg0_1 : Ref sig .tc := ⟨.vmem, 27, rfl⟩
abbrev cc3_stg1_0 : Ref sig .tc := ⟨.vmem, 28, rfl⟩
abbrev cc3_stg2_0 : Ref sig .tc := ⟨.vmem, 29, rfl⟩
abbrev cc3_stg3_0 : Ref sig .tc := ⟨.vmem, 30, rfl⟩
abbrev cc3_stg4_0 : Ref sig .tc := ⟨.vmem, 31, rfl⟩
abbrev cc3_stg5_0 : Ref sig .tc := ⟨.vmem, 32, rfl⟩
abbrev cc3_stg5_1 : Ref sig .tc := ⟨.vmem, 33, rfl⟩
abbrev cc4_stg0_0 : Ref sig .tc := ⟨.vmem, 34, rfl⟩
abbrev cc4_stg0_1 : Ref sig .tc := ⟨.vmem, 35, rfl⟩
abbrev cc4_stg1_0 : Ref sig .tc := ⟨.vmem, 36, rfl⟩
abbrev cc4_stg2_0 : Ref sig .tc := ⟨.vmem, 37, rfl⟩
abbrev cc4_stg3_0 : Ref sig .tc := ⟨.vmem, 38, rfl⟩
abbrev cc4_stg3_1 : Ref sig .tc := ⟨.vmem, 39, rfl⟩
abbrev cc4_stg4_0 : Ref sig .tc := ⟨.vmem, 40, rfl⟩
abbrev cc4_stg5_0 : Ref sig .tc := ⟨.vmem, 41, rfl⟩
abbrev cc5_stg0_0 : Ref sig .tc := ⟨.vmem, 42, rfl⟩
abbrev cc5_stg0_1 : Ref sig .tc := ⟨.vmem, 43, rfl⟩
abbrev cc5_stg1_0 : Ref sig .tc := ⟨.vmem, 44, rfl⟩
abbrev cc5_stg2_0 : Ref sig .tc := ⟨.vmem, 45, rfl⟩
abbrev cc5_stg3_0 : Ref sig .tc := ⟨.vmem, 46, rfl⟩
abbrev cc5_stg4_0 : Ref sig .tc := ⟨.vmem, 47, rfl⟩
abbrev cc5_stg5_0 : Ref sig .tc := ⟨.vmem, 48, rfl⟩
abbrev cc5_stg6_0 : Ref sig .tc := ⟨.vmem, 49, rfl⟩
abbrev cc5_stg7_0 : Ref sig .tc := ⟨.vmem, 50, rfl⟩
abbrev cc5_stg7_1 : Ref sig .tc := ⟨.vmem, 51, rfl⟩
abbrev cc5_stg8_0 : Ref sig .tc := ⟨.vmem, 52, rfl⟩
abbrev cc5_stg9_0 : Ref sig .tc := ⟨.vmem, 53, rfl⟩
abbrev cc6_stg0_0 : Ref sig .tc := ⟨.vmem, 54, rfl⟩
abbrev cc6_stg0_1 : Ref sig .tc := ⟨.vmem, 55, rfl⟩
abbrev cc6_stg1_0 : Ref sig .tc := ⟨.vmem, 56, rfl⟩
abbrev cc6_stg2_0 : Ref sig .tc := ⟨.vmem, 57, rfl⟩
abbrev cc6_stg3_0 : Ref sig .tc := ⟨.vmem, 58, rfl⟩
abbrev cc6_stg4_0 : Ref sig .tc := ⟨.vmem, 59, rfl⟩
abbrev cc6_stg5_0 : Ref sig .tc := ⟨.vmem, 60, rfl⟩
abbrev cc6_stg6_0 : Ref sig .tc := ⟨.vmem, 61, rfl⟩
abbrev cc6_stg7_0 : Ref sig .tc := ⟨.vmem, 62, rfl⟩
abbrev cc6_stg7_1 : Ref sig .tc := ⟨.vmem, 63, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc1_sem4_0 : DmaSem sig := 12
abbrev cc1_sem5_0 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem3_0 : DmaSem sig := 18
abbrev cc2_sem4_0 : DmaSem sig := 19
abbrev cc2_sem5_0 : DmaSem sig := 20
abbrev cc2_sem6_0 : DmaSem sig := 21
abbrev cc2_sem7_0 : DmaSem sig := 22
abbrev cc2_sem7_1 : DmaSem sig := 23
abbrev cc2_sem8_0 : DmaSem sig := 24
abbrev cc2_sem9_0 : DmaSem sig := 25
abbrev cc3_sem0_0 : DmaSem sig := 26
abbrev cc3_sem0_1 : DmaSem sig := 27
abbrev cc3_sem1_0 : DmaSem sig := 28
abbrev cc3_sem2_0 : DmaSem sig := 29
abbrev cc3_sem3_0 : DmaSem sig := 30
abbrev cc3_sem4_0 : DmaSem sig := 31
abbrev cc3_sem5_0 : DmaSem sig := 32
abbrev cc3_sem5_1 : DmaSem sig := 33
abbrev cc4_sem0_0 : DmaSem sig := 34
abbrev cc4_sem0_1 : DmaSem sig := 35
abbrev cc4_sem1_0 : DmaSem sig := 36
abbrev cc4_sem2_0 : DmaSem sig := 37
abbrev cc4_sem3_0 : DmaSem sig := 38
abbrev cc4_sem3_1 : DmaSem sig := 39
abbrev cc4_sem4_0 : DmaSem sig := 40
abbrev cc4_sem5_0 : DmaSem sig := 41
abbrev cc5_sem0_0 : DmaSem sig := 42
abbrev cc5_sem0_1 : DmaSem sig := 43
abbrev cc5_sem1_0 : DmaSem sig := 44
abbrev cc5_sem2_0 : DmaSem sig := 45
abbrev cc5_sem3_0 : DmaSem sig := 46
abbrev cc5_sem4_0 : DmaSem sig := 47
abbrev cc5_sem5_0 : DmaSem sig := 48
abbrev cc5_sem6_0 : DmaSem sig := 49
abbrev cc5_sem7_0 : DmaSem sig := 50
abbrev cc5_sem7_1 : DmaSem sig := 51
abbrev cc5_sem8_0 : DmaSem sig := 52
abbrev cc5_sem9_0 : DmaSem sig := 53
abbrev cc6_sem0_0 : DmaSem sig := 54
abbrev cc6_sem0_1 : DmaSem sig := 55
abbrev cc6_sem1_0 : DmaSem sig := 56
abbrev cc6_sem2_0 : DmaSem sig := 57
abbrev cc6_sem3_0 : DmaSem sig := 58
abbrev cc6_sem4_0 : DmaSem sig := 59
abbrev cc6_sem5_0 : DmaSem sig := 60
abbrev cc6_sem6_0 : DmaSem sig := 61
abbrev cc6_sem7_0 : DmaSem sig := 62
abbrev cc6_sem7_1 : DmaSem sig := 63

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S20000x4 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S20000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![80], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S20000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S20000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev grid2 : Pipeline.Grid := ⟨1, ![80], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S20000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S64x64 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x64 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 2 → Memref sig .tc .vmem S20000x64 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev stage2_8 : Fin 1 → Memref sig .tc .vmem S1x64 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 1 → Memref sig .tc .vmem S1x64 .f32 := fun | 0 => Memref.whole cc2_stg9_0 | ⟨_ + 1, h⟩ => absurd h (Nat.not_lt.2 (Nat.le_add_left _ _))
abbrev sem2_9 : Fin 1 → DmaSem sig := fun | 0 => cc2_sem9_0 | ⟨_ + 1, h⟩ => absurd h (Nat.not_lt.2 (Nat.le_add_left _ _))
abbrev reads2_9 : Fin grid2.rank → Bool := ![false]

abbrev grid3 : Pipeline.Grid := ⟨1, ![80], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S20000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x64 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S20000x64 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev grid4 : Pipeline.Grid := ⟨1, ![5], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 2 → Memref sig .tc .vmem S20000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x64 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x64 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S20000x64 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev stage4_4 : Fin 1 → Memref sig .tc .vmem S1x64 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S1x64 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev grid5 : Pipeline.Grid := ⟨1, ![5], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_6 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_7 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_8 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_9 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage5_0 : Fin 2 → Memref sig .tc .vmem S20000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x64 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x64 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x64 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x64 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 1 → Memref sig .tc .vmem S64x64 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

abbrev stage5_6 : Fin 1 → Memref sig .tc .vmem S1x64 .f32 := fun | 0 => Memref.whole cc5_stg6_0 | ⟨_ + 1, h⟩ => absurd h (Nat.not_lt.2 (Nat.le_add_left _ _))
abbrev sem5_6 : Fin 1 → DmaSem sig := fun | 0 => cc5_sem6_0 | ⟨_ + 1, h⟩ => absurd h (Nat.not_lt.2 (Nat.le_add_left _ _))
abbrev reads5_6 : Fin grid5.rank → Bool := ![false]

abbrev stage5_7 : Fin 2 → Memref sig .tc .vmem S20000x64 .f32 := fun | 0 => Memref.whole cc5_stg7_0 | 1 => Memref.whole cc5_stg7_1 | ⟨_ + 2, h⟩ => absurd h (Nat.not_lt.2 (Nat.le_add_left _ _))
abbrev sem5_7 : Fin 2 → DmaSem sig := fun | 0 => cc5_sem7_0 | 1 => cc5_sem7_1 | ⟨_ + 2, h⟩ => absurd h (Nat.not_lt.2 (Nat.le_add_left _ _))
abbrev reads5_7 : Fin grid5.rank → Bool := ![true]

abbrev stage5_8 : Fin 1 → Memref sig .tc .vmem S1x64 .f32 := fun | 0 => Memref.whole cc5_stg8_0 | ⟨_ + 1, h⟩ => absurd h (Nat.not_lt.2 (Nat.le_add_left _ _))
abbrev sem5_8 : Fin 1 → DmaSem sig := fun | 0 => cc5_sem8_0 | ⟨_ + 1, h⟩ => absurd h (Nat.not_lt.2 (Nat.le_add_left _ _))
abbrev reads5_8 : Fin grid5.rank → Bool := ![false]

abbrev stage5_9 : Fin 1 → Memref sig .tc .vmem S1x64 .f32 := fun | 0 => Memref.whole cc5_stg9_0 | ⟨_ + 1, h⟩ => absurd h (Nat.not_lt.2 (Nat.le_add_left _ _))
abbrev sem5_9 : Fin 1 → DmaSem sig := fun | 0 => cc5_sem9_0 | ⟨_ + 1, h⟩ => absurd h (Nat.not_lt.2 (Nat.le_add_left _ _))
abbrev reads5_9 : Fin grid5.rank → Bool := ![false]

abbrev grid6 : Pipeline.Grid := ⟨1, ![5], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_6 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_7 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S20000x64 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S1x64 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1x64 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S1x64 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S1x64 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 1 → Memref sig .tc .vmem S64x1 .f32 := fun | 0 => Memref.whole cc6_stg5_0 | ⟨_ + 1, h⟩ => absurd h (Nat.not_lt.2 (Nat.le_add_left _ _))
abbrev sem6_5 : Fin 1 → DmaSem sig := fun | 0 => cc6_sem5_0 | ⟨_ + 1, h⟩ => absurd h (Nat.not_lt.2 (Nat.le_add_left _ _))
abbrev reads6_5 : Fin grid6.rank → Bool := ![false]

abbrev stage6_6 : Fin 1 → Memref sig .tc .vmem S1x1 .f32 := fun | 0 => Memref.whole cc6_stg6_0 | ⟨_ + 1, h⟩ => absurd h (Nat.not_lt.2 (Nat.le_add_left _ _))
abbrev sem6_6 : Fin 1 → DmaSem sig := fun | 0 => cc6_sem6_0 | ⟨_ + 1, h⟩ => absurd h (Nat.not_lt.2 (Nat.le_add_left _ _))
abbrev reads6_6 : Fin grid6.rank → Bool := ![false]

abbrev stage6_7 : Fin 2 → Memref sig .tc .vmem S20000x1 .f32 := fun | 0 => Memref.whole cc6_stg7_0 | 1 => Memref.whole cc6_stg7_1 | ⟨_ + 2, h⟩ => absurd h (Nat.not_lt.2 (Nat.le_add_left _ _))
abbrev sem6_7 : Fin 2 → DmaSem sig := fun | 0 => cc6_sem7_0 | 1 => cc6_sem7_1 | ⟨_ + 2, h⟩ => absurd h (Nat.not_lt.2 (Nat.le_add_left _ _))
abbrev reads6_7 : Fin grid6.rank → Bool := ![true]

class Facts₀ : Prop where
  concatenates_S100000x2_S100000x2_S100000x4_d1 : Shape.Concatenates [S100000x2, S100000x2] S100000x4 1
  shapeCasts_S64_S1x64 : S64.ShapeCasts S1x64
  inb_S20000x4_S20000x4_0_0 : ∀ a, (![0, 0] : Fin 2 → Nat) a + S20000x4.size a ≤ S20000x4.size a
  h_S20000x4 : 0 < S20000x4.numel
  shapeCasts_S20000x4_S20000x4 : S20000x4.ShapeCasts S20000x4
  inb_S4x64_S4x64_0_0 : ∀ a, (![0, 0] : Fin 2 → Nat) a + S4x64.size a ≤ S4x64.size a
  h_S4x64 : 0 < S4x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S20000x64 : S1x64.Broadcasts S20000x64
  inb_S20000x64_S20000x64_0_0 : ∀ a, (![0, 0] : Fin 2 → Nat) a + S20000x64.size a ≤ S20000x64.size a
  h_S20000x64 : 0 < S20000x64.numel
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S1600000x1 : S_.BroadcastsInDim S1600000x1 (![] : Fin 0 → Fin S1600000x1.rank)
  bcast_S1_S1x1_1 : S1.BroadcastsInDim S1x1 (![1] : Fin 1 → Fin S1x1.rank)
  bcast_S1x1_S1600000x1_0_1 : S1x1.BroadcastsInDim S1600000x1 (![0, 1] : Fin 2 → Fin S1600000x1.rank)
  reducesTo_S1600000x1_S1600000_d1 : S1600000x1.ReducesTo [1] S1600000
  h_S_ : 0 < S_.numel
  bcast_S1600000_S1600000x64_0 : S1600000.BroadcastsInDim S1600000x64 (![0] : Fin 1 → Fin S1600000x64.rank)
  bcast_S_S1600000x64 : S_.BroadcastsInDim S1600000x64 (![] : Fin 0 → Fin S1600000x64.rank)
  concatenates_S1600000x64_S1600000x64_S1600000x128_d1 : Shape.Concatenates [S1600000x64, S1600000x64] S1600000x128 1
  inb_S20000x128_S20000x128_0_0 : ∀ a, (![0, 0] : Fin 2 → Nat) a + S20000x128.size a ≤ S20000x128.size a
  h_S20000x128 : 0 < S20000x128.numel
  shapeCasts_S20000x128_S20000x128 : S20000x128.ShapeCasts S20000x128
  inb_S128x64_S128x64_0_0 : ∀ a, (![0, 0] : Fin 2 → Nat) a + S128x64.size a ≤ S128x64.size a
  h_S128x64 : 0 < S128x64.numel
  reduces_S20000x64_S64 : S20000x64.Reduces [0] S64
  shapeCasts_S1x64_S64 : S1x64.ShapeCasts S64
  bcast_S_S64 : S_.BroadcastsInDim S64 (![] : Fin 0 → Fin S64.rank)
  shapeCasts_S20000x64_S20000x64 : S20000x64.ShapeCasts S20000x64
  inb_S64x64_S64x64_0_0 : ∀ a, (![0, 0] : Fin 2 → Nat) a + S64x64.size a ≤ S64x64.size a
  h_S64x64 : 0 < S64x64.numel
  bcast_S_S100000x64 : S_.BroadcastsInDim S100000x64 (![] : Fin 0 → Fin S100000x64.rank)
  concatenates_S100000x64_S100000x64_S100000x128_d1 : Shape.Concatenates [S100000x64, S100000x64] S100000x128 1
  shapeCasts_S1_S1x1 : S1.ShapeCasts S1x1
  inb_S64x1_S64x1_0_0 : ∀ a, (![0, 0] : Fin 2 → Nat) a + S64x1.size a ≤ S64x1.size a
  h_S64x1 : 0 < S64x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S20000x1 : S1x1.Broadcasts S20000x1
  inb_S20000x1_S20000x1_0_0 : ∀ a, (![0, 0] : Fin 2 → Nat) a + S20000x1.size a ≤ S20000x1.size a
  h_S20000x1 : 0 < S20000x1.numel
  shapeCasts_S100000x1_S100000 : S100000x1.ShapeCasts S100000
  dot_S20000x4_S4x64_S20000x64_1_0_0_1_n_n_wf : DotDims.WF S20000x4 S4x64 S20000x64 [1] [0] [0] [1] [] []
  gather_S100000x64_S1600000x1_S1600000x64_1_0_n_n_0_1_164_wf : GatherDims.WF S100000x64 S1600000x1 S1600000x64 [1] [0] [] [0] [] 1 ![1, 64]
  dot_S20000x128_S128x64_S20000x64_1_0_0_1_n_n_wf : DotDims.WF S20000x128 S128x64 S20000x64 [1] [0] [0] [1] [] []
  dot_S20000x64_S64x64_S20000x64_1_0_0_1_n_n_wf : DotDims.WF S20000x64 S64x64 S20000x64 [1] [0] [0] [1] [] []
  scatter_S100000x64_S1600000x1_S1600000x64_1_0_0_1_wf : ScatterDims.WF S100000x64 S1600000x1 S1600000x64 [1] [0] [0] 1
  dot_S20000x64_S64x1_S20000x1_1_0_0_1_n_n_wf : DotDims.WF S20000x64 S64x1 S20000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S20000x4.size a ≤ S100000x4.size a
  hwx0_0 : ∀ i : grid0.Coords, EltTy.bits .f32 = 32 ∨ (Rect.block (s := S100000x4) S20000x4.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4x64.size a ≤ S4x64.size a
  hwx0_1 : ∀ i : grid0.Coords, EltTy.bits .f32 = 32 ∨ (Rect.block (s := S4x64) S4x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S20000x64.size a ≤ S100000x64.size a
  hwx0_3 : ∀ i : grid0.Coords, EltTy.bits .f32 = 32 ∨ (Rect.block (s := S100000x64) S20000x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S20000x128.size a ≤ S1600000x128.size a
  hwx1_0 : ∀ i : grid1.Coords, EltTy.bits .f32 = 32 ∨ (Rect.block (s := S1600000x128) S20000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x64.size a ≤ S128x64.size a
  hwx1_1 : ∀ i : grid1.Coords, EltTy.bits .f32 = 32 ∨ (Rect.block (s := S128x64) S128x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S20000x64.size a ≤ S1600000x64.size a
  hwx1_3 : ∀ i : grid1.Coords, EltTy.bits .f32 = 32 ∨ (Rect.block (s := S1600000x64) S20000x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x64.size a ≤ S1x64.size a
  hwx1_5 : ∀ i : grid1.Coords, EltTy.bits .f32 = 32 ∨ (Rect.block (s := S1x64) S1x64.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S20000x64.size a ≤ S1600000x64.size a
  hwx2_0 : ∀ i : grid2.Coords, EltTy.bits .f32 = 32 ∨ (Rect.block (s := S1600000x64) S20000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x64.size a ≤ S1x64.size a
  hwx2_1 : ∀ i : grid2.Coords, EltTy.bits .f32 = 32 ∨ (Rect.block (s := S1x64) S1x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x64.size a ≤ S1x64.size a
  hwx2_2 : ∀ i : grid2.Coords, EltTy.bits .f32 = 32 ∨ (Rect.block (s := S1x64) S1x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x64.size a ≤ S1x64.size a
  hwx2_3 : ∀ i : grid2.Coords, EltTy.bits .f32 = 32 ∨ (Rect.block (s := S1x64) S1x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x64.size a ≤ S1x64.size a
  hwx2_4 : ∀ i : grid2.Coords, EltTy.bits .f32 = 32 ∨ (Rect.block (s := S1x64) S1x64.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S64x64.size a ≤ S64x64.size a
  hwx2_5 : ∀ i : grid2.Coords, EltTy.bits .f32 = 32 ∨ (Rect.block (s := S64x64) S64x64.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x64.size a ≤ S1x64.size a
  hwx2_6 : ∀ i : grid2.Coords, EltTy.bits .f32 = 32 ∨ (Rect.block (s := S1x64) S1x64.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S20000x64.size a ≤ S1600000x64.size a
  hwx2_7 : ∀ i : grid2.Coords, EltTy.bits .f32 = 32 ∨ (Rect.block (s := S1600000x64) S20000x64.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S1x64.size a ≤ S1x64.size a
  hwx2_8 : ∀ i : grid2.Coords, EltTy.bits .f32 = 32 ∨ (Rect.block (s := S1x64) S1x64.size (cc2_transform_8 i) (hinb2_8 i)).WholeWords (EltTy.packing .f32)
  hstage2_9 : ∀ j, (stage2_9 j).IsWhole
  nbuf2_9 : grid2.bufCount reads2_9 true = 1
  hreads2_9 : ∀ i i' : grid2.Coords, (∀ a, reads2_9 a = true → i a = i' a) → cc2_transform_9 i = cc2_transform_9 i'
  hinb2_9 : ∀ (i : grid2.Coords) a, (cc2_transform_9 i a + 1) * S1x64.size a ≤ S1x64.size a
  hwx2_9 : ∀ i : grid2.Coords, EltTy.bits .f32 = 32 ∨ (Rect.block (s := S1x64) S1x64.size (cc2_transform_9 i) (hinb2_9 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S20000x64.size a ≤ S1600000x64.size a
  hwx3_0 : ∀ i : grid3.Coords, EltTy.bits .f32 = 32 ∨ (Rect.block (s := S1600000x64) S20000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x64.size a ≤ S1x64.size a
  hwx3_1 : ∀ i : grid3.Coords, EltTy.bits .f32 = 32 ∨ (Rect.block (s := S1x64) S1x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x64.size a ≤ S1x64.size a
  hwx3_2 : ∀ i : grid3.Coords, EltTy.bits .f32 = 32 ∨ (Rect.block (s := S1x64) S1x64.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x64.size a ≤ S1x64.size a
  hwx3_3 : ∀ i : grid3.Coords, EltTy.bits .f32 = 32 ∨ (Rect.block (s := S1x64) S1x64.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x64.size a ≤ S1x64.size a
  hwx3_4 : ∀ i : grid3.Coords, EltTy.bits .f32 = 32 ∨ (Rect.block (s := S1x64) S1x64.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S20000x64.size a ≤ S1600000x64.size a
  hwx3_5 : ∀ i : grid3.Coords, EltTy.bits .f32 = 32 ∨ (Rect.block (s := S1600000x64) S20000x64.size (cc3_transform_5 i) (hinb3_5 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S20000x128.size a ≤ S100000x128.size a
  hwx4_0 : ∀ i : grid4.Coords, EltTy.bits .f32 = 32 ∨ (Rect.block (s := S100000x128) S20000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x64.size a ≤ S128x64.size a
  hwx4_1 : ∀ i : grid4.Coords, EltTy.bits .f32 = 32 ∨ (Rect.block (s := S128x64) S128x64.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x64.size a ≤ S1x64.size a
  hwx4_2 : ∀ i : grid4.Coords, EltTy.bits .f32 = 32 ∨ (Rect.block (s := S1x64) S1x64.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S20000x64.size a ≤ S100000x64.size a
  hwx4_3 : ∀ i : grid4.Coords, EltTy.bits .f32 = 32 ∨ (Rect.block (s := S100000x64) S20000x64.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x64.size a ≤ S1x64.size a
  hwx4_4 : ∀ i : grid4.Coords, EltTy.bits .f32 = 32 ∨ (Rect.block (s := S1x64) S1x64.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S1x64.size a ≤ S1x64.size a
  hwx4_5 : ∀ i : grid4.Coords, EltTy.bits .f32 = 32 ∨ (Rect.block (s := S1x64) S1x64.size (cc4_transform_5 i) (hinb4_5 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S20000x64.size a ≤ S100000x64.size a
  hwx5_0 : ∀ i : grid5.Coords, EltTy.bits .f32 = 32 ∨ (Rect.block (s := S100000x64) S20000x64.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x64.size a ≤ S1x64.size a
  hwx5_1 : ∀ i : grid5.Coords, EltTy.bits .f32 = 32 ∨ (Rect.block (s := S1x64) S1x64.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x64.size a ≤ S1x64.size a
  hwx5_2 : ∀ i : grid5.Coords, EltTy.bits .f32 = 32 ∨ (Rect.block (s := S1x64) S1x64.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x64.size a ≤ S1x64.size a
  hwx5_3 : ∀ i : grid5.Coords, EltTy.bits .f32 = 32 ∨ (Rect.block (s := S1x64) S1x64.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x64.size a ≤ S1x64.size a
  hwx5_4 : ∀ i : grid5.Coords, EltTy.bits .f32 = 32 ∨ (Rect.block (s := S1x64) S1x64.size (cc5_transform_4 i) (hinb5_4 i)).WholeWords (EltTy.packing .f32)
  hstage5_5 : ∀ j, (stage5_5 j).IsWhole
  nbuf5_5 : grid5.bufCount reads5_5 true = 1
  hreads5_5 : ∀ i i' : grid5.Coords, (∀ a, reads5_5 a = true → i a = i' a) → cc5_transform_5 i = cc5_transform_5 i'
  hinb5_5 : ∀ (i : grid5.Coords) a, (cc5_transform_5 i a + 1) * S64x64.size a ≤ S64x64.size a
  hwx5_5 : ∀ i : grid5.Coords, EltTy.bits .f32 = 32 ∨ (Rect.block (s := S64x64) S64x64.size (cc5_transform_5 i) (hinb5_5 i)).WholeWords (EltTy.packing .f32)
  hstage5_6 : ∀ j, (stage5_6 j).IsWhole
  nbuf5_6 : grid5.bufCount reads5_6 true = 1
  hreads5_6 : ∀ i i' : grid5.Coords, (∀ a, reads5_6 a = true → i a = i' a) → cc5_transform_6 i = cc5_transform_6 i'
  hinb5_6 : ∀ (i : grid5.Coords) a, (cc5_transform_6 i a + 1) * S1x64.size a ≤ S1x64.size a
  hwx5_6 : ∀ i : grid5.Coords, EltTy.bits .f32 = 32 ∨ (Rect.block (s := S1x64) S1x64.size (cc5_transform_6 i) (hinb5_6 i)).WholeWords (EltTy.packing .f32)
  hstage5_7 : ∀ j, (stage5_7 j).IsWhole
  nbuf5_7 : grid5.bufCount reads5_7 false = 2
  hreads5_7 : ∀ i i' : grid5.Coords, (∀ a, reads5_7 a = true → i a = i' a) → cc5_transform_7 i = cc5_transform_7 i'
  hinb5_7 : ∀ (i : grid5.Coords) a, (cc5_transform_7 i a + 1) * S20000x64.size a ≤ S100000x64.size a
  hwx5_7 : ∀ i : grid5.Coords, EltTy.bits .f32 = 32 ∨ (Rect.block (s := S100000x64) S20000x64.size (cc5_transform_7 i) (hinb5_7 i)).WholeWords (EltTy.packing .f32)
  hstage5_8 : ∀ j, (stage5_8 j).IsWhole
  nbuf5_8 : grid5.bufCount reads5_8 true = 1
  hreads5_8 : ∀ i i' : grid5.Coords, (∀ a, reads5_8 a = true → i a = i' a) → cc5_transform_8 i = cc5_transform_8 i'
  hinb5_8 : ∀ (i : grid5.Coords) a, (cc5_transform_8 i a + 1) * S1x64.size a ≤ S1x64.size a
  hwx5_8 : ∀ i : grid5.Coords, EltTy.bits .f32 = 32 ∨ (Rect.block (s := S1x64) S1x64.size (cc5_transform_8 i) (hinb5_8 i)).WholeWords (EltTy.packing .f32)
  hstage5_9 : ∀ j, (stage5_9 j).IsWhole
  nbuf5_9 : grid5.bufCount reads5_9 true = 1
  hreads5_9 : ∀ i i' : grid5.Coords, (∀ a, reads5_9 a = true → i a = i' a) → cc5_transform_9 i = cc5_transform_9 i'
  hinb5_9 : ∀ (i : grid5.Coords) a, (cc5_transform_9 i a + 1) * S1x64.size a ≤ S1x64.size a
  hwx5_9 : ∀ i : grid5.Coords, EltTy.bits .f32 = 32 ∨ (Rect.block (s := S1x64) S1x64.size (cc5_transform_9 i) (hinb5_9 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S20000x64.size a ≤ S100000x64.size a
  hwx6_0 : ∀ i : grid6.Coords, EltTy.bits .f32 = 32 ∨ (Rect.block (s := S100000x64) S20000x64.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S1x64.size a ≤ S1x64.size a
  hwx6_1 : ∀ i : grid6.Coords, EltTy.bits .f32 = 32 ∨ (Rect.block (s := S1x64) S1x64.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x64.size a ≤ S1x64.size a
  hwx6_2 : ∀ i : grid6.Coords, EltTy.bits .f32 = 32 ∨ (Rect.block (s := S1x64) S1x64.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S1x64.size a ≤ S1x64.size a
  hwx6_3 : ∀ i : grid6.Coords, EltTy.bits .f32 = 32 ∨ (Rect.block (s := S1x64) S1x64.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S1x64.size a ≤ S1x64.size a
  hwx6_4 : ∀ i : grid6.Coords, EltTy.bits .f32 = 32 ∨ (Rect.block (s := S1x64) S1x64.size (cc6_transform_4 i) (hinb6_4 i)).WholeWords (EltTy.packing .f32)
  hstage6_5 : ∀ j, (stage6_5 j).IsWhole
  nbuf6_5 : grid6.bufCount reads6_5 true = 1
  hreads6_5 : ∀ i i' : grid6.Coords, (∀ a, reads6_5 a = true → i a = i' a) → cc6_transform_5 i = cc6_transform_5 i'
  hinb6_5 : ∀ (i : grid6.Coords) a, (cc6_transform_5 i a + 1) * S64x1.size a ≤ S64x1.size a
  hwx6_5 : ∀ i : grid6.Coords, EltTy.bits .f32 = 32 ∨ (Rect.block (s := S64x1) S64x1.size (cc6_transform_5 i) (hinb6_5 i)).WholeWords (EltTy.packing .f32)
  hstage6_6 : ∀ j, (stage6_6 j).IsWhole
  nbuf6_6 : grid6.bufCount reads6_6 true = 1
  hreads6_6 : ∀ i i' : grid6.Coords, (∀ a, reads6_6 a = true → i a = i' a) → cc6_transform_6 i = cc6_transform_6 i'
  hinb6_6 : ∀ (i : grid6.Coords) a, (cc6_transform_6 i a + 1) * S1x1.size a ≤ S1x1.size a
  hwx6_6 : ∀ i : grid6.Coords, EltTy.bits .f32 = 32 ∨ (Rect.block (s := S1x1) S1x1.size (cc6_transform_6 i) (hinb6_6 i)).WholeWords (EltTy.packing .f32)
  hstage6_7 : ∀ j, (stage6_7 j).IsWhole
  nbuf6_7 : grid6.bufCount reads6_7 false = 2
  hreads6_7 : ∀ i i' : grid6.Coords, (∀ a, reads6_7 a = true → i a = i' a) → cc6_transform_7 i = cc6_transform_7 i'
  hinb6_7 : ∀ (i : grid6.Coords) a, (cc6_transform_7 i a + 1) * S20000x1.size a ≤ S100000x1.size a
  hwx6_7 : ∀ i : grid6.Coords, EltTy.bits .f32 = 32 ∨ (Rect.block (s := S100000x1) S20000x1.size (cc6_transform_7 i) (hinb6_7 i)).WholeWords (EltTy.packing .f32)

variable [Facts₀]

def dot_S20000x4_S4x64_S20000x64_1_0_0_1_n_n : DotDims S20000x4 S4x64 S20000x64 where
  lhsContracting := [1]
  rhsContracting := [0]
  lhsNonContracting := [0]
  rhsNonContracting := [1]
  lhsBatch := []
  rhsBatch := []
  wf := dot_S20000x4_S4x64_S20000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def dot_S20000x128_S128x64_S20000x64_1_0_0_1_n_n : DotDims S20000x128 S128x64 S20000x64 where
  lhsContracting := [1]
  rhsContracting := [0]
  lhsNonContracting := [0]
  rhsNonContracting := [1]
  lhsBatch := []
  rhsBatch := []
  wf := dot_S20000x128_S128x64_S20000x64_1_0_0_1_n_n_wf
def dot_S20000x64_S64x64_S20000x64_1_0_0_1_n_n : DotDims S20000x64 S64x64 S20000x64 where
  lhsContracting := [1]
  rhsContracting := [0]
  lhsNonContracting := [0]
  rhsNonContracting := [1]
  lhsBatch := []
  rhsBatch := []
  wf := dot_S20000x64_S64x64_S20000x64_1_0_0_1_n_n_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S20000x64_S64x1_S20000x1_1_0_0_1_n_n : DotDims S20000x64 S64x1 S20000x1 where
  lhsContracting := [1]
  rhsContracting := [0]
  lhsNonContracting := [0]
  rhsNonContracting := [1]
  lhsBatch := []
  rhsBatch := []
  wf := dot_S20000x64_S64x1_S20000x1_1_0_0_1_n_n_wf

abbrev win0_0 : Pipeline.Window sig grid0 :=
  Pipeline.Window.ofSpec (Memref.whole main_v0) S20000x4.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S4x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S20000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v9) S20000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg5) S128x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v10) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v11_0) S20000x64.size cc1_transform_3 reads1_3 true false 2 stage1_3 sem1_3
    hrank1 hreads1_3 hinb1_3 nbuf1_3 (Memref.isWhole_whole _) hwx1_3 hstage1_3

abbrev win1_4 : Pipeline.Window sig grid1 :=
  Pipeline.Window.ofSpec (Memref.whole main_v11_1) S1x64.size cc1_transform_4 reads1_4 true true 1 stage1_4 sem1_4
    hrank1 hreads1_4 hinb1_4 nbuf1_4 (Memref.isWhole_whole _) hwx1_4 hstage1_4

abbrev win1_5 : Pipeline.Window sig grid1 :=
  Pipeline.Window.ofSpec (Memref.whole main_v11_2) S1x64.size cc1_transform_5 reads1_5 true true 1 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v11_0) S20000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v20) S1x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v21) S1x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v22) S1x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v23) S1x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_arg9) S64x64.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v24) S1x64.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v25_0) S20000x64.size cc2_transform_7 reads2_7 true false 2 stage2_7 sem2_7
    hrank2 hreads2_7 hinb2_7 nbuf2_7 (Memref.isWhole_whole _) hwx2_7 hstage2_7

abbrev win2_8 : Pipeline.Window sig grid2 :=
  Pipeline.Window.ofSpec (Memref.whole main_v25_1) S1x64.size cc2_transform_8 reads2_8 true true 1 stage2_8 sem2_8
    hrank2 hreads2_8 hinb2_8 nbuf2_8 (Memref.isWhole_whole _) hwx2_8 hstage2_8

abbrev win2_9 : Pipeline.Window sig grid2 :=
  Pipeline.Window.ofSpec (Memref.whole main_v25_2) S1x64.size cc2_transform_9 reads2_9 true true 1 stage2_9 sem2_9
    hrank2 hreads2_9 hinb2_9 nbuf2_9 (Memref.isWhole_whole _) hwx2_9 hstage2_9

abbrev win2 : Fin 10 → Pipeline.Window sig grid2 := fun | 0 => win2_0 | 1 => win2_1 | 2 => win2_2 | 3 => win2_3 | 4 => win2_4 | 5 => win2_5 | 6 => win2_6 | 7 => win2_7 | 8 => win2_8 | 9 => win2_9 | ⟨_ + 10, h⟩ => absurd h (Nat.not_lt.2 (Nat.le_add_left _ _))
abbrev spec2 : Fin 10 → Pipeline.WinSpec sig grid2.rank := fun w => (win2 w).toWinSpec

abbrev win3_0 : Pipeline.Window sig grid3 :=
  Pipeline.Window.ofSpec (Memref.whole main_v25_0) S20000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v34) S1x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v35) S1x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v36) S1x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v37) S1x64.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v38) S20000x64.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev win4_0 : Pipeline.Window sig grid4 :=
  Pipeline.Window.ofSpec (Memref.whole main_v42) S20000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg13) S128x64.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v43) S1x64.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v44_0) S20000x64.size cc4_transform_3 reads4_3 true false 2 stage4_3 sem4_3
    hrank4 hreads4_3 hinb4_3 nbuf4_3 (Memref.isWhole_whole _) hwx4_3 hstage4_3

abbrev win4_4 : Pipeline.Window sig grid4 :=
  Pipeline.Window.ofSpec (Memref.whole main_v44_1) S1x64.size cc4_transform_4 reads4_4 true true 1 stage4_4 sem4_4
    hrank4 hreads4_4 hinb4_4 nbuf4_4 (Memref.isWhole_whole _) hwx4_4 hstage4_4

abbrev win4_5 : Pipeline.Window sig grid4 :=
  Pipeline.Window.ofSpec (Memref.whole main_v44_2) S1x64.size cc4_transform_5 reads4_5 true true 1 stage4_5 sem4_5
    hrank4 hreads4_5 hinb4_5 nbuf4_5 (Memref.isWhole_whole _) hwx4_5 hstage4_5

abbrev win4 : Fin 6 → Pipeline.Window sig grid4 := fun | 0 => win4_0 | 1 => win4_1 | 2 => win4_2 | 3 => win4_3 | 4 => win4_4 | 5 => win4_5 | ⟨_ + 6, h⟩ => absurd h (Nat.not_lt.2 (Nat.le_add_left _ _))
abbrev spec4 : Fin 6 → Pipeline.WinSpec sig grid4.rank := fun w => (win4 w).toWinSpec

abbrev win5_0 : Pipeline.Window sig grid5 :=
  Pipeline.Window.ofSpec (Memref.whole main_v44_0) S20000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v53) S1x64.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v54) S1x64.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v55) S1x64.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v56) S1x64.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_arg17) S64x64.size cc5_transform_5 reads5_5 false true 1 stage5_5 sem5_5
    hrank5 hreads5_5 hinb5_5 nbuf5_5 (Memref.isWhole_whole _) hwx5_5 hstage5_5

abbrev win5_6 : Pipeline.Window sig grid5 :=
  Pipeline.Window.ofSpec (Memref.whole main_v57) S1x64.size cc5_transform_6 reads5_6 false true 1 stage5_6 sem5_6
    hrank5 hreads5_6 hinb5_6 nbuf5_6 (Memref.isWhole_whole _) hwx5_6 hstage5_6

abbrev win5_7 : Pipeline.Window sig grid5 :=
  Pipeline.Window.ofSpec (Memref.whole main_v58_0) S20000x64.size cc5_transform_7 reads5_7 true false 2 stage5_7 sem5_7
    hrank5 hreads5_7 hinb5_7 nbuf5_7 (Memref.isWhole_whole _) hwx5_7 hstage5_7

abbrev win5_8 : Pipeline.Window sig grid5 :=
  Pipeline.Window.ofSpec (Memref.whole main_v58_1) S1x64.size cc5_transform_8 reads5_8 true true 1 stage5_8 sem5_8
    hrank5 hreads5_8 hinb5_8 nbuf5_8 (Memref.isWhole_whole _) hwx5_8 hstage5_8

abbrev win5_9 : Pipeline.Window sig grid5 :=
  Pipeline.Window.ofSpec (Memref.whole main_v58_2) S1x64.size cc5_transform_9 reads5_9 true true 1 stage5_9 sem5_9
    hrank5 hreads5_9 hinb5_9 nbuf5_9 (Memref.isWhole_whole _) hwx5_9 hstage5_9

abbrev win5 : Fin 10 → Pipeline.Window sig grid5 := fun | 0 => win5_0 | 1 => win5_1 | 2 => win5_2 | 3 => win5_3 | 4 => win5_4 | 5 => win5_5 | 6 => win5_6 | 7 => win5_7 | 8 => win5_8 | 9 => win5_9 | ⟨_ + 10, h⟩ => absurd h (Nat.not_lt.2 (Nat.le_add_left _ _))
abbrev spec5 : Fin 10 → Pipeline.WinSpec sig grid5.rank := fun w => (win5 w).toWinSpec

abbrev win6_0 : Pipeline.Window sig grid6 :=
  Pipeline.Window.ofSpec (Memref.whole main_v58_0) S20000x64.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v67) S1x64.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v68) S1x64.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v69) S1x64.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v70) S1x64.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_arg21) S64x1.size cc6_transform_5 reads6_5 false true 1 stage6_5 sem6_5
    hrank6 hreads6_5 hinb6_5 nbuf6_5 (Memref.isWhole_whole _) hwx6_5 hstage6_5

abbrev win6_6 : Pipeline.Window sig grid6 :=
  Pipeline.Window.ofSpec (Memref.whole main_v71) S1x1.size cc6_transform_6 reads6_6 false true 1 stage6_6 sem6_6
    hrank6 hreads6_6 hinb6_6 nbuf6_6 (Memref.isWhole_whole _) hwx6_6 hstage6_6

abbrev win6_7 : Pipeline.Window sig grid6 :=
  Pipeline.Window.ofSpec (Memref.whole main_v72) S20000x1.size cc6_transform_7 reads6_7 true false 2 stage6_7 sem6_7
    hrank6 hreads6_7 hinb6_7 nbuf6_7 (Memref.isWhole_whole _) hwx6_7 hstage6_7

abbrev win6 : Fin 8 → Pipeline.Window sig grid6 := fun | 0 => win6_0 | 1 => win6_1 | 2 => win6_2 | 3 => win6_3 | 4 => win6_4 | 5 => win6_5 | 6 => win6_6 | 7 => win6_7 | ⟨_ + 8, h⟩ => absurd h (Nat.not_lt.2 (Nat.le_add_left _ _))
abbrev spec6 : Fin 8 → Pipeline.WinSpec sig grid6.rank := fun w => (win6 w).toWinSpec

class Facts : Prop extends Facts₀ where

variable [Facts]
-- ==== ReferenceIdeal.lean ====
abbrev S100000x2 : Shape := ⟨2, ![100000, 2]⟩
abbrev S2x1600000 : Shape := ⟨2, ![2, 1600000]⟩
abbrev S4x64 : Shape := ⟨2, ![4, 64]⟩
abbrev S64 : Shape := ⟨1, ![64]⟩
abbrev S128x64 : Shape := ⟨2, ![128, 64]⟩
abbrev S64x64 : Shape := ⟨2, ![64, 64]⟩
abbrev S64x1 : Shape := ⟨2, ![64, 1]⟩
abbrev S1 : Shape := ⟨1, ![1]⟩
abbrev S100000x4 : Shape := ⟨2, ![100000, 4]⟩
abbrev S100000x64 : Shape := ⟨2, ![100000, 64]⟩
abbrev S1x64 : Shape := ⟨2, ![1, 64]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x64 : Shape := ⟨2, ![1600000, 64]⟩
abbrev S1600000x128 : Shape := ⟨2, ![1600000, 128]⟩
abbrev S100000x128 : Shape := ⟨2, ![100000, 128]⟩
abbrev S100000x1 : Shape := ⟨2, ![100000, 1]⟩
abbrev S1x1 : Shape := ⟨2, ![1, 1]⟩
abbrev S100000 : Shape := ⟨1, ![100000]⟩

abbrev nBuf : Space → Nat
  | .hbm => 209
  | .vmem => 0
  | .smem => 0
  | _ => 0

abbrev hbmTy0_0 (i : Nat) : BufTy := match i % 128 with
  | 0 => ⟨S100000x2, .f32⟩
  | 1 => ⟨S100000x2, .f32⟩
  | 2 => ⟨S2x1600000, .i32⟩
  | 3 => ⟨S4x64, .f32⟩
  | 4 => ⟨S64, .f32⟩
  | 5 => ⟨S128x64, .f32⟩
  | 6 => ⟨S64, .f32⟩
  | 7 => ⟨S64, .f32⟩
  | 8 => ⟨S64, .f32⟩
  | 9 => ⟨S64x64, .f32⟩
  | 10 => ⟨S64, .f32⟩
  | 11 => ⟨S64, .f32⟩
  | 12 => ⟨S64, .f32⟩
  | 13 => ⟨S128x64, .f32⟩
  | 14 => ⟨S64, .f32⟩
  | 15 => ⟨S64, .f32⟩
  | 16 => ⟨S64, .f32⟩
  | 17 => ⟨S64x64, .f32⟩
  | 18 => ⟨S64, .f32⟩
  | 19 => ⟨S64, .f32⟩
  | 20 => ⟨S64, .f32⟩
  | 21 => ⟨S64x1, .f32⟩
  | 22 => ⟨S1, .f32⟩
  | 23 => ⟨S100000x4, .f32⟩
  | 24 => ⟨S100000x64, .f32⟩
  | 25 => ⟨S1x64, .f32⟩
  | 26 => ⟨S100000x64, .f32⟩
  | 27 => ⟨S100000x64, .f32⟩
  | 28 => ⟨S1x1600000, .i32⟩
  | 29 => ⟨S1600000, .i32⟩
  | 30 => ⟨S1x1600000, .i32⟩
  | 31 => ⟨S1600000, .i32⟩
  | 32 => ⟨S_, .i32⟩
  | 33 => ⟨S1600000, .i32⟩
  | 34 => ⟨S1600000, .i1⟩
  | 35 => ⟨S_, .i32⟩
  | 36 => ⟨S1600000, .i32⟩
  | 37 => ⟨S1600000, .i32⟩
  | 38 => ⟨S1600000, .i32⟩
  | 39 => ⟨S1600000x1, .i32⟩
  | 40 => ⟨S1600000x64, .f32⟩
  | 41 => ⟨S_, .i32⟩
  | 42 => ⟨S1600000, .i32⟩
  | 43 => ⟨S1600000, .i1⟩
  | 44 => ⟨S_, .i32⟩
  | 45 => ⟨S1600000, .i32⟩
  | 46 => ⟨S1600000, .i32⟩
  | 47 => ⟨S1600000, .i32⟩
  | 48 => ⟨S1600000x1, .i32⟩
  | 49 => ⟨S1600000x64, .f32⟩
  | 50 => ⟨S1600000x128, .f32⟩
  | 51 => ⟨S1600000x64, .f32⟩
  | 52 => ⟨S1x64, .f32⟩
  | 53 => ⟨S1600000x64, .f32⟩
  | 54 => ⟨S1600000x64, .f32⟩
  | 55 => ⟨S_, .f32⟩
  | 56 => ⟨S64, .f32⟩
  | 57 => ⟨S_, .f32⟩
  | 58 => ⟨S64, .f32⟩
  | 59 => ⟨S64, .f32⟩
  | 60 => ⟨S1x64, .f32⟩
  | 61 => ⟨S1600000x64, .f32⟩
  | 62 => ⟨S1600000x64, .f32⟩
  | 63 => ⟨S1600000x64, .f32⟩
  | 64 => ⟨S_, .f32⟩
  | 65 => ⟨S64, .f32⟩
  | 66 => ⟨S_, .f32⟩
  | 67 => ⟨S64, .f32⟩
  | 68 => ⟨S64, .f32⟩
  | 69 => ⟨S1x64, .f32⟩
  | 70 => ⟨S1600000x64, .f32⟩
  | 71 => ⟨S1600000x64, .f32⟩
  | 72 => ⟨S_, .f32⟩
  | 73 => ⟨S64, .f32⟩
  | 74 => ⟨S64, .f32⟩
  | 75 => ⟨S64, .f32⟩
  | 76 => ⟨S1x64, .f32⟩
  | 77 => ⟨S1600000x64, .f32⟩
  | 78 => ⟨S1600000x64, .f32⟩
  | 79 => ⟨S1x64, .f32⟩
  | 80 => ⟨S1600000x64, .f32⟩
  | 81 => ⟨S1600000x64, .f32⟩
  | 82 => ⟨S1x64, .f32⟩
  | 83 => ⟨S1600000x64, .f32⟩
  | 84 => ⟨S1600000x64, .f32⟩
  | 85 => ⟨S_, .f32⟩
  | 86 => ⟨S1600000x64, .f32⟩
  | 87 => ⟨S1600000x64, .f32⟩
  | 88 => ⟨S1600000x64, .f32⟩
  | 89 => ⟨S1x64, .f32⟩
  | 90 => ⟨S1600000x64, .f32⟩
  | 91 => ⟨S1600000x64, .f32⟩
  | 92 => ⟨S_, .f32⟩
  | 93 => ⟨S64, .f32⟩
  | 94 => ⟨S_, .f32⟩
  | 95 => ⟨S64, .f32⟩
  | 96 => ⟨S64, .f32⟩
  | 97 => ⟨S1x64, .f32⟩
  | 98 => ⟨S1600000x64, .f32⟩
  | 99 => ⟨S1600000x64, .f32⟩
  | 100 => ⟨S1600000x64, .f32⟩
  | 101 => ⟨S_, .f32⟩
  | 102 => ⟨S64, .f32⟩
  | 103 => ⟨S_, .f32⟩
  | 104 => ⟨S64, .f32⟩
  | 105 => ⟨S64, .f32⟩
  | 106 => ⟨S1x64, .f32⟩
  | 107 => ⟨S1600000x64, .f32⟩
  | 108 => ⟨S1600000x64, .f32⟩
  | 109 => ⟨S_, .f32⟩
  | 110 => ⟨S64, .f32⟩
  | 111 => ⟨S64, .f32⟩
  | 112 => ⟨S64, .f32⟩
  | 113 => ⟨S1x64, .f32⟩
  | 114 => ⟨S1600000x64, .f32⟩
  | 115 => ⟨S1600000x64, .f32⟩
  | 116 => ⟨S1x64, .f32⟩
  | 117 => ⟨S1600000x64, .f32⟩
  | 118 => ⟨S1600000x64, .f32⟩
  | 119 => ⟨S1x64, .f32⟩
  | 120 => ⟨S1600000x64, .f32⟩
  | 121 => ⟨S1600000x64, .f32⟩
  | 122 => ⟨S_, .f32⟩
  | 123 => ⟨S1600000x64, .f32⟩
  | 124 => ⟨S1600000x64, .f32⟩
  | 125 => ⟨S_, .f32⟩
  | 126 => ⟨S100000x64, .f32⟩
  | 127 => ⟨S1600000x1, .i32⟩
  | _ => ⟨S100000x2, .f32⟩

abbrev hbmTy0_1 (i : Nat) : BufTy := match i % 128 with
  | 0 => ⟨S100000x64, .f32⟩
  | 1 => ⟨S100000x128, .f32⟩
  | 2 => ⟨S100000x64, .f32⟩
  | 3 => ⟨S1x64, .f32⟩
  | 4 => ⟨S100000x64, .f32⟩
  | 5 => ⟨S100000x64, .f32⟩
  | 6 => ⟨S_, .f32⟩
  | 7 => ⟨S64, .f32⟩
  | 8 => ⟨S_, .f32⟩
  | 9 => ⟨S64, .f32⟩
  | 10 => ⟨S64, .f32⟩
  | 11 => ⟨S1x64, .f32⟩
  | 12 => ⟨S100000x64, .f32⟩
  | 13 => ⟨S100000x64, .f32⟩
  | 14 => ⟨S100000x64, .f32⟩
  | 15 => ⟨S_, .f32⟩
  | 16 => ⟨S64, .f32⟩
  | 17 => ⟨S_, .f32⟩
  | 18 => ⟨S64, .f32⟩
  | 19 => ⟨S64, .f32⟩
  | 20 => ⟨S1x64, .f32⟩
  | 21 => ⟨S100000x64, .f32⟩
  | 22 => ⟨S100000x64, .f32⟩
  | 23 => ⟨S_, .f32⟩
  | 24 => ⟨S64, .f32⟩
  | 25 => ⟨S64, .f32⟩
  | 26 => ⟨S64, .f32⟩
  | 27 => ⟨S1x64, .f32⟩
  | 28 => ⟨S100000x64, .f32⟩
  | 29 => ⟨S100000x64, .f32⟩
  | 30 => ⟨S1x64, .f32⟩
  | 31 => ⟨S100000x64, .f32⟩
  | 32 => ⟨S100000x64, .f32⟩
  | 33 => ⟨S1x64, .f32⟩
  | 34 => ⟨S100000x64, .f32⟩
  | 35 => ⟨S100000x64, .f32⟩
  | 36 => ⟨S_, .f32⟩
  | 37 => ⟨S100000x64, .f32⟩
  | 38 => ⟨S100000x64, .f32⟩
  | 39 => ⟨S100000x64, .f32⟩
  | 40 => ⟨S1x64, .f32⟩
  | 41 => ⟨S100000x64, .f32⟩
  | 42 => ⟨S100000x64, .f32⟩
  | 43 => ⟨S_, .f32⟩
  | 44 => ⟨S64, .f32⟩
  | 45 => ⟨S_, .f32⟩
  | 46 => ⟨S64, .f32⟩
  | 47 => ⟨S64, .f32⟩
  | 48 => ⟨S1x64, .f32⟩
  | 49 => ⟨S100000x64, .f32⟩
  | 50 => ⟨S100000x64, .f32⟩
  | 51 => ⟨S100000x64, .f32⟩
  | 52 => ⟨S_, .f32⟩
  | 53 => ⟨S64, .f32⟩
  | 54 => ⟨S_, .f32⟩
  | 55 => ⟨S64, .f32⟩
  | 56 => ⟨S64, .f32⟩
  | 57 => ⟨S1x64, .f32⟩
  | 58 => ⟨S100000x64, .f32⟩
  | 59 => ⟨S100000x64, .f32⟩
  | 60 => ⟨S_, .f32⟩
  | 61 => ⟨S64, .f32⟩
  | 62 => ⟨S64, .f32⟩
  | 63 => ⟨S64, .f32⟩
  | 64 => ⟨S1x64, .f32⟩
  | 65 => ⟨S100000x64, .f32⟩
  | 66 => ⟨S100000x64, .f32⟩
  | 67 => ⟨S1x64, .f32⟩
  | 68 => ⟨S100000x64, .f32⟩
  | 69 => ⟨S100000x64, .f32⟩
  | 70 => ⟨S1x64, .f32⟩
  | 71 => ⟨S100000x64, .f32⟩
  | 72 => ⟨S100000x64, .f32⟩
  | 73 => ⟨S_, .f32⟩
  | 74 => ⟨S100000x64, .f32⟩
  | 75 => ⟨S100000x64, .f32⟩
  | 76 => ⟨S100000x1, .f32⟩
  | 77 => ⟨S1x1, .f32⟩
  | 78 => ⟨S100000x1, .f32⟩
  | 79 => ⟨S100000x1, .f32⟩
  | 80 => ⟨S100000, .f32⟩
  | _ => ⟨S100000x2, .f32⟩

abbrev hbmTy (i : Nat) : BufTy := match i / 128 with
  | 0 => hbmTy0_0 i
  | 1 => hbmTy0_1 i
  | _ => ⟨S100000x2, .f32⟩

abbrev bufTy : (tb : Table) → Fin (tcTables nBuf tb) → BufTy
  | .hbm, ⟨i, _⟩ => hbmTy i
  | _, _ => ⟨S100000x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_v0 : Ref sig .tc := ⟨.hbm, 23, rfl⟩
abbrev main_v1 : Ref sig .tc := ⟨.hbm, 24, rfl⟩
abbrev main_v2 : Ref sig .tc := ⟨.hbm, 25, rfl⟩
abbrev main_v3 : Ref sig .tc := ⟨.hbm, 26, rfl⟩
abbrev main_v4 : Ref sig .tc := ⟨.hbm, 27, rfl⟩
abbrev main_v5 : Ref sig .tc := ⟨.hbm, 28, rfl⟩
abbrev main_v6 : Ref sig .tc := ⟨.hbm, 29, rfl⟩
abbrev main_v7 : Ref sig .tc := ⟨.hbm, 30, rfl⟩
abbrev main_v8 : Ref sig .tc := ⟨.hbm, 31, rfl⟩
abbrev main_c : Ref sig .tc := ⟨.hbm, 32, rfl⟩
abbrev main_v9 : Ref sig .tc := ⟨.hbm, 33, rfl⟩
abbrev main_v10 : Ref sig .tc := ⟨.hbm, 34, rfl⟩
abbrev main_c_0 : Ref sig .tc := ⟨.hbm, 35, rfl⟩
abbrev main_v11 : Ref sig .tc := ⟨.hbm, 36, rfl⟩
abbrev main_v12 : Ref sig .tc := ⟨.hbm, 37, rfl⟩
abbrev main_v13 : Ref sig .tc := ⟨.hbm, 38, rfl⟩
abbrev main_v14 : Ref sig .tc := ⟨.hbm, 39, rfl⟩
abbrev main_v15 : Ref sig .tc := ⟨.hbm, 40, rfl⟩
abbrev main_c_1 : Ref sig .tc := ⟨.hbm, 41, rfl⟩
abbrev main_v16 : Ref sig .tc := ⟨.hbm, 42, rfl⟩
abbrev main_v17 : Ref sig .tc := ⟨.hbm, 43, rfl⟩
abbrev main_c_2 : Ref sig .tc := ⟨.hbm, 44, rfl⟩
abbrev main_v18 : Ref sig .tc := ⟨.hbm, 45, rfl⟩
abbrev main_v19 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_cst : Ref sig .tc := ⟨.hbm, 55, rfl⟩
abbrev main_v28 : Ref sig .tc := ⟨.hbm, 56, rfl⟩
abbrev main_cst_3 : Ref sig .tc := ⟨.hbm, 57, rfl⟩
abbrev main_v29 : Ref sig .tc := ⟨.hbm, 58, rfl⟩
abbrev main_v30 : Ref sig .tc := ⟨.hbm, 59, rfl⟩
abbrev main_v31 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_cst_4 : Ref sig .tc := ⟨.hbm, 64, rfl⟩
abbrev main_v35 : Ref sig .tc := ⟨.hbm, 65, rfl⟩
abbrev main_cst_5 : Ref sig .tc := ⟨.hbm, 66, rfl⟩
abbrev main_v36 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_v40 : Ref sig .tc := ⟨.hbm, 71, rfl⟩
abbrev main_cst_6 : Ref sig .tc := ⟨.hbm, 72, rfl⟩
abbrev main_v41 : Ref sig .tc := ⟨.hbm, 73, rfl⟩
abbrev main_v42 : Ref sig .tc := ⟨.hbm, 74, rfl⟩
abbrev main_v43 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_call0_cst : Ref sig .tc := ⟨.hbm, 85, rfl⟩
abbrev main_call0_v0 : Ref sig .tc := ⟨.hbm, 86, rfl⟩
abbrev main_v53 : Ref sig .tc := ⟨.hbm, 87, rfl⟩
abbrev main_v54 : Ref sig .tc := ⟨.hbm, 88, rfl⟩
abbrev main_v55 : Ref sig .tc := ⟨.hbm, 89, rfl⟩
abbrev main_v56 : Ref sig .tc := ⟨.hbm, 90, rfl⟩
abbrev main_v57 : Ref sig .tc := ⟨.hbm, 91, rfl⟩
abbrev main_cst_7 : Ref sig .tc := ⟨.hbm, 92, rfl⟩
abbrev main_v58 : Ref sig .tc := ⟨.hbm, 93, rfl⟩
abbrev main_cst_8 : Ref sig .tc := ⟨.hbm, 94, rfl⟩
abbrev main_v59 : Ref sig .tc := ⟨.hbm, 95, rfl⟩
abbrev main_v60 : Ref sig .tc := ⟨.hbm, 96, rfl⟩
abbrev main_v61 : Ref sig .tc := ⟨.hbm, 97, rfl⟩
abbrev main_v62 : Ref sig .tc := ⟨.hbm, 98, rfl⟩
abbrev main_v63 : Ref sig .tc := ⟨.hbm, 99, rfl⟩
abbrev main_v64 : Ref sig .tc := ⟨.hbm, 100, rfl⟩
abbrev main_cst_9 : Ref sig .tc := ⟨.hbm, 101, rfl⟩
abbrev main_v65 : Ref sig .tc := ⟨.hbm, 102, rfl⟩
abbrev main_cst_10 : Ref sig .tc := ⟨.hbm, 103, rfl⟩
abbrev main_v66 : Ref sig .tc := ⟨.hbm, 104, rfl⟩
abbrev main_v67 : Ref sig .tc := ⟨.hbm, 105, rfl⟩
abbrev main_v68 : Ref sig .tc := ⟨.hbm, 106, rfl⟩
abbrev main_v69 : Ref sig .tc := ⟨.hbm, 107, rfl⟩
abbrev main_v70 : Ref sig .tc := ⟨.hbm, 108, rfl⟩
abbrev main_cst_11 : Ref sig .tc := ⟨.hbm, 109, rfl⟩
abbrev main_v71 : Ref sig .tc := ⟨.hbm, 110, rfl⟩
abbrev main_v72 : Ref sig .tc := ⟨.hbm, 111, rfl⟩
abbrev main_v73 : Ref sig .tc := ⟨.hbm, 112, rfl⟩
abbrev main_v74 : Ref sig .tc := ⟨.hbm, 113, rfl⟩
abbrev main_v75 : Ref sig .tc := ⟨.hbm, 114, rfl⟩
abbrev main_v76 : Ref sig .tc := ⟨.hbm, 115, rfl⟩
abbrev main_v77 : Ref sig .tc := ⟨.hbm, 116, rfl⟩
abbrev main_v78 : Ref sig .tc := ⟨.hbm, 117, rfl⟩
abbrev main_v79 : Ref sig .tc := ⟨.hbm, 118, rfl⟩
abbrev main_v80 : Ref sig .tc := ⟨.hbm, 119, rfl⟩
abbrev main_v81 : Ref sig .tc := ⟨.hbm, 120, rfl⟩
abbrev main_v82 : Ref sig .tc := ⟨.hbm, 121, rfl⟩
abbrev main_call1_cst : Ref sig .tc := ⟨.hbm, 122, rfl⟩
abbrev main_call1_v0 : Ref sig .tc := ⟨.hbm, 123, rfl⟩
abbrev main_v83 : Ref sig .tc := ⟨.hbm, 124, rfl⟩
abbrev main_cst_12 : Ref sig .tc := ⟨.hbm, 125, rfl⟩
abbrev main_v84 : Ref sig .tc := ⟨.hbm, 126, rfl⟩
abbrev main_v85 : Ref sig .tc := ⟨.hbm, 127, rfl⟩
abbrev main_v86 : Ref sig .tc := ⟨.hbm, 128, rfl⟩
abbrev main_v87 : Ref sig .tc := ⟨.hbm, 129, rfl⟩
abbrev main_v88 : Ref sig .tc := ⟨.hbm, 130, rfl⟩
abbrev main_v89 : Ref sig .tc := ⟨.hbm, 131, rfl⟩
abbrev main_v90 : Ref sig .tc := ⟨.hbm, 132, rfl⟩
abbrev main_v91 : Ref sig .tc := ⟨.hbm, 133, rfl⟩
abbrev main_cst_13 : Ref sig .tc := ⟨.hbm, 134, rfl⟩
abbrev main_v92 : Ref sig .tc := ⟨.hbm, 135, rfl⟩
abbrev main_cst_14 : Ref sig .tc := ⟨.hbm, 136, rfl⟩
abbrev main_v93 : Ref sig .tc := ⟨.hbm, 137, rfl⟩
abbrev main_v94 : Ref sig .tc := ⟨.hbm, 138, rfl⟩
abbrev main_v95 : Ref sig .tc := ⟨.hbm, 139, rfl⟩
abbrev main_v96 : Ref sig .tc := ⟨.hbm, 140, rfl⟩
abbrev main_v97 : Ref sig .tc := ⟨.hbm, 141, rfl⟩
abbrev main_v98 : Ref sig .tc := ⟨.hbm, 142, rfl⟩
abbrev main_cst_15 : Ref sig .tc := ⟨.hbm, 143, rfl⟩
abbrev main_v99 : Ref sig .tc := ⟨.hbm, 144, rfl⟩
abbrev main_cst_16 : Ref sig .tc := ⟨.hbm, 145, rfl⟩
abbrev main_v100 : Ref sig .tc := ⟨.hbm, 146, rfl⟩
abbrev main_v101 : Ref sig .tc := ⟨.hbm, 147, rfl⟩
abbrev main_v102 : Ref sig .tc := ⟨.hbm, 148, rfl⟩
abbrev main_v103 : Ref sig .tc := ⟨.hbm, 149, rfl⟩
abbrev main_v104 : Ref sig .tc := ⟨.hbm, 150, rfl⟩
abbrev main_cst_17 : Ref sig .tc := ⟨.hbm, 151, rfl⟩
abbrev main_v105 : Ref sig .tc := ⟨.hbm, 152, rfl⟩
abbrev main_v106 : Ref sig .tc := ⟨.hbm, 153, rfl⟩
abbrev main_v107 : Ref sig .tc := ⟨.hbm, 154, rfl⟩
abbrev main_v108 : Ref sig .tc := ⟨.hbm, 155, rfl⟩
abbrev main_v109 : Ref sig .tc := ⟨.hbm, 156, rfl⟩
abbrev main_v110 : Ref sig .tc := ⟨.hbm, 157, rfl⟩
abbrev main_v111 : Ref sig .tc := ⟨.hbm, 158, rfl⟩
abbrev main_v112 : Ref sig .tc := ⟨.hbm, 159, rfl⟩
abbrev main_v113 : Ref sig .tc := ⟨.hbm, 160, rfl⟩
abbrev main_v114 : Ref sig .tc := ⟨.hbm, 161, rfl⟩
abbrev main_v115 : Ref sig .tc := ⟨.hbm, 162, rfl⟩
abbrev main_v116 : Ref sig .tc := ⟨.hbm, 163, rfl⟩
abbrev main_call2_cst : Ref sig .tc := ⟨.hbm, 164, rfl⟩
abbrev main_call2_v0 : Ref sig .tc := ⟨.hbm, 165, rfl⟩
abbrev main_v117 : Ref sig .tc := ⟨.hbm, 166, rfl⟩
abbrev main_v118 : Ref sig .tc := ⟨.hbm, 167, rfl⟩
abbrev main_v119 : Ref sig .tc := ⟨.hbm, 168, rfl⟩
abbrev main_v120 : Ref sig .tc := ⟨.hbm, 169, rfl⟩
abbrev main_v121 : Ref sig .tc := ⟨.hbm, 170, rfl⟩
abbrev main_cst_18 : Ref sig .tc := ⟨.hbm, 171, rfl⟩
abbrev main_v122 : Ref sig .tc := ⟨.hbm, 172, rfl⟩
abbrev main_cst_19 : Ref sig .tc := ⟨.hbm, 173, rfl⟩
abbrev main_v123 : Ref sig .tc := ⟨.hbm, 174, rfl⟩
abbrev main_v124 : Ref sig .tc := ⟨.hbm, 175, rfl⟩
abbrev main_v125 : Ref sig .tc := ⟨.hbm, 176, rfl⟩
abbrev main_v126 : Ref sig .tc := ⟨.hbm, 177, rfl⟩
abbrev main_v127 : Ref sig .tc := ⟨.hbm, 178, rfl⟩
abbrev main_v128 : Ref sig .tc := ⟨.hbm, 179, rfl⟩
abbrev main_cst_20 : Ref sig .tc := ⟨.hbm, 180, rfl⟩
abbrev main_v129 : Ref sig .tc := ⟨.hbm, 181, rfl⟩
abbrev main_cst_21 : Ref sig .tc := ⟨.hbm, 182, rfl⟩
abbrev main_v130 : Ref sig .tc := ⟨.hbm, 183, rfl⟩
abbrev main_v131 : Ref sig .tc := ⟨.hbm, 184, rfl⟩
abbrev main_v132 : Ref sig .tc := ⟨.hbm, 185, rfl⟩
abbrev main_v133 : Ref sig .tc := ⟨.hbm, 186, rfl⟩
abbrev main_v134 : Ref sig .tc := ⟨.hbm, 187, rfl⟩
abbrev main_cst_22 : Ref sig .tc := ⟨.hbm, 188, rfl⟩
abbrev main_v135 : Ref sig .tc := ⟨.hbm, 189, rfl⟩
abbrev main_v136 : Ref sig .tc := ⟨.hbm, 190, rfl⟩
abbrev main_v137 : Ref sig .tc := ⟨.hbm, 191, rfl⟩
abbrev main_v138 : Ref sig .tc := ⟨.hbm, 192, rfl⟩
abbrev main_v139 : Ref sig .tc := ⟨.hbm, 193, rfl⟩
abbrev main_v140 : Ref sig .tc := ⟨.hbm, 194, rfl⟩
abbrev main_v141 : Ref sig .tc := ⟨.hbm, 195, rfl⟩
abbrev main_v142 : Ref sig .tc := ⟨.hbm, 196, rfl⟩
abbrev main_v143 : Ref sig .tc := ⟨.hbm, 197, rfl⟩
abbrev main_v144 : Ref sig .tc := ⟨.hbm, 198, rfl⟩
abbrev main_v145 : Ref sig .tc := ⟨.hbm, 199, rfl⟩
abbrev main_v146 : Ref sig .tc := ⟨.hbm, 200, rfl⟩
abbrev main_call3_cst : Ref sig .tc := ⟨.hbm, 201, rfl⟩
abbrev main_call3_v0 : Ref sig .tc := ⟨.hbm, 202, rfl⟩
abbrev main_v147 : Ref sig .tc := ⟨.hbm, 203, rfl⟩
abbrev main_v148 : Ref sig .tc := ⟨.hbm, 204, rfl⟩
abbrev main_v149 : Ref sig .tc := ⟨.hbm, 205, rfl⟩
abbrev main_v150 : Ref sig .tc := ⟨.hbm, 206, rfl⟩
abbrev main_v151 : Ref sig .tc := ⟨.hbm, 207, rfl⟩
abbrev main_v152 : Ref sig .tc := ⟨.hbm, 208, rfl⟩

abbrev nD : Nat := 1
abbrev τ : Topo := Topo.v7x

variable {F : FTy → Type} [FloatOps F]

class Facts₀ : Prop where
  concatenates_S100000x2_S100000x2_S100000x4_d1 : Shape.Concatenates [S100000x2, S100000x2] S100000x4 1
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  concatenates_S1600000x64_S1600000x64_S1600000x128_d1 : Shape.Concatenates [S1600000x64, S1600000x64] S1600000x128 1
  bcast_S1x64_S1600000x64_0_1 : S1x64.BroadcastsInDim S1600000x64 (![0, 1] : Fin 2 → Fin S1600000x64.rank)
  reducesTo_S1600000x64_S64_d0 : S1600000x64.ReducesTo [0] S64
  h_S_ : 0 < S_.numel
  bcast_S_S64 : S_.BroadcastsInDim S64 (![] : Fin 0 → Fin S64.rank)
  bcast_S_S1600000x64 : S_.BroadcastsInDim S1600000x64 (![] : Fin 0 → Fin S1600000x64.rank)
  bcast_S_S100000x64 : S_.BroadcastsInDim S100000x64 (![] : Fin 0 → Fin S100000x64.rank)
  concatenates_S100000x64_S100000x64_S100000x128_d1 : Shape.Concatenates [S100000x64, S100000x64] S100000x128 1
  reducesTo_S100000x64_S64_d0 : S100000x64.ReducesTo [0] S64
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  shapeCasts_S100000x1_S100000 : S100000x1.ShapeCasts S100000
  dot_S100000x4_S4x64_S100000x64_1_0_0_1_n_n_wf : DotDims.WF S100000x4 S4x64 S100000x64 [1] [0] [0] [1] [] []
  gather_S100000x64_S1600000x1_S1600000x64_1_0_n_n_0_1_164_wf : GatherDims.WF S100000x64 S1600000x1 S1600000x64 [1] [0] [] [0] [] 1 ![1, 64]
  dot_S1600000x128_S128x64_S1600000x64_1_0_0_1_n_n_wf : DotDims.WF S1600000x128 S128x64 S1600000x64 [1] [0] [0] [1] [] []
  dot_S1600000x64_S64x64_S1600000x64_1_0_0_1_n_n_wf : DotDims.WF S1600000x64 S64x64 S1600000x64 [1] [0] [0] [1] [] []
  scatter_S100000x64_S1600000x1_S1600000x64_1_0_0_1_wf : ScatterDims.WF S100000x64 S1600000x1 S1600000x64 [1] [0] [0] 1
  dot_S100000x128_S128x64_S100000x64_1_0_0_1_n_n_wf : DotDims.WF S100000x128 S128x64 S100000x64 [1] [0] [0] [1] [] []
  dot_S100000x64_S64x64_S100000x64_1_0_0_1_n_n_wf : DotDims.WF S100000x64 S64x64 S100000x64 [1] [0] [0] [1] [] []
  dot_S100000x64_S64x1_S100000x1_1_0_0_1_n_n_wf : DotDims.WF S100000x64 S64x1 S100000x1 [1] [0] [0] [1] [] []

variable [Facts₀]

def dot_S100000x4_S4x64_S100000x64_1_0_0_1_n_n : DotDims S100000x4 S4x64 S100000x64 where
  lhsContracting := [1]
  rhsContracting := [0]
  lhsNonContracting := [0]
  rhsNonContracting := [1]
  lhsBatch := []
  rhsBatch := []
  wf := dot_S100000x4_S4x64_S100000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def dot_S1600000x128_S128x64_S1600000x64_1_0_0_1_n_n : DotDims S1600000x128 S128x64 S1600000x64 where
  lhsContracting := [1]
  rhsContracting := [0]
  lhsNonContracting := [0]
  rhsNonContracting := [1]
  lhsBatch := []
  rhsBatch := []
  wf := dot_S1600000x128_S128x64_S1600000x64_1_0_0_1_n_n_wf
def dot_S1600000x64_S64x64_S1600000x64_1_0_0_1_n_n : DotDims S1600000x64 S64x64 S1600000x64 where
  lhsContracting := [1]
  rhsContracting := [0]
  lhsNonContracting := [0]
  rhsNonContracting := [1]
  lhsBatch := []
  rhsBatch := []
  wf := dot_S1600000x64_S64x64_S1600000x64_1_0_0_1_n_n_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def dot_S100000x64_S64x1_S100000x1_1_0_0_1_n_n : DotDims S100000x64 S64x1 S100000x1 where
  lhsContracting := [1]
  rhsContracting := [0]
  lhsNonContracting := [0]
  rhsNonContracting := [1]
  lhsBatch := []
  rhsBatch := []
  wf := dot_S100000x64_S64x1_S100000x1_1_0_0_1_n_n_wf

class Facts : Prop extends Facts₀ where

variable [Facts]
-- ==== Proof.RefRun.lean ====
import proofs.«401100_j23158463660136_1_alg».proof.Proof.Gen.ReferenceIdeal
import Idealize.ShloMosaic.Lib.StableHlo.Run
import Idealize.ShloMosaic.PureOps.Ideal

noncomputable section

open Cert.ReferenceIdeal Cert.ReferenceIdeal.Gen Idealize.ShloMosaic Idealize.ShloMosaic.TcCoe Idealize.SL.Sem Idealize.ShloMosaic.StableHlo

variable {F : FTy → Type} [FloatOps F]

namespace Cert.ReferenceIdeal.REdge

abbrev E1 : List (HloOp τ sig (Elt F)) :=
  [ binary main_arg0 main_arg1 main_v0 (fun a b => concatenate S100000x4 1 [⟨S100000x2, a⟩, ⟨S100000x2, b⟩] concatenates_S100000x2_S100000x2_S100000x4_d1),
    binary main_v0 main_arg3 main_v1 (fun l r => Host.dotGeneral dot_S100000x4_S4x64_S100000x64_1_0_0_1_n_n none l r),
    unary main_arg4 main_v2 (broadcastInDim S1x64 ![1] bcast_S64_S1x64_1),
    unary main_v2 main_v3 (broadcastInDim S100000x64 ![0, 1] bcast_S1x64_S100000x64_0_1),
    binary main_v1 main_v3 main_v4 addf ]
abbrev E2 : List (HloOp τ sig (Elt F)) :=
  [ unary main_arg2 main_v5 (extractStridedSlice S1x1600000 ![0, 0] · slices_S2x1600000_S1x1600000_0_0),
    reshape main_v5 main_v6 rfl shapeCasts_S1x1600000_S1600000,
    unary main_arg2 main_v7 (extractStridedSlice S1x1600000 ![1, 0] · slices_S2x1600000_S1x1600000_1_0),
    reshape main_v7 main_v8 rfl shapeCasts_S1x1600000_S1600000 ]
abbrev E3 : List (HloOp τ sig (Elt F)) :=
  [ nullary main_c (constantI S_ 32 0#32),
    unary main_c main_v9 (broadcastInDim S1600000 ![] bcast_S_S1600000),
    binary main_v8 main_v9 main_v10 (cmpi .slt),
    nullary main_c_0 (constantI S_ 32 100000#32),
    unary main_c_0 main_v11 (broadcastInDim S1600000 ![] bcast_S_S1600000),
    binary main_v8 main_v11 main_v12 addi,
    ternary main_v10 main_v12 main_v8 main_v13 select,
    unary main_v13 main_v14 (broadcastInDim S1600000x1 ![0] bcast_S1600000_S1600000x1_0),
    binary main_v4 main_v14 main_v15 (fun x i => Host.gather gather_S100000x64_S1600000x1_S1600000x64_1_0_n_n_0_1_164 x i),
    nullary main_c_1 (constantI S_ 32 0#32),
    unary main_c_1 main_v16 (broadcastInDim S1600000 ![] bcast_S_S1600000),
    binary main_v6 main_v16 main_v17 (cmpi .slt),
    nullary main_c_2 (constantI S_ 32 100000#32),
    unary main_c_2 main_v18 (broadcastInDim S1600000 ![] bcast_S_S1600000),
    binary main_v6 main_v18 main_v19 addi,
    ternary main_v17 main_v19 main_v6 main_v20 select,
    unary main_v20 main_v21 (broadcastInDim S1600000x1 ![0] bcast_S1600000_S1600000x1_0),
    binary main_v4 main_v21 main_v22 (fun x i => Host.gather gather_S100000x64_S1600000x1_S1600000x64_1_0_n_n_0_1_164 x i) ]
abbrev E4 : List (HloOp τ sig (Elt F)) :=
  [ binary main_v15 main_v22 main_v23 (fun a b => concatenate S1600000x128 1 [⟨S1600000x64, a⟩, ⟨S1600000x64, b⟩] concatenates_S1600000x64_S1600000x64_S1600000x128_d1),
    binary main_v23 main_arg5 main_v24 (fun l r => Host.dotGeneral dot_S1600000x128_S128x64_S1600000x64_1_0_0_1_n_n none l r),
    unary main_arg6 main_v25 (broadcastInDim S1x64 ![1] bcast_S64_S1x64_1),
    unary main_v25 main_v26 (broadcastInDim S1600000x64 ![0, 1] bcast_S1x64_S1600000x64_0_1),
    binary main_v24 main_v26 main_v27 addf ]
abbrev E5 : List (HloOp τ sig (Elt F)) :=
  [ nullary main_cst (constant S_ .f32 0x00000000#32),
    binary main_v27 main_cst main_v28 (fun x v => Host.reduceAdd x v reducesTo_S1600000x64_S64_d0 h_S_),
    nullary main_cst_3 (constant S_ .f32 0x49C35000#32),
    unary main_cst_3 main_v29 (broadcastInDim S64 ![] bcast_S_S64),
    binary main_v28 main_v29 main_v30 Host.divf,
    unary main_v30 main_v31 (broadcastInDim S1x64 ![1] bcast_S64_S1x64_1),
    unary main_v31 main_v32 (broadcastInDim S1600000x64 ![0, 1] bcast_S1x64_S1600000x64_0_1),
    binary main_v27 main_v32 main_v33 subf,
    binary main_v33 main_v33 main_v34 mulf,
    nullary main_cst_4 (constant S_ .f32 0x00000000#32),
    binary main_v34 main_cst_4 main_v35 (fun x v => Host.reduceAdd x v reducesTo_S1600000x64_S64_d0 h_S_),
    nullary main_cst_5 (constant S_ .f32 0x49C35000#32),
    unary main_cst_5 main_v36 (broadcastInDim S64 ![] bcast_S_S64),
    binary main_v35 main_v36 main_v37 Host.divf,
    unary main_v30 main_v38 (broadcastInDim S1x64 ![1] bcast_S64_S1x64_1),
    unary main_v38 main_v39 (broadcastInDim S1600000x64 ![0, 1] bcast_S1x64_S1600000x64_0_1),
    binary main_v27 main_v39 main_v40 subf,
    nullary main_cst_6 (constant S_ .f32 0x3727C5AC#32),
    unary main_cst_6 main_v41 (broadcastInDim S64 ![] bcast_S_S64),
    binary main_v37 main_v41 main_v42 addf,
    unary main_v42 main_v43 Host.rsqrt,
    unary main_v43 main_v44 (broadcastInDim S1x64 ![1] bcast_S64_S1x64_1),
    unary main_v44 main_v45 (broadcastInDim S1600000x64 ![0, 1] bcast_S1x64_S1600000x64_0_1),
    binary main_v40 main_v45 main_v46 mulf,
    unary main_arg7 main_v47 (broadcastInDim S1x64 ![1] bcast_S64_S1x64_1),
    unary main_v47 main_v48 (broadcastInDim S1600000x64 ![0, 1] bcast_S1x64_S1600000x64_0_1),
    binary main_v46 main_v48 main_v49 mulf,
    unary main_arg8 main_v50 (broadcastInDim S1x64 ![1] bcast_S64_S1x64_1),
    unary main_v50 main_v51 (broadcastInDim S1600000x64 ![0, 1] bcast_S1x64_S1600000x64_0_1),
    binary main_v49 main_v51 main_v52 addf,
    TRef.nullary (TRef.of (T := ⟨S_, .f32⟩) main_call0_cst) (constant S_ .f32 0x00000000#32),
    TRef.unary (TRef.of (T := ⟨S_, .f32⟩) main_call0_cst) (TRef.of (T := ⟨S1600000x64, .f32⟩) main_call0_v0) (broadcastInDim S1600000x64 ![] bcast_S_S1600000x64),
    TRef.binary (TRef.of (T := ⟨S1600000x64, .f32⟩) main_v52) (TRef.of (T := ⟨S1600000x64, .f32⟩) main_call0_v0) (TRef.of (T := ⟨S1600000x64, .f32⟩) main_v53) maximumf ]
abbrev E6 : List (HloOp τ sig (Elt F)) :=
  [ binary main_v53 main_arg9 main_v54 (fun l r => Host.dotGeneral dot_S1600000x64_S64x64_S1600000x64_1_0_0_1_n_n none l r),
    unary main_arg10 main_v55 (broadcastInDim S1x64 ![1] bcast_S64_S1x64_1),
    unary main_v55 main_v56 (broadcastInDim S1600000x64 ![0, 1] bcast_S1x64_S1600000x64_0_1),
    binary main_v54 main_v56 main_v57 addf ]
abbrev E7 : List (HloOp τ sig (Elt F)) :=
  [ nullary main_cst_7 (constant S_ .f32 0x00000000#32),
    binary main_v57 main_cst_7 main_v58 (fun x v => Host.reduceAdd x v reducesTo_S1600000x64_S64_d0 h_S_),
    nullary main_cst_8 (constant S_ .f32 0x49C35000#32),
    unary main_cst_8 main_v59 (broadcastInDim S64 ![] bcast_S_S64),
    binary main_v58 main_v59 main_v60 Host.divf,
    unary main_v60 main_v61 (broadcastInDim S1x64 ![1] bcast_S64_S1x64_1),
    unary main_v61 main_v62 (broadcastInDim S1600000x64 ![0, 1] bcast_S1x64_S1600000x64_0_1),
    binary main_v57 main_v62 main_v63 subf,
    binary main_v63 main_v63 main_v64 mulf,
    nullary main_cst_9 (constant S_ .f32 0x00000000#32),
    binary main_v64 main_cst_9 main_v65 (fun x v => Host.reduceAdd x v reducesTo_S1600000x64_S64_d0 h_S_),
    nullary main_cst_10 (constant S_ .f32 0x49C35000#32),
    unary main_cst_10 main_v66 (broadcastInDim S64 ![] bcast_S_S64),
    binary main_v65 main_v66 main_v67 Host.divf,
    unary main_v60 main_v68 (broadcastInDim S1x64 ![1] bcast_S64_S1x64_1),
    unary main_v68 main_v69 (broadcastInDim S1600000x64 ![0, 1] bcast_S1x64_S1600000x64_0_1),
    binary main_v57 main_v69 main_v70 subf,
    nullary main_cst_11 (constant S_ .f32 0x3727C5AC#32),
    unary main_cst_11 main_v71 (broadcastInDim S64 ![] bcast_S_S64),
    binary main_v67 main_v71 main_v72 addf,
    unary main_v72 main_v73 Host.rsqrt,
    unary main_v73 main_v74 (broadcastInDim S1x64 ![1] bcast_S64_S1x64_1),
    unary main_v74 main_v75 (broadcastInDim S1600000x64 ![0, 1] bcast_S1x64_S1600000x64_0_1),
    binary main_v70 main_v75 main_v76 mulf,
    unary main_arg11 main_v77 (broadcastInDim S1x64 ![1] bcast_S64_S1x64_1),
    unary main_v77 main_v78 (broadcastInDim S1600000x64 ![0, 1] bcast_S1x64_S1600000x64_0_1),
    binary main_v76 main_v78 main_v79 mulf,
    unary main_arg12 main_v80 (broadcastInDim S1x64 ![1] bcast_S64_S1x64_1),
    unary main_v80 main_v81 (broadcastInDim S1600000x64 ![0, 1] bcast_S1x64_S1600000x64_0_1),
    binary main_v79 main_v81 main_v82 addf,
    TRef.nullary (TRef.of (T := ⟨S_, .f32⟩) main_call1_cst) (constant S_ .f32 0x00000000#32),
    TRef.unary (TRef.of (T := ⟨S_, .f32⟩) main_call1_cst) (TRef.of (T := ⟨S1600000x64, .f32⟩) main_call1_v0) (broadcastInDim S1600000x64 ![] bcast_S_S1600000x64),
    TRef.binary (TRef.of (T := ⟨S1600000x64, .f32⟩) main_v82) (TRef.of (T := ⟨S1600000x64, .f32⟩) main_call1_v0) (TRef.of (T := ⟨S1600000x64, .f32⟩) main_v83) maximumf ]

end Cert.ReferenceIdeal.REdge

namespace Cert.ReferenceIdeal.RNode

abbrev opsA : List (HloOp τ sig (Elt F)) :=
  [ nullary main_cst_12 (constant S_ .f32 0x00000000#32),
    unary main_cst_12 main_v84 (broadcastInDim S100000x64 ![] bcast_S_S100000x64),
    unary main_v8 main_v85 (broadcastInDim S1600000x1 ![0] bcast_S1600000_S1600000x1_0),
    ternary main_v84 main_v85 main_v83 main_v86 (fun x i u => Host.scatterAdd scatter_S100000x64_S1600000x1_S1600000x64_1_0_0_1 x i u),
    binary main_v4 main_v86 main_v87 (fun a b => concatenate S100000x128 1 [⟨S100000x64, a⟩, ⟨S100000x64, b⟩] concatenates_S100000x64_S100000x64_S100000x128_d1),
    binary main_v87 main_arg13 main_v88 (fun l r => Host.dotGeneral dot_S100000x128_S128x64_S100000x64_1_0_0_1_n_n none l r),
    unary main_arg14 main_v89 (broadcastInDim S1x64 ![1] bcast_S64_S1x64_1),
    unary main_v89 main_v90 (broadcastInDim S100000x64 ![0, 1] bcast_S1x64_S100000x64_0_1),
    binary main_v88 main_v90 main_v91 addf ]
abbrev opsB : List (HloOp τ sig (Elt F)) :=
  [ nullary main_cst_13 (constant S_ .f32 0x00000000#32),
    binary main_v91 main_cst_13 main_v92 (fun x v => Host.reduceAdd x v reducesTo_S100000x64_S64_d0 h_S_),
    nullary main_cst_14 (constant S_ .f32 0x47C35000#32),
    unary main_cst_14 main_v93 (broadcastInDim S64 ![] bcast_S_S64),
    binary main_v92 main_v93 main_v94 Host.divf,
    unary main_v94 main_v95 (broadcastInDim S1x64 ![1] bcast_S64_S1x64_1),
    unary main_v95 main_v96 (broadcastInDim S100000x64 ![0, 1] bcast_S1x64_S100000x64_0_1),
    binary main_v91 main_v96 main_v97 subf,
    binary main_v97 main_v97 main_v98 mulf,
    nullary main_cst_15 (constant S_ .f32 0x00000000#32),
    binary main_v98 main_cst_15 main_v99 (fun x v => Host.reduceAdd x v reducesTo_S100000x64_S64_d0 h_S_),
    nullary main_cst_16 (constant S_ .f32 0x47C35000#32),
    unary main_cst_16 main_v100 (broadcastInDim S64 ![] bcast_S_S64),
    binary main_v99 main_v100 main_v101 Host.divf,
    unary main_v94 main_v102 (broadcastInDim S1x64 ![1] bcast_S64_S1x64_1),
    unary main_v102 main_v103 (broadcastInDim S100000x64 ![0, 1] bcast_S1x64_S100000x64_0_1),
    binary main_v91 main_v103 main_v104 subf,
    nullary main_cst_17 (constant S_ .f32 0x3727C5AC#32),
    unary main_cst_17 main_v105 (broadcastInDim S64 ![] bcast_S_S64),
    binary main_v101 main_v105 main_v106 addf,
    unary main_v106 main_v107 Host.rsqrt,
    unary main_v107 main_v108 (broadcastInDim S1x64 ![1] bcast_S64_S1x64_1),
    unary main_v108 main_v109 (broadcastInDim S100000x64 ![0, 1] bcast_S1x64_S100000x64_0_1),
    binary main_v104 main_v109 main_v110 mulf,
    unary main_arg15 main_v111 (broadcastInDim S1x64 ![1] bcast_S64_S1x64_1),
    unary main_v111 main_v112 (broadcastInDim S100000x64 ![0, 1] bcast_S1x64_S100000x64_0_1),
    binary main_v110 main_v112 main_v113 mulf,
    unary main_arg16 main_v114 (broadcastInDim S1x64 ![1] bcast_S64_S1x64_1),
    unary main_v114 main_v115 (broadcastInDim S100000x64 ![0, 1] bcast_S1x64_S100000x64_0_1),
    binary main_v113 main_v115 main_v116 addf,
    TRef.nullary (TRef.of (T := ⟨S_, .f32⟩) main_call2_cst) (constant S_ .f32 0x00000000#32),
    TRef.unary (TRef.of (T := ⟨S_, .f32⟩) main_call2_cst) (TRef.of (T := ⟨S100000x64, .f32⟩) main_call2_v0) (broadcastInDim S100000x64 ![] bcast_S_S100000x64),
    TRef.binary (TRef.of (T := ⟨S100000x64, .f32⟩) main_v116) (TRef.of (T := ⟨S100000x64, .f32⟩) main_call2_v0) (TRef.of (T := ⟨S100000x64, .f32⟩) main_v117) maximumf ]
abbrev opsC : List (HloOp τ sig (Elt F)) :=
  [ binary main_v117 main_arg17 main_v118 (fun l r => Host.dotGeneral dot_S100000x64_S64x64_S100000x64_1_0_0_1_n_n none l r),
    unary main_arg18 main_v119 (broadcastInDim S1x64 ![1] bcast_S64_S1x64_1),
    unary main_v119 main_v120 (broadcastInDim S100000x64 ![0, 1] bcast_S1x64_S100000x64_0_1),
    binary main_v118 main_v120 main_v121 addf ]
abbrev opsD : List (HloOp τ sig (Elt F)) :=
  [ nullary main_cst_18 (constant S_ .f32 0x00000000#32),
    binary main_v121 main_cst_18 main_v122 (fun x v => Host.reduceAdd x v reducesTo_S100000x64_S64_d0 h_S_),
    nullary main_cst_19 (constant S_ .f32 0x47C35000#32),
    unary main_cst_19 main_v123 (broadcastInDim S64 ![] bcast_S_S64),
    binary main_v122 main_v123 main_v124 Host.divf,
    unary main_v124 main_v125 (broadcastInDim S1x64 ![1] bcast_S64_S1x64_1),
    unary main_v125 main_v126 (broadcastInDim S100000x64 ![0, 1] bcast_S1x64_S100000x64_0_1),
    binary main_v121 main_v126 main_v127 subf,
    binary main_v127 main_v127 main_v128 mulf,
    nullary main_cst_20 (constant S_ .f32 0x00000000#32),
    binary main_v128 main_cst_20 main_v129 (fun x v => Host.reduceAdd x v reducesTo_S100000x64_S64_d0 h_S_),
    nullary main_cst_21 (constant S_ .f32 0x47C35000#32),
    unary main_cst_21 main_v130 (broadcastInDim S64 ![] bcast_S_S64),
    binary main_v129 main_v130 main_v131 Host.divf,
    unary main_v124 main_v132 (broadcastInDim S1x64 ![1] bcast_S64_S1x64_1),
    unary main_v132 main_v133 (broadcastInDim S100000x64 ![0, 1] bcast_S1x64_S100000x64_0_1),
    binary main_v121 main_v133 main_v134 subf,
    nullary main_cst_22 (constant S_ .f32 0x3727C5AC#32),
    unary main_cst_22 main_v135 (broadcastInDim S64 ![] bcast_S_S64),
    binary main_v131 main_v135 main_v136 addf,
    unary main_v136 main_v137 Host.rsqrt,
    unary main_v137 main_v138 (broadcastInDim S1x64 ![1] bcast_S64_S1x64_1),
    unary main_v138 main_v139 (broadcastInDim S100000x64 ![0, 1] bcast_S1x64_S100000x64_0_1),
    binary main_v134 main_v139 main_v140 mulf,
    unary main_arg19 main_v141 (broadcastInDim S1x64 ![1] bcast_S64_S1x64_1),
    unary main_v141 main_v142 (broadcastInDim S100000x64 ![0, 1] bcast_S1x64_S100000x64_0_1),
    binary main_v140 main_v142 main_v143 mulf,
    unary main_arg20 main_v144 (broadcastInDim S1x64 ![1] bcast_S64_S1x64_1),
    unary main_v144 main_v145 (broadcastInDim S100000x64 ![0, 1] bcast_S1x64_S100000x64_0_1),
    binary main_v143 main_v145 main_v146 addf,
    TRef.nullary (TRef.of (T := ⟨S_, .f32⟩) main_call3_cst) (constant S_ .f32 0x00000000#32),
    TRef.unary (TRef.of (T := ⟨S_, .f32⟩) main_call3_cst) (TRef.of (T := ⟨S100000x64, .f32⟩) main_call3_v0) (broadcastInDim S100000x64 ![] bcast_S_S100000x64),
    TRef.binary (TRef.of (T := ⟨S100000x64, .f32⟩) main_v146) (TRef.of (T := ⟨S100000x64, .f32⟩) main_call3_v0) (TRef.of (T := ⟨S100000x64, .f32⟩) main_v147) maximumf ]
abbrev opsE : List (HloOp τ sig (Elt F)) :=
  [ binary main_v147 main_arg21 main_v148 (fun l r => Host.dotGeneral dot_S100000x64_S64x1_S100000x1_1_0_0_1_n_n none l r),
    unary main_arg22 main_v149 (broadcastInDim S1x1 ![1] bcast_S1_S1x1_1),
    unary main_v149 main_v150 (broadcastInDim S100000x1 ![0, 1] bcast_S1x1_S100000x1_0_1),
    binary main_v148 main_v150 main_v151 addf,
    reshape main_v151 main_v152 rfl shapeCasts_S100000x1_S100000 ]

end Cert.ReferenceIdeal.RNode

namespace Cert.ReferenceIdeal.RefSplit

open Cert.ReferenceIdeal.REdge

abbrev opsE : List (HloOp τ sig (Elt F)) := E1 ++ (E2 ++ (E3 ++ (E4 ++ (E5 ++ (E6 ++ E7)))))

abbrev opsN : List (HloOp τ sig (Elt F)) := RNode.opsA ++ (RNode.opsB ++ (RNode.opsC ++ (RNode.opsD ++ RNode.opsE)))

end Cert.ReferenceIdeal.RefSplit

namespace Cert.ReferenceIdeal.RunFold

open Cert.ReferenceIdeal Cert.ReferenceIdeal.Gen Idealize.ShloMosaic Idealize.ShloMosaic.TcCoe Idealize.SL.Sem Idealize.ShloMosaic.StableHlo

variable {F : FTy → Type} [FloatOps F]

abbrev ops : List (HloOp τ sig (Elt F)) := RefSplit.opsE ++ RefSplit.opsN

theorem ops_split : (ops : List (HloOp τ sig (Elt F))) = RefSplit.opsE ++ RefSplit.opsN := rfl

theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt Ideal))).Forall fun op => op.bufs ⊆ tcRefs τ sig := by decide

-- No operation writes a buffer it is not the result of: an argument keeps its launch contents.
theorem arg_kept (m : (ℓ : Loc nD τ sig) → Buf (Elt Ideal) ℓ) (c : Dev nD) (r : Ref sig .tc)
    (h : ∀ op ∈ ops (F := Ideal), Proc.devRef .tc r ∉ op.writes) :
    after ops (launchContents m c) (Proc.devRef .tc r) = m ((c.tc : Thread nD τ).loc r) :=
  (after_of_forall_not_mem _ _ h).trans rfl

theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v152) = after ops (launchContents m c) (Proc.devRef .tc main_v152)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22) :=
  (θ_run defs _ _).mono (fun _ h c => ⟨h c main_v152,
      (h c main_arg0).trans (arg_kept m c _ (by decide)),
      (h c main_arg1).trans (arg_kept m c _ (by decide)),
      (h c main_arg2).trans (arg_kept m c _ (by decide)),
      (h c main_arg3).trans (arg_kept m c _ (by decide)),
      (h c main_arg4).trans (arg_kept m c _ (by decide)),
      (h c main_arg5).trans (arg_kept m c _ (by decide)),
      (h c main_arg6).trans (arg_kept m c _ (by decide)),
      (h c main_arg7).trans (arg_kept m c _ (by decide)),
      (h c main_arg8).trans (arg_kept m c _ (by decide)),
      (h c main_arg9).trans (arg_kept m c _ (by decide)),
      (h c main_arg10).trans (arg_kept m c _ (by decide)),
      (h c main_arg11).trans (arg_kept m c _ (by decide)),
      (h c main_arg12).trans (arg_kept m c _ (by decide)),
      (h c main_arg13).trans (arg_kept m c _ (by decide)),
      (h c main_arg14).trans (arg_kept m c _ (by decide)),
      (h c main_arg15).trans (arg_kept m c _ (by decide)),
      (h c main_arg16).trans (arg_kept m c _ (by decide)),
      (h c main_arg17).trans (arg_kept m c _ (by decide)),
      (h c main_arg18).trans (arg_kept m c _ (by decide)),
      (h c main_arg19).trans (arg_kept m c _ (by decide)),
      (h c main_arg20).trans (arg_kept m c _ (by decide)),
      (h c main_arg21).trans (arg_kept m c _ (by decide)),
      (h c main_arg22).trans (arg_kept m c _ (by decide))⟩)
    (run_seq scopedRefs_eq scopedSems_eq defs main (fun _ => ops) main_eq (fun _ => ops_sub) m ρ)

end Cert.ReferenceIdeal.RunFold

end
-- ==== Proof.Spec.lean ====
import Idealize.ShloMosaic.PureOps.Ideal
import Idealize.ShloMosaic.Lib.ValueIdx

noncomputable section

namespace Cert.Spec

open Idealize.ShloMosaic Idealize.ShloMosaic.ValueIdx

abbrev Mat (r c : ℕ) : Type := (⟨2, ![r, c]⟩ : Shape).Idx → EReal

abbrev eps : EReal := Ideal.ofBits .f32 0x3727C5AC#32

def lin {R K C : ℕ} (x : Mat R K) (w : Mat K C) (b : Mat 1 C) : Mat R C :=
  fun i => (∑ k : Fin K, x (ix2 (i 0) k) * w (ix2 k (i 1))) + b (ix2 0 (i 1))

def csum {R C : ℕ} (y : Mat R C) : Mat 1 C :=
  fun i => ∑ r : Fin R, y (ix2 r (i 1))

def csumsq {R C : ℕ} (y : Mat R C) : Mat 1 C :=
  fun i => ∑ r : Fin R, y (ix2 r (i 1)) * y (ix2 r (i 1))

def bnrelu {R C : ℕ} (y : Mat R C) (mean var g β : Mat 1 C) : Mat R C :=
  fun i => max (((y i - mean (ix2 0 (i 1))) * Ideal.rsqrt (var (ix2 0 (i 1)) + eps)) * g (ix2 0 (i 1)) + β (ix2 0 (i 1))) 0

end Cert.Spec

end
-- ==== Proof.Net.lean ====
import proofs.«401100_j23158463660136_1_alg».proof.Proof.Spec

noncomputable section

namespace Cert.Net

open Idealize.ShloMosaic Idealize.ShloMosaic.ValueIdx Cert.Spec

abbrev Vec1 (n : ℕ) : Type := (⟨1, ![n]⟩ : Shape).Idx → EReal

def row {C : ℕ} (v : Vec1 C) : Mat 1 C := fun i => v (ix1 (i 1))

def cat {R A B C : ℕ} (hC : A + B = C) (x : Mat R A) (y : Mat R B) : Mat R C :=
  fun i =>
    if h : (i 1).val < A then x (ix2 (i 0) ⟨(i 1).val, h⟩)
    else y (ix2 (i 0) ⟨(i 1).val - A, by have hlt : (i 1).val < C := (i 1).isLt; omega⟩)

def cmean {R C : ℕ} (D : EReal) (y : Mat R C) : Mat 1 C :=
  fun i => Ideal.div (csum y i) D

def cvarK {R C : ℕ} (D : EReal) (y : Mat R C) : Mat 1 C :=
  fun i => Ideal.div (csumsq y i) D - cmean D y i * cmean D y i

def cvarR {R C : ℕ} (D : EReal) (y : Mat R C) : Mat 1 C :=
  fun i => Ideal.div (∑ r : Fin R, (y (ix2 r (i 1)) - cmean D y i) * (y (ix2 r (i 1)) - cmean D y i)) D

abbrev DE : EReal := Ideal.ofBits .f32 0x49C35000#32
abbrev DN : EReal := Ideal.ofBits .f32 0x47C35000#32

structure Args where
  pos : Mat 100000 2
  vel : Mat 100000 2
  W_in : Mat 4 64
  b_in : Vec1 64
  mW1 : Mat 128 64
  mb1 : Vec1 64
  mg1 : Vec1 64
  mB1 : Vec1 64
  mW2 : Mat 64 64
  mb2 : Vec1 64
  mg2 : Vec1 64
  mB2 : Vec1 64
  uW1 : Mat 128 64
  ub1 : Vec1 64
  ug1 : Vec1 64
  uB1 : Vec1 64
  uW2 : Mat 64 64
  ub2 : Vec1 64
  ug2 : Vec1 64
  uB2 : Vec1 64
  W_pred : Mat 64 1
  b_pred : Vec1 1

section Stages

variable (vr : {R C : ℕ} → EReal → Mat R C → Mat 1 C)
variable (gD gS : Mat 100000 64 → Mat 1600000 64) (seg : Mat 1600000 64 → Mat 100000 64) (A : Args)

def h : Mat 100000 64 := lin (cat (C := 4) rfl A.pos A.vel) A.W_in (row A.b_in)

def xmsg : Mat 1600000 128 := cat (C := 128) rfl (gD (h A)) (gS (h A))

def a1 : Mat 1600000 64 := lin (xmsg gD gS A) A.mW1 (row A.mb1)
def mean1 : Mat 1 64 := cmean DE (a1 gD gS A)
def var1 : Mat 1 64 := vr DE (a1 gD gS A)
def a2 : Mat 1600000 64 :=
  lin (bnrelu (a1 gD gS A) (mean1 gD gS A) (var1 vr gD gS A) (row A.mg1) (row A.mB1)) A.mW2 (row A.mb2)
def mean2 : Mat 1 64 := cmean DE (a2 vr gD gS A)
def var2 : Mat 1 64 := vr DE (a2 vr gD gS A)

def msg : Mat 1600000 64 := bnrelu (a2 vr gD gS A) (mean2 vr gD gS A) (var2 vr gD gS A) (row A.mg2) (row A.mB2)

def aggr : Mat 100000 64 := seg (msg vr gD gS A)
def xupd : Mat 100000 128 := cat (C := 128) rfl (h A) (aggr vr gD gS seg A)

def c1 : Mat 100000 64 := lin (xupd vr gD gS seg A) A.uW1 (row A.ub1)
def meanu1 : Mat 1 64 := cmean DN (c1 vr gD gS seg A)
def varu1 : Mat 1 64 := vr DN (c1 vr gD gS seg A)
def c2 : Mat 100000 64 :=
  lin (bnrelu (c1 vr gD gS seg A) (meanu1 vr gD gS seg A) (varu1 vr gD gS seg A) (row A.ug1) (row A.uB1)) A.uW2 (row A.ub2)
def meanu2 : Mat 1 64 := cmean DN (c2 vr gD gS seg A)
def varu2 : Mat 1 64 := vr DN (c2 vr gD gS seg A)

def out : Mat 100000 1 :=
  lin (bnrelu (c2 vr gD gS seg A) (meanu2 vr gD gS seg A) (varu2 vr gD gS seg A) (row A.ug2) (row A.uB2)) A.W_pred (row A.b_pred)

def result : Vec1 100000 := fun i => out vr gD gS seg A (ix2 (i 0) 0)

end Stages

section Tail

variable (vr : {R C : ℕ} → EReal → Mat R C → Mat 1 C)
variable (seg : Mat 1600000 64 → Mat 100000 64) (A : Args) (hN : Mat 100000 64) (ms : Mat 1600000 64)

def tXupd : Mat 100000 128 := cat (C := 128) rfl hN (seg ms)
def tC1 : Mat 100000 64 := lin (tXupd seg hN ms) A.uW1 (row A.ub1)
def tC2 : Mat 100000 64 :=
  lin (bnrelu (tC1 seg A hN ms) (cmean DN (tC1 seg A hN ms)) (vr DN (tC1 seg A hN ms)) (row A.ug1) (row A.uB1)) A.uW2 (row A.ub2)
def tOut : Mat 100000 1 :=
  lin (bnrelu (tC2 vr seg A hN ms) (cmean DN (tC2 vr seg A hN ms)) (vr DN (tC2 vr seg A hN ms)) (row A.ug2) (row A.uB2))
    A.W_pred (row A.b_pred)
def tResult : Vec1 100000 := fun i => tOut vr seg A hN ms (ix2 (i 0) 0)

theorem result_eq_tail (gD gS : Mat 100000 64 → Mat 1600000 64) :
    result vr gD gS seg A = tResult vr seg A (h A) (msg vr gD gS A) := rfl

end Tail

end Cert.Net

end
-- ==== Proof.NetMath.lean ====
import proofs.«401100_j23158463660136_1_alg».proof.Proof.Net
import Mathlib.Data.EReal.Basic
import Mathlib.Analysis.SpecialFunctions.Pow.Real
import Mathlib.Algebra.BigOperators.Group.Finset.Basic
import Mathlib.Tactic.Ring
import Mathlib.Tactic.FieldSimp
import Mathlib.Tactic.Positivity
import Mathlib.Tactic.NormNum

noncomputable section

namespace Cert.Net

open Idealize.ShloMosaic Idealize.ShloMosaic.ValueIdx Cert.Spec

def IsReal {ι : Type} (x : ι → EReal) : Prop := ∀ i, ∃ r : ℝ, x i = (r : EReal)

theorem DE_eq : DE = ((1600000 : ℝ) : EReal) := by
  simp [Ideal.ofBits, Ideal.ieee, -EReal.coe_mul]; norm_num

theorem DN_eq : DN = ((100000 : ℝ) : EReal) := by
  simp [Ideal.ofBits, Ideal.ieee, -EReal.coe_mul]; norm_num

theorem eps_eq : Spec.eps = ((10995116 * (2 : ℝ) ^ (-40 : ℤ) : ℝ) : EReal) := by
  simp [Ideal.ofBits, Ideal.ieee, -EReal.coe_mul]

theorem eps_pos : ∃ e : ℝ, 0 < e ∧ Spec.eps = (e : EReal) :=
  ⟨10995116 * (2 : ℝ) ^ (-40 : ℤ), by positivity, eps_eq⟩

theorem coe_sum {ι : Type} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem sum_sq_dev {R : ℕ} (f : Fin R → ℝ) (m : ℝ) :
    ∑ r : Fin R, (f r - m) * (f r - m) = (∑ r : Fin R, f r * f r) - 2 * m * (∑ r : Fin R, f r) + R * (m * m) := by
  have h : ∀ r : Fin R, (f r - m) * (f r - m) = f r * f r - 2 * m * f r + m * m := fun r => by ring
  simp only [h, Finset.sum_add_distrib, Finset.sum_sub_distrib, ← Finset.mul_sum, Finset.sum_const,
    Finset.card_univ, Fintype.card_fin, nsmul_eq_mul]
  ring

theorem cvar_eq {R C : ℕ} (hR : 0 < R) (D : EReal) (hD : D = (((R : ℕ) : ℝ) : EReal)) (y : Spec.Mat R C)
    (hy : IsReal y) : cvarK D y = cvarR D y := by
  choose f hf using hy
  have hRne : ((R : ℕ) : ℝ) ≠ 0 := Nat.cast_ne_zero.mpr (Nat.pos_iff_ne_zero.mp hR)
  subst hD
  funext i
  simp only [cvarK, cvarR, cmean, csum, csumsq, hf, Ideal.div_coe hRne, ← EReal.coe_mul, ← coe_sum,
    ← EReal.coe_sub]
  rw [EReal.coe_eq_coe_iff, sum_sq_dev]
  field_simp
  ring

structure Args.IsReal (A : Args) : Prop where
  pos : _root_.Cert.Net.IsReal A.pos
  vel : _root_.Cert.Net.IsReal A.vel
  W_in : _root_.Cert.Net.IsReal A.W_in
  b_in : _root_.Cert.Net.IsReal A.b_in
  mW1 : _root_.Cert.Net.IsReal A.mW1
  mb1 : _root_.Cert.Net.IsReal A.mb1
  mg1 : _root_.Cert.Net.IsReal A.mg1
  mB1 : _root_.Cert.Net.IsReal A.mB1
  mW2 : _root_.Cert.Net.IsReal A.mW2
  mb2 : _root_.Cert.Net.IsReal A.mb2
  mg2 : _root_.Cert.Net.IsReal A.mg2
  mB2 : _root_.Cert.Net.IsReal A.mB2
  uW1 : _root_.Cert.Net.IsReal A.uW1
  ub1 : _root_.Cert.Net.IsReal A.ub1
  ug1 : _root_.Cert.Net.IsReal A.ug1
  uB1 : _root_.Cert.Net.IsReal A.uB1
  uW2 : _root_.Cert.Net.IsReal A.uW2
  ub2 : _root_.Cert.Net.IsReal A.ub2
  ug2 : _root_.Cert.Net.IsReal A.ug2
  uB2 : _root_.Cert.Net.IsReal A.uB2
  W_pred : _root_.Cert.Net.IsReal A.W_pred
  b_pred : _root_.Cert.Net.IsReal A.b_pred

theorem isReal_lin {R K C : ℕ} {x : Mat R K} {w : Mat K C} {b : Mat 1 C}
    (hx : IsReal x) (hw : IsReal w) (hb : IsReal b) : IsReal (lin x w b) := by
  choose fx hfx using hx
  choose fw hfw using hw
  choose fb hfb using hb
  intro i
  refine ⟨(∑ k : Fin K, fx (ix2 (i 0) k) * fw (ix2 k (i 1))) + fb (ix2 0 (i 1)), ?_⟩
  simp only [lin, hfx, hfw, hfb, EReal.coe_add, coe_sum, EReal.coe_mul]

theorem isReal_row {C : ℕ} {v : Vec1 C} (hv : IsReal v) : IsReal (row v) := fun _ => hv _

theorem isReal_cat {R A B C : ℕ} (hC : A + B = C) {x : Mat R A} {y : Mat R B}
    (hx : IsReal x) (hy : IsReal y) : IsReal (cat hC x y) := by
  intro i
  unfold cat
  split
  · exact hx _
  · exact hy _

theorem isReal_csum {R C : ℕ} {y : Mat R C} (hy : IsReal y) : IsReal (csum y) := by
  choose f hf using hy
  intro i
  exact ⟨∑ r : Fin R, f (ix2 r (i 1)), by simp only [csum, hf, coe_sum]⟩

theorem isReal_cmean {R C : ℕ} {D : EReal} {d : ℝ} (hd : d ≠ 0) (hD : D = (d : EReal)) {y : Mat R C}
    (hy : IsReal y) : IsReal (cmean D y) := by
  subst hD
  intro i
  obtain ⟨s, hs⟩ := isReal_csum hy i
  exact ⟨s * (1 / d), by simp only [cmean, hs, Ideal.div_coe hd, EReal.coe_mul]⟩

theorem cvarR_nonneg {R C : ℕ} {D : EReal} {d : ℝ} (hd : 0 < d) (hD : D = (d : EReal)) {y : Mat R C}
    (hy : IsReal y) (i : (⟨2, ![1, C]⟩ : Shape).Idx) : ∃ v : ℝ, 0 ≤ v ∧ cvarR D y i = (v : EReal) := by
  obtain ⟨m, hm⟩ := isReal_cmean hd.ne' hD hy i
  subst hD
  choose f hf using hy
  refine ⟨(∑ r : Fin R, (f (ix2 r (i 1)) - m) * (f (ix2 r (i 1)) - m)) * (1 / d), ?_, ?_⟩
  · exact mul_nonneg (Finset.sum_nonneg fun r _ => mul_self_nonneg _) (by positivity)
  · simp only [cvarR, hm, hf, Ideal.div_coe hd.ne', ← EReal.coe_sub, ← EReal.coe_mul, ← coe_sum]

theorem coe_max (a b : ℝ) : ((max a b : ℝ) : EReal) = max (a : EReal) (b : EReal) :=
  EReal.coe_strictMono.monotone.map_max

theorem isReal_bnrelu {R C : ℕ} {y : Mat R C} {mean var g β : Mat 1 C} (hy : IsReal y) (hm : IsReal mean)
    (hv : ∀ i, ∃ v : ℝ, 0 ≤ v ∧ var i = (v : EReal)) (hg : IsReal g) (hβ : IsReal β) :
    IsReal (bnrelu y mean var g β) := by
  obtain ⟨e, he, hee⟩ := eps_pos
  intro i
  obtain ⟨a, ha⟩ := hy i
  obtain ⟨m, hm⟩ := hm (ix2 0 (i 1))
  obtain ⟨v, hv0, hv⟩ := hv (ix2 0 (i 1))
  obtain ⟨c, hc⟩ := hg (ix2 0 (i 1))
  obtain ⟨b, hb⟩ := hβ (ix2 0 (i 1))
  have hpos : 0 < v + e := add_pos_of_nonneg_of_pos hv0 he
  refine ⟨max (((a - m) * (Real.sqrt (v + e))⁻¹) * c + b) 0, ?_⟩
  have hr : Ideal.rsqrt (((v + e : ℝ)) : EReal) = (((Real.sqrt (v + e))⁻¹ : ℝ) : EReal) := by
    rw [Ideal.rsqrt_coe, if_neg (not_lt.mpr hpos.le), if_neg hpos.ne']
  simp only [bnrelu, ha, hm, hv, hc, hb, hee]
  rw [← EReal.coe_add v e, hr, ← EReal.coe_sub, ← EReal.coe_mul, ← EReal.coe_mul, ← EReal.coe_add, ← EReal.coe_zero,
    ← coe_max]

theorem bn_stage {R C : ℕ} (hR : 0 < R) {D : EReal} (hD : D = (((R : ℕ) : ℝ) : EReal)) {y : Mat R C}
    (hy : IsReal y) {g β : Vec1 C} (hg : IsReal g) (hβ : IsReal β) :
    cvarK D y = cvarR D y ∧ IsReal (bnrelu y (cmean D y) (cvarR D y) (row g) (row β)) := by
  have hd : (0 : ℝ) < ((R : ℕ) : ℝ) := Nat.cast_pos.mpr hR
  exact ⟨cvar_eq hR D hD y hy,
    isReal_bnrelu hy (isReal_cmean hd.ne' hD hy) (cvarR_nonneg hd hD hy) (isReal_row hg) (isReal_row hβ)⟩

theorem result_congr (gD gS : Spec.Mat 100000 64 → Spec.Mat 1600000 64)
    (seg : Spec.Mat 1600000 64 → Spec.Mat 100000 64)
    (hgD : ∀ x, IsReal x → IsReal (gD x)) (hgS : ∀ x, IsReal x → IsReal (gS x))
    (hseg : ∀ x, IsReal x → IsReal (seg x)) (A : Args) (hA : A.IsReal) :
    result cvarK gD gS seg A = result cvarR gD gS seg A := by
  have hDE : DE = (((1600000 : ℕ) : ℝ) : EReal) := by rw [DE_eq]; norm_num
  have hDN : DN = (((100000 : ℕ) : ℝ) : EReal) := by rw [DN_eq]; norm_num

  have h_h : IsReal (h A) := isReal_lin (isReal_cat _ hA.pos hA.vel) hA.W_in (isReal_row hA.b_in)
  have h_x : IsReal (xmsg gD gS A) := isReal_cat _ (hgD _ h_h) (hgS _ h_h)
  have h_a1 : IsReal (a1 gD gS A) := isReal_lin h_x hA.mW1 (isReal_row hA.mb1)

  obtain ⟨e1, r1⟩ := bn_stage (by norm_num) hDE h_a1 hA.mg1 hA.mB1
  have a2eq : a2 cvarK gD gS A = a2 cvarR gD gS A := by
    simp only [a2, var1]; rw [e1]
  have h_a2 : IsReal (a2 cvarR gD gS A) := isReal_lin r1 hA.mW2 (isReal_row hA.mb2)

  obtain ⟨e2, r2⟩ := bn_stage (by norm_num) hDE h_a2 hA.mg2 hA.mB2
  have msgeq : msg cvarK gD gS A = msg cvarR gD gS A := by
    simp only [msg, mean2, var2, a2eq]; rw [e2]
  have h_msg : IsReal (msg cvarR gD gS A) := r2

  have h_xu : IsReal (xupd cvarR gD gS seg A) := isReal_cat _ h_h (hseg _ h_msg)
  have c1eq : c1 cvarK gD gS seg A = c1 cvarR gD gS seg A := by
    simp only [c1, xupd, aggr, msgeq]
  have h_c1 : IsReal (c1 cvarR gD gS seg A) := isReal_lin h_xu hA.uW1 (isReal_row hA.ub1)

  obtain ⟨e3, r3⟩ := bn_stage (by norm_num) hDN h_c1 hA.ug1 hA.uB1
  have c2eq : c2 cvarK gD gS seg A = c2 cvarR gD gS seg A := by
    simp only [c2, meanu1, varu1, c1eq]; rw [e3]
  have h_c2 : IsReal (c2 cvarR gD gS seg A) := isReal_lin r3 hA.uW2 (isReal_row hA.ub2)

  obtain ⟨e4, _⟩ := bn_stage (by norm_num) hDN h_c2 hA.ug2 hA.uB2
  have outeq : out cvarK gD gS seg A = out cvarR gD gS seg A := by
    simp only [out, meanu2, varu2, c2eq]; rw [e4]
  funext i
  simp only [result, outeq]

end Cert.Net

end
-- ==== Proof.PreDecode.lean ====
import proofs.«401100_j23158463660136_1_alg».proof.Pre_finite_inputs
import proofs.«401100_j23158463660136_1_alg».proof.Proof.Gen.Pre_finite_inputs
import proofs.«401100_j23158463660136_1_alg».proof.Proof.NetMath
import Idealize.ShloMosaic.Lib.ReduceAll
import Idealize.ShloMosaic.Lib.ValueIdx
import Idealize.ShloMosaic.PureOps.Ideal

noncomputable section

namespace Cert.PreDecode

open Idealize.ShloMosaic Cert.Pre_finite_inputs

instance subsingleton_S_ : Subsingleton S_.Idx := ⟨fun a b => funext fun d => d.elim0⟩

theorem real_of_abs_lt_inf (x : EReal)
    (h : FloatOps.cmpf (F := Ideal) (φ := .f32) .olt (FloatOps.hostAbsf (F := Ideal) (φ := .f32) x) (FloatOps.ofBits (F := Ideal) .f32 0x7F800000#32) = 1#1) :
    ∃ r : ℝ, x = (r : EReal) := by
  have htop : FloatOps.ofBits (F := Ideal) .f32 0x7F800000#32 = (⊤ : EReal) := by
    simp [Ideal.ofBits, Ideal.ieee]
  rw [htop] at h
  induction x using EReal.rec with
  | bot => exact absurd h (by simp [FloatOps.cmpf, FloatOps.hostAbsf, Ideal.cmp])
  | top => exact absurd h (by simp [FloatOps.cmpf, FloatOps.hostAbsf, Ideal.cmp])
  | coe r => exact ⟨r, rfl⟩

theorem range_of_tests (w : BitVec 32) (h0 : IntOp.cmpi .sge w 0#32 = 1#1) (h1 : IntOp.cmpi .slt w 100000#32 = 1#1) :
    (0 : ℤ) ≤ w.toInt ∧ w.toInt < 100000 := by
  have e0 : (0#32 : BitVec 32).toInt = 0 := by decide
  have e1 : (100000#32 : BitVec 32).toInt = 100000 := by decide
  have a := IntOp.cmpi_sge.1 h0
  have b := IntOp.cmpi_slt.1 h1
  rw [e0] at a
  rw [e1] at b
  exact ⟨a, b⟩

theorem finite_of_all {s : Shape} {axes : List (Fin s.rank)} (hb : S_.BroadcastsInDim s (![] : Fin 0 → Fin s.rank))
    (hr : s.ReducesTo axes S_) (h0 : 0 < S_.numel) (x : FVec Ideal s .f32) (init : IVec S_ 1)
    (e : Host.reduce IntOp.andi (cmpf .olt (Host.absf x) (broadcastInDim s ![] hb (constant S_ .f32 0x7F800000#32))) init hr h0
        ValueIdx.ix0 = 1#1) :
    ∀ i, ∃ r : ℝ, x i = (r : EReal) := fun i =>
  real_of_abs_lt_inf (x i) (Host.reduce_andi_all _ init hr h0 ValueIdx.ix0 e i)

theorem range_of_all {s : Shape} {axes : List (Fin s.rank)} (hb : S_.BroadcastsInDim s (![] : Fin 0 → Fin s.rank))
    (hr : s.ReducesTo axes S_) (h0 : 0 < S_.numel) (x : IVec s 32) (init init' : IVec S_ 1)
    (e0 : Host.reduce IntOp.andi (cmpi .sge x (broadcastInDim s ![] hb (constantI S_ 32 0#32))) init hr h0 ValueIdx.ix0 = 1#1)
    (e1 : Host.reduce IntOp.andi (cmpi .slt x (broadcastInDim s ![] hb (constantI S_ 32 100000#32))) init' hr h0 ValueIdx.ix0 = 1#1) :
    ∀ i, (0 : ℤ) ≤ (x i).toInt ∧ (x i).toInt < 100000 := fun i =>
  range_of_tests (x i) (Host.reduce_andi_all _ init hr h0 ValueIdx.ix0 e0 i) (Host.reduce_andi_all _ init' hr h0 ValueIdx.ix0 e1 i)

theorem word_facts (w : BitVec 32) (h : (0 : ℤ) ≤ w.toInt ∧ w.toInt < 100000) :
    IntOp.cmpi .slt w 0#32 = 0#1 ∧ IntOp.cmpi .sge w 0#32 = 1#1 ∧ IntOp.cmpi .sle w 99999#32 = 1#1
      ∧ w.toNat < 100000 ∧ w.toInt = (w.toNat : ℤ) := by
  obtain ⟨h0, h1⟩ := h
  have e0 : (0#32 : BitVec 32).toInt = 0 := by decide
  have e9 : (99999#32 : BitVec 32).toInt = 99999 := by decide
  have hlt := w.isLt
  have hnat : w.toNat < 100000 ∧ w.toInt = (w.toNat : ℤ) := by
    unfold BitVec.toInt at h0 h1 ⊢
    split at h0 <;> rename_i hc
    · rw [if_pos hc] at h1 ⊢; exact ⟨by omega, rfl⟩
    · rw [if_neg hc] at h1; omega
  refine ⟨?_, IntOp.cmpi_sge.2 (by rw [e0]; exact h0), IntOp.cmpi_sle.2 (by rw [e9]; omega), hnat.1, hnat.2⟩
  rcases BitVec.eq_zero_or_eq_one (IntOp.cmpi .slt w 0#32) with hz | ho
  · exact hz
  · have hneg := IntOp.cmpi_slt.1 ho
    rw [e0] at hneg
    omega

-- The precondition is one conjunction of all-entries tests: each float entry is a real number, each edge word a node index.
theorem decode [Cert.Pre_finite_inputs.Facts] (a0 : FVec Ideal S100000x2 .f32) (a1 : FVec Ideal S100000x2 .f32) (a2 : IVec S2x1600000 32) (a3 : FVec Ideal S4x64 .f32) (a4 : FVec Ideal S64 .f32) (a5 : FVec Ideal S128x64 .f32) (a6 : FVec Ideal S64 .f32) (a7 : FVec Ideal S64 .f32) (a8 : FVec Ideal S64 .f32) (a9 : FVec Ideal S64x64 .f32) (a10 : FVec Ideal S64 .f32) (a11 : FVec Ideal S64 .f32) (a12 : FVec Ideal S64 .f32) (a13 : FVec Ideal S128x64 .f32) (a14 : FVec Ideal S64 .f32) (a15 : FVec Ideal S64 .f32) (a16 : FVec Ideal S64 .f32) (a17 : FVec Ideal S64x64 .f32) (a18 : FVec Ideal S64 .f32) (a19 : FVec Ideal S64 .f32) (a20 : FVec Ideal S64 .f32) (a21 : FVec Ideal S64x1 .f32) (a22 : FVec Ideal S1 .f32)
    (h : Cert.Pre_finite_inputs.fn (F := Ideal) a0 a1 a2 a3 a4 a5 a6 a7 a8 a9 a10 a11 a12 a13 a14 a15 a16 a17 a18 a19 a20 a21 a22 = fun _ => 1#1) :
    (Cert.Net.Args.mk a0 a1 a3 a4 a5 a6 a7 a8 a9 a10 a11 a12 a13 a14 a15 a16 a17 a18 a19 a20 a21 a22).IsReal
      ∧ ∀ i, (0 : ℤ) ≤ (a2 i).toInt ∧ (a2 i).toInt < 100000 := by
  have e := congrFun h ValueIdx.ix0
  simp only [fn, fn_part1, fn_part2, fn_part3, fn_part4, fn_part5, fn_part6, andi, IntOp.andi_eq_one] at e
  obtain ⟨⟨⟨⟨⟨⟨⟨⟨⟨⟨⟨⟨⟨⟨⟨⟨⟨⟨⟨⟨⟨⟨⟨f0, f1⟩, f3⟩, f4⟩, f5⟩, f6⟩, f7⟩, f8⟩, f9⟩, f10⟩, f11⟩, f12⟩, f13⟩, f14⟩, f15⟩, f16⟩, f17⟩, f18⟩, f19⟩, f20⟩, f21⟩, f22⟩, g0⟩, g1⟩ := e
  exact ⟨⟨finite_of_all _ _ _ a0 _ f0, finite_of_all _ _ _ a1 _ f1, finite_of_all _ _ _ a3 _ f3, finite_of_all _ _ _ a4 _ f4, finite_of_all _ _ _ a5 _ f5, finite_of_all _ _ _ a6 _ f6, finite_of_all _ _ _ a7 _ f7, finite_of_all _ _ _ a8 _ f8, finite_of_all _ _ _ a9 _ f9, finite_of_all _ _ _ a10 _ f10, finite_of_all _ _ _ a11 _ f11, finite_of_all _ _ _ a12 _ f12, finite_of_all _ _ _ a13 _ f13, finite_of_all _ _ _ a14 _ f14, finite_of_all _ _ _ a15 _ f15, finite_of_all _ _ _ a16 _ f16, finite_of_all _ _ _ a17 _ f17, finite_of_all _ _ _ a18 _ f18, finite_of_all _ _ _ a19 _ f19, finite_of_all _ _ _ a20 _ f20, finite_of_all _ _ _ a21 _ f21, finite_of_all _ _ _ a22 _ f22⟩,
    range_of_all _ _ _ a2 _ _ g0 g1⟩

end Cert.PreDecode

end
-- ==== Proof.KArgs.lean ====
import proofs.«401100_j23158463660136_1_alg».proof.Proof.Gen.KernelIdeal
import proofs.«401100_j23158463660136_1_alg».proof.Proof.Net

noncomputable section

namespace Cert.KernelIdeal.KArgs

open Idealize.ShloMosaic Idealize.ShloMosaic.TcCoe Idealize.SL.Sem Cert.KernelIdeal

variable (m : (ℓ : Loc nD τ sig) → Buf (Elt Ideal) ℓ) (c : Dev nD)

def argsOf : Cert.Net.Args where
  pos := m ((c.tc : Thread nD τ).loc main_arg0)
  vel := m ((c.tc : Thread nD τ).loc main_arg1)
  W_in := m ((c.tc : Thread nD τ).loc main_arg3)
  b_in := m ((c.tc : Thread nD τ).loc main_arg4)
  mW1 := m ((c.tc : Thread nD τ).loc main_arg5)
  mb1 := m ((c.tc : Thread nD τ).loc main_arg6)
  mg1 := m ((c.tc : Thread nD τ).loc main_arg7)
  mB1 := m ((c.tc : Thread nD τ).loc main_arg8)
  mW2 := m ((c.tc : Thread nD τ).loc main_arg9)
  mb2 := m ((c.tc : Thread nD τ).loc main_arg10)
  mg2 := m ((c.tc : Thread nD τ).loc main_arg11)
  mB2 := m ((c.tc : Thread nD τ).loc main_arg12)
  uW1 := m ((c.tc : Thread nD τ).loc main_arg13)
  ub1 := m ((c.tc : Thread nD τ).loc main_arg14)
  ug1 := m ((c.tc : Thread nD τ).loc main_arg15)
  uB1 := m ((c.tc : Thread nD τ).loc main_arg16)
  uW2 := m ((c.tc : Thread nD τ).loc main_arg17)
  ub2 := m ((c.tc : Thread nD τ).loc main_arg18)
  ug2 := m ((c.tc : Thread nD τ).loc main_arg19)
  uB2 := m ((c.tc : Thread nD τ).loc main_arg20)
  W_pred := m ((c.tc : Thread nD τ).loc main_arg21)
  b_pred := m ((c.tc : Thread nD τ).loc main_arg22)

def edges : IVec S2x1600000 32 := m ((c.tc : Thread nD τ).loc main_arg2)

end Cert.KernelIdeal.KArgs

end
-- ==== Proof.RArgs.lean ====
import proofs.«401100_j23158463660136_1_alg».proof.Proof.Gen.ReferenceIdeal
import proofs.«401100_j23158463660136_1_alg».proof.Proof.Net

noncomputable section

namespace Cert.ReferenceIdeal.RArgs

open Idealize.ShloMosaic Idealize.ShloMosaic.TcCoe Idealize.SL.Sem Cert.ReferenceIdeal

variable (m : (ℓ : Loc nD τ sig) → Buf (Elt Ideal) ℓ) (c : Dev nD)

def argsOf : Cert.Net.Args where
  pos := m ((c.tc : Thread nD τ).loc main_arg0)
  vel := m ((c.tc : Thread nD τ).loc main_arg1)
  W_in := m ((c.tc : Thread nD τ).loc main_arg3)
  b_in := m ((c.tc : Thread nD τ).loc main_arg4)
  mW1 := m ((c.tc : Thread nD τ).loc main_arg5)
  mb1 := m ((c.tc : Thread nD τ).loc main_arg6)
  mg1 := m ((c.tc : Thread nD τ).loc main_arg7)
  mB1 := m ((c.tc : Thread nD τ).loc main_arg8)
  mW2 := m ((c.tc : Thread nD τ).loc main_arg9)
  mb2 := m ((c.tc : Thread nD τ).loc main_arg10)
  mg2 := m ((c.tc : Thread nD τ).loc main_arg11)
  mB2 := m ((c.tc : Thread nD τ).loc main_arg12)
  uW1 := m ((c.tc : Thread nD τ).loc main_arg13)
  ub1 := m ((c.tc : Thread nD τ).loc main_arg14)
  ug1 := m ((c.tc : Thread nD τ).loc main_arg15)
  uB1 := m ((c.tc : Thread nD τ).loc main_arg16)
  uW2 := m ((c.tc : Thread nD τ).loc main_arg17)
  ub2 := m ((c.tc : Thread nD τ).loc main_arg18)
  ug2 := m ((c.tc : Thread nD τ).loc main_arg19)
  uB2 := m ((c.tc : Thread nD τ).loc main_arg20)
  W_pred := m ((c.tc : Thread nD τ).loc main_arg21)
  b_pred := m ((c.tc : Thread nD τ).loc main_arg22)

def edges : IVec S2x1600000 32 := m ((c.tc : Thread nD τ).loc main_arg2)

end Cert.ReferenceIdeal.RArgs

end
-- ==== Proof.Assemble.lean ====
import proofs.«401100_j23158463660136_1_alg».proof.Defs
import proofs.«401100_j23158463660136_1_alg».proof.Proof.RunNamed
import proofs.«401100_j23158463660136_1_alg».proof.Proof.RefRun
import proofs.«401100_j23158463660136_1_alg».proof.Proof.NetMath
import proofs.«401100_j23158463660136_1_alg».proof.Proof.PreDecode
import proofs.«401100_j23158463660136_1_alg».proof.Proof.KArgs
import proofs.«401100_j23158463660136_1_alg».proof.Proof.RArgs

noncomputable section

namespace Cert.Assemble

open Idealize.ShloMosaic Idealize.ShloMosaic.TcCoe Idealize.SL.Sem Cert.Spec Cert.Net

def InRange {s : Shape} (x : IVec s 32) : Prop := ∀ i, (0 : ℤ) ≤ (x i).toInt ∧ (x i).toInt < 100000

section

variable [Cert.Pre_finite_inputs.Facts]

theorem pre_facts (m : (ℓ : Loc Cert.KernelIdeal.nD Cert.KernelIdeal.τ Cert.KernelIdeal.sig) → Buf (Elt Ideal) ℓ)
    (hpre : Cert.Pre_KernelIdeal m) (c : Dev Cert.KernelIdeal.nD) :
    (Cert.KernelIdeal.KArgs.argsOf m c).IsReal ∧ InRange (Cert.KernelIdeal.KArgs.edges m c) :=
  Cert.PreDecode.decode _ _ _ _ _ _ _ _ _ _ _ _ _ _ _ _ _ _ _ _ _ _ _ (hpre c)

end

section Main

open Cert.KernelIdeal.Gen (W11 W18)

-- Each program's result is the network at its own variance formula; on real arrays the two formulas agree.
theorem algebraic_of
    (dw : IVec Cert.KernelIdeal.S2x1600000 32 → IVec Cert.KernelIdeal.S1600000 32)
    (gD gS : IVec Cert.KernelIdeal.S2x1600000 32 → Mat 100000 64 → Mat 1600000 64)
    (seg : IVec Cert.KernelIdeal.S1600000 32 → Mat 1600000 64 → Mat 100000 64)
    (argsAt : Valuation Cert.ReferenceIdeal.τ Cert.ReferenceIdeal.sig (Elt Ideal) → Args)
    (hgD : ∀ ei x, IsReal x → IsReal (gD ei x)) (hgS : ∀ ei x, IsReal x → IsReal (gS ei x))
    (hseg : ∀ d x, IsReal x → IsReal (seg d x))

    (hKh : ∀ m ρ c, W11 (F := Ideal) m ρ c (Proc.devRef .tc Cert.KernelIdeal.main_v2) = Net.h (Cert.KernelIdeal.KArgs.argsOf m c))
    (hKd : ∀ m ρ c, W11 (F := Ideal) m ρ c (Proc.devRef .tc Cert.KernelIdeal.main_v6) = dw (Cert.KernelIdeal.KArgs.edges m c))
    (hKm : ∀ m ρ c, InRange (Cert.KernelIdeal.KArgs.edges m c) →
      W11 (F := Ideal) m ρ c (Proc.devRef .tc Cert.KernelIdeal.main_v38)
        = Net.msg cvarK (gD (Cert.KernelIdeal.KArgs.edges m c)) (gS (Cert.KernelIdeal.KArgs.edges m c)) (Cert.KernelIdeal.KArgs.argsOf m c))
    (hKn : ∀ m ρ c, W18 (F := Ideal) m ρ c (Proc.devRef .tc Cert.KernelIdeal.main_v73)
        = Net.tResult cvarK (seg (W11 (F := Ideal) m ρ c (Proc.devRef .tc Cert.KernelIdeal.main_v6))) (Cert.KernelIdeal.KArgs.argsOf m c)
            (W11 (F := Ideal) m ρ c (Proc.devRef .tc Cert.KernelIdeal.main_v2)) (W11 (F := Ideal) m ρ c (Proc.devRef .tc Cert.KernelIdeal.main_v38)))

    (hRh : ∀ m c, StableHlo.after (Cert.ReferenceIdeal.RefSplit.opsE (F := Ideal)) (StableHlo.launchContents m c) (Proc.devRef .tc Cert.ReferenceIdeal.main_v4)
        = Net.h (Cert.ReferenceIdeal.RArgs.argsOf m c))
    (hRd : ∀ m c, StableHlo.after (Cert.ReferenceIdeal.RefSplit.opsE (F := Ideal)) (StableHlo.launchContents m c) (Proc.devRef .tc Cert.ReferenceIdeal.main_v8)
        = dw (Cert.ReferenceIdeal.RArgs.edges m c))
    (hRm : ∀ m c, StableHlo.after (Cert.ReferenceIdeal.RefSplit.opsE (F := Ideal)) (StableHlo.launchContents m c) (Proc.devRef .tc Cert.ReferenceIdeal.main_v83)
        = Net.msg cvarR (gD (Cert.ReferenceIdeal.RArgs.edges m c)) (gS (Cert.ReferenceIdeal.RArgs.edges m c)) (Cert.ReferenceIdeal.RArgs.argsOf m c))
    (hRa : ∀ m c, argsAt (StableHlo.after (Cert.ReferenceIdeal.RefSplit.opsE (F := Ideal)) (StableHlo.launchContents m c)) = Cert.ReferenceIdeal.RArgs.argsOf m c)
    (hRn : ∀ W : Valuation Cert.ReferenceIdeal.τ Cert.ReferenceIdeal.sig (Elt Ideal),
      StableHlo.after (Cert.ReferenceIdeal.RefSplit.opsN (F := Ideal)) W (Proc.devRef .tc Cert.ReferenceIdeal.main_v152)
        = Net.tResult cvarR (seg (W (Proc.devRef .tc Cert.ReferenceIdeal.main_v8))) (argsAt W)
            (W (Proc.devRef .tc Cert.ReferenceIdeal.main_v4)) (W (Proc.devRef .tc Cert.ReferenceIdeal.main_v83))) :
    Cert.algebraic_KernelIdeal_ReferenceIdeal := by
  intro m ρ m' ρ' hpre hagree
  refine ⟨fun c => W18 (F := Ideal) m ρ c (Proc.devRef .tc Cert.KernelIdeal.main_v73),
    Cert.KernelIdeal.Gen.run_named (F := Ideal) m ρ, ?_⟩
  refine (θ_run (Cert.ReferenceIdeal.defs (F := Ideal)) _ _).mono (fun r h c => ⟨(h c).1.trans ?_, (h c).2⟩)
    (Cert.ReferenceIdeal.RunFold.run m' ρ')
  obtain ⟨hreal, hrange⟩ := pre_facts m hpre c

  have hA : Cert.ReferenceIdeal.RArgs.argsOf m' c = Cert.KernelIdeal.KArgs.argsOf m c := by
    obtain ⟨h0, h1, -, h3, h4, h5, h6, h7, h8, h9, h10, h11, h12, h13, h14, h15, h16, h17, h18, h19, h20, h21, h22⟩ := hagree c
    unfold Cert.ReferenceIdeal.RArgs.argsOf Cert.KernelIdeal.KArgs.argsOf
    rw [h0, h1, h3, h4, h5, h6, h7, h8, h9, h10, h11, h12, h13, h14, h15, h16, h17, h18, h19, h20, h21, h22]
  have hE : Cert.ReferenceIdeal.RArgs.edges m' c = Cert.KernelIdeal.KArgs.edges m c := (hagree c).2.2.1

  have hR : StableHlo.after (Cert.ReferenceIdeal.RunFold.ops (F := Ideal)) (StableHlo.launchContents m' c) (Proc.devRef .tc Cert.ReferenceIdeal.main_v152)
      = Net.result cvarR (gD (Cert.KernelIdeal.KArgs.edges m c)) (gS (Cert.KernelIdeal.KArgs.edges m c))
          (seg (dw (Cert.KernelIdeal.KArgs.edges m c))) (Cert.KernelIdeal.KArgs.argsOf m c) := by
    rw [Cert.ReferenceIdeal.RunFold.ops_split, StableHlo.after_append, hRn, hRa, hRd, hRh, hRm, hA, hE, ← Net.result_eq_tail]

  have hK : W18 (F := Ideal) m ρ c (Proc.devRef .tc Cert.KernelIdeal.main_v73)
      = Net.result cvarK (gD (Cert.KernelIdeal.KArgs.edges m c)) (gS (Cert.KernelIdeal.KArgs.edges m c))
          (seg (dw (Cert.KernelIdeal.KArgs.edges m c))) (Cert.KernelIdeal.KArgs.argsOf m c) := by
    rw [hKn, hKd, hKh, hKm m ρ c hrange, ← Net.result_eq_tail]
  exact hR.trans ((result_congr _ _ _ (hgD _) (hgS _) (hseg _) _ hreal).symm.trans hK.symm)

end Main

end Cert.Assemble

end
-- ==== Proof.GlueMath.lean ====
import proofs.«401100_j23158463660136_1_alg».proof.Proof.NetMath
import Idealize.ShloMosaic.PureOps.Contract
import Idealize.ShloMosaic.Lib.IdealHost

noncomputable section

namespace Cert.Net

open Idealize.ShloMosaic

theorem isReal_gather {s si t : Shape} {w : ℕ} (d : GatherDims s si t) (x : s.Idx → EReal) (idx : IVec si w)
    (hx : IsReal x) : IsReal (Host.gather d x idx) := fun j => hx _

theorem isReal_scatterAdd {s si u : Shape} {w : ℕ} (d : ScatterDims s si u) (x : FVec Ideal s .f32) (idx : IVec si w)
    (upd : FVec Ideal u .f32) (hx : IsReal x) (hu : IsReal upd) :
    IsReal (Host.scatterAdd (F := Ideal) (φ := .f32) d x idx upd) := by
  intro i
  obtain ⟨r, hr⟩ := hx i
  choose f hf using hu
  refine ⟨r + ∑ j ∈ Finset.univ.filter (fun j => d.resultIdx? j idx = some i), f j, ?_⟩
  show x i + ∑ j ∈ Finset.univ.filter (fun j => d.resultIdx? j idx = some i), upd j = _
  rw [hr, EReal.coe_add, coe_sum]
  congr 1
  exact Finset.sum_congr rfl (fun j _ => hf j)

theorem isReal_const_zero {ι : Type} : IsReal (fun _ : ι => Ideal.ofBits .f32 0x00000000#32) :=
  fun _ => ⟨0, by rw [Ideal.ofBits_zero_f32]; rfl⟩

end Cert.Net

end
-- ==== Proof.MatIdx.lean ====
import Idealize.ShloMosaic.Lib.Pipeline.Value
import Idealize.ShloMosaic.Lib.ValueIdx
import Idealize.ShloMosaic.PureOps.Ideal.Laws

namespace Cert.MatIdx

open Idealize.ShloMosaic Idealize.ShloMosaic.ValueIdx

variable {M K N : ℕ} {φ₁ φ₂ : FTy}

/-- At the plain dimension numbers the operand indices at result index `j` and inner index `k` are `(j 0, k)` and `(k, j 1)`. -/
theorem plain_sum (l : FVec Ideal ⟨2, ![M, K]⟩ φ₁) (r : FVec Ideal ⟨2, ![K, N]⟩ φ₂) (j : (⟨2, ![M, N]⟩ : Shape).Idx) :
    ∑ k : (DotDims.plain M K N).contr.Idx, l ((DotDims.plain M K N).lhsIdx j k) * r ((DotDims.plain M K N).rhsIdx j k)
      = ∑ k : Fin K, l (ix2 (j 0) k) * r (ix2 k (j 1)) := by
  rw [← Equiv.sum_comp (contrEquiv1 (DotDims.plain M K N) K rfl rfl).symm]
  refine Finset.sum_congr rfl fun k _ => ?_
  congr 2 <;> funext a <;> match a with | ⟨0, _⟩ => rfl | ⟨1, _⟩ => rfl

theorem matmul_plain_apply (d : DotDims ⟨2, ![M, K]⟩ ⟨2, ![K, N]⟩ ⟨2, ![M, N]⟩) (h : d = DotDims.plain M K N)
    (l : FVec Ideal ⟨2, ![M, K]⟩ φ₁) (r : FVec Ideal ⟨2, ![K, N]⟩ φ₂) (p : Fin M) (q : Fin N) :
    matmul (F := Ideal) d none l r (constant (F := Ideal) ⟨2, ![M, N]⟩ .f32 0x00000000#32) (ix2 p q)
      = ∑ k : Fin K, l (ix2 p k) * r (ix2 k q) := by
  subst h
  exact (Ideal.matmul_constant_zero_apply _ _ l r _).trans (plain_sum l r (ix2 p q))

theorem dotGeneral_plain_apply (d : DotDims ⟨2, ![M, K]⟩ ⟨2, ![K, N]⟩ ⟨2, ![M, N]⟩) (h : d = DotDims.plain M K N)
    (l : FVec Ideal ⟨2, ![M, K]⟩ φ₁) (r : FVec Ideal ⟨2, ![K, N]⟩ φ₂) (j : (⟨2, ![M, N]⟩ : Shape).Idx) :
    Host.dotGeneral (F := Ideal) d none l r j = ∑ k : Fin K, l (ix2 (j 0) k) * r (ix2 k (j 1)) := by
  subst h
  exact (Ideal.dotGeneral_apply _ _ _ l r j).trans (plain_sum l r j)

/-- A one-row array spread down the rows reads, at row `p` and column `q`, its entry of column `q`. -/
theorem bcRow_apply {α : Type} (h : (⟨2, ![1, N]⟩ : Shape).Broadcasts ⟨2, ![M, N]⟩) (y : (⟨2, ![1, N]⟩ : Shape).Idx → α)
    (p : Fin M) (q : Fin N) : broadcastTo ⟨2, ![M, N]⟩ y h (ix2 p q) = y (ix2 0 q) :=
  broadcastTo_apply y h (ix2 p q) (ix2 0 q) fun a => match a with
    | ⟨0, _⟩ => (if_pos rfl).symm
    | ⟨1, _⟩ => by show q.val = if N = 1 then 0 else q.val; split <;> omega

end Cert.MatIdx
-- ==== Proof.KBlocks.lean ====
import proofs.«401100_j23158463660136_1_alg».proof.Proof.Gen.KernelIdeal
import proofs.«401100_j23158463660136_1_alg».proof.Proof.Spec
import proofs.«401100_j23158463660136_1_alg».proof.Proof.MatIdx
import Idealize.ShloMosaic.Lib.Pipeline.Value
import Idealize.ShloMosaic.Lib.ValueLayout
import Idealize.ShloMosaic.PureOps.Ideal.Laws

noncomputable section

namespace Cert.KBlocks

open Idealize.ShloMosaic Idealize.ShloMosaic.TcCoe Idealize.SL.Sem Cert.KernelIdeal Cert.KernelIdeal.Gen Cert.Spec
open Idealize.ShloMosaic.ValueIdx

theorem hz : (![0, 0] : Fin 2 → Nat) = fun _ => 0 := funext fun a => by fin_cases a <;> rfl

theorem row_idx {C : ℕ} (j : (⟨2, ![1, C]⟩ : Shape).Idx) : j = ix2 0 (j 1) :=
  Shape.idx_ext₂ (Nat.lt_one_iff.mp (j 0).isLt) rfl

def En {R C : ℕ} (G : Mat R C) (r : ℕ) (q : Fin C) : EReal := if h : r < R then G (ix2 ⟨r, h⟩ q) else 0

theorem En_lt {R C : ℕ} (G : Mat R C) {r : ℕ} (h : r < R) (q : Fin C) : En G r q = G (ix2 ⟨r, h⟩ q) := dif_pos h

theorem sum_all {R C : ℕ} (G : Mat R C) (q : Fin C) : ∑ r ∈ Finset.range R, En G r q = ∑ r : Fin R, G (ix2 r q) := by
  rw [Finset.sum_range]
  exact Finset.sum_congr rfl fun r _ => En_lt G r.isLt q

theorem blocksum {R C B : ℕ} (G : Mat R C) (y : (⟨2, ![B, C]⟩ : Shape).Idx → EReal) (T : ℕ) (hT : B * T + B ≤ R) (q : Fin C)
    (hy : ∀ r : Fin B, y (ix2 r q) = G (ix2 ⟨B * T + r, by omega⟩ q)) :
    ∑ r : Fin B, y (ix2 r q) = ∑ r ∈ Finset.range B, En G (B * T + r) q := by
  rw [Finset.sum_range]
  exact Finset.sum_congr rfl fun r _ => (hy r).trans (En_lt G _ q).symm

/-- A running total that starts at the first block's sum and gains the next block's at each step is the sum over all blocks so far. -/
theorem acc_range {N : ℕ} (B : ℕ) (M : ℕ → EReal) (f : (n : ℕ) → n < N → EReal)
    (h0 : ∀ h, f 0 h = 0 + ∑ r ∈ Finset.range B, M (B * 0 + r))
    (hs : ∀ n h, f (n + 1) h = f n (Nat.lt_of_succ_lt h) + ∑ r ∈ Finset.range B, M (B * (n + 1) + r)) :
    ∀ n h, f n h = ∑ r ∈ Finset.range (B * (n + 1)), M r
  | 0, h => by rw [h0, zero_add, Nat.mul_zero, Nat.mul_one]; simp only [Nat.zero_add]
  | n + 1, h => by rw [hs, acc_range B M f h0 hs n, Nat.mul_succ B (n + 1), Finset.sum_range_add]

section Blocks
variable {F : FTy → Type} [FloatOps F]

def zrow : Vec F S1x64 .f32 := broadcast S1x64 (Scalar.ofBits .f32 0x00000000#32)

def accum (y : FVec F S20000x64 .f32) (acc : Vec F S1x64 .f32) : FVec F S1x64 .f32 :=
  addf (shapeCast S1x64 acc shapeCasts_S1x64_S1x64)
    (shapeCast S1x64 (multiReduction .add [0] S64 y 0x00000000#32 reduces_S20000x64_S64 (.inl rfl) rfl) shapeCasts_S64_S1x64)

variable {K : ℕ} (D : DotDims ⟨2, ![20000, K]⟩ ⟨2, ![K, 64]⟩ S20000x64) (hc : (⟨2, ![20000, K]⟩ : Shape).ShapeCasts ⟨2, ![20000, K]⟩)

def linBlk (x0 : Vec F ⟨2, ![20000, K]⟩ .f32) (x1 : Vec F ⟨2, ![K, 64]⟩ .f32) (x2 : Vec F S1x64 .f32) : FVec F S20000x64 .f32 :=
  addf (matmul D none (shapeCast _ x0 hc) x1 (constant S20000x64 .f32 0x00000000#32))
    (broadcastTo S20000x64 (shapeCast S1x64 x2 shapeCasts_S1x64_S1x64) broadcasts_S1x64_S20000x64)

def step (x0 : Vec F ⟨2, ![20000, K]⟩ .f32) (x1 : Vec F ⟨2, ![K, 64]⟩ .f32) (x2 : Vec F S1x64 .f32) (a : Vec F S1x64 .f32 × Vec F S1x64 .f32) :
    Vec F S20000x64 .f32 × Vec F S1x64 .f32 × Vec F S1x64 .f32 :=
  (linBlk D hc x0 x1 x2, accum (linBlk D hc x0 x1 x2) a.1, accum (mulf (linBlk D hc x0 x1 x2) (linBlk D hc x0 x1 x2)) a.2)

end Blocks

theorem accum_apply (y : FVec Ideal S20000x64 .f32) (acc : Vec Ideal S1x64 .f32) (q : Fin 64) :
    accum y acc (ix2 0 q) = acc (ix2 0 q) + ∑ r : Fin 20000, y (ix2 r q) := by
  unfold accum
  rw [addf_apply, shapeCast_self, shapeCast_a_1a_apply]
  exact congrArg _ ((Ideal.multiReduction_add_single y _ reduces_S20000x64_S64 _ _ _).trans
    (Finset.sum_congr rfl fun r _ => congrArg y (Shape.idx_ext₂ rfl rfl)))

/-- A row vector that starts at zero and gains at each of the N points the column sums of that point's block of 20000 rows of G ends as the column sums of G. -/
theorem acc_rows {N R : ℕ} (hR : 20000 * N = R) (G : Mat R 64) (y : (n : ℕ) → n < N → FVec Ideal S20000x64 .f32) (a : (n : ℕ) → n < N → Vec Ideal S1x64 .f32)
    (hy : ∀ n (h : n < N) (r : Fin 20000) (q : Fin 64), y n h (ix2 r q) = G (ix2 ⟨20000 * n + r, by omega⟩ q))
    (ha0 : ∀ h, a 0 h = accum (y 0 h) zrow) (has : ∀ n h, a (n + 1) h = accum (y (n + 1) h) (a n (Nat.lt_of_succ_lt h)))
    (n : ℕ) (h : n < N) (hn : n + 1 = N) (q : Fin 64) : a n h (ix2 0 q) = ∑ r : Fin R, G (ix2 r q) := by
  have e := acc_range 20000 (fun r => En G r q) (fun n h => a n h (ix2 0 q))
    (fun h => by rw [ha0, accum_apply, blocksum G _ 0 (by omega) _ fun r => hy 0 h r _]; exact congrArg (· + _) Ideal.ofBits_zero_f32)
    (fun n h => by rw [has, accum_apply, blocksum G _ (n + 1) (by omega) _ fun r => hy (n + 1) h r _]) n h
  rwa [hn, hR, sum_all] at e

section Run
variable {K N R : ℕ} {D : DotDims ⟨2, ![20000, K]⟩ ⟨2, ![K, 64]⟩ S20000x64} {hc : (⟨2, ![20000, K]⟩ : Shape).ShapeCasts ⟨2, ![20000, K]⟩}
  (hD : D = DotDims.plain 20000 K 64)
  {A0 : Mat R K} {A1 : Mat K 64} {A2 : Mat 1 64}

include hD in
/-- The layer's block of 20000 rows of the first array from row 20000·T on, and the whole of the other two, is those rows of the layer of the arrays. -/
theorem linBlk_eq {x0 : Vec Ideal ⟨2, ![20000, K]⟩ .f32} {x1 : Vec Ideal ⟨2, ![K, 64]⟩ .f32} {x2 : Vec Ideal S1x64 .f32} (T : ℕ) (hT : 20000 * T + 20000 ≤ R)
    (h0 : ∀ (p : Fin 20000) (k : Fin K), x0 (ix2 p k) = A0 (ix2 ⟨20000 * T + p, by omega⟩ k))
    (h1 : ∀ (k : Fin K) (q : Fin 64), x1 (ix2 k q) = A1 (ix2 k q)) (h2 : ∀ q : Fin 64, x2 (ix2 0 q) = A2 (ix2 0 q))
    (p : Fin 20000) (q : Fin 64) :
    linBlk D hc x0 x1 x2 (ix2 p q) = lin A0 A1 A2 (ix2 ⟨20000 * T + p, by omega⟩ q) := by
  unfold linBlk lin
  rw [addf_apply, MatIdx.matmul_plain_apply D hD, shapeCast_self, broadcastTo_1b_ab_apply, shapeCast_self, h2]
  exact congrArg (· + _) (Finset.sum_congr rfl fun k _ => congrArg₂ (· * ·) (h0 p k) (h1 k q))

variable {x0 : (n : ℕ) → n < N → Vec Ideal ⟨2, ![20000, K]⟩ .f32} {x1 : (n : ℕ) → n < N → Vec Ideal ⟨2, ![K, 64]⟩ .f32}
  {x2 : (n : ℕ) → n < N → Vec Ideal S1x64 .f32} (hR : 20000 * N = R)
  (h0 : ∀ n (h : n < N) (p : Fin 20000) (k : Fin K), x0 n h (ix2 p k) = A0 (ix2 ⟨20000 * n + p, by omega⟩ k))
  (h1 : ∀ n (h : n < N) (k : Fin K) (q : Fin 64), x1 n h (ix2 k q) = A1 (ix2 k q))
  (h2 : ∀ n (h : n < N) (q : Fin 64), x2 n h (ix2 0 q) = A2 (ix2 0 q))
  {f : (n : ℕ) → n < N → Vec Ideal S20000x64 .f32 × Vec Ideal S1x64 .f32 × Vec Ideal S1x64 .f32}
  (hf0 : ∀ h, f 0 h = step D hc (x0 0 h) (x1 0 h) (x2 0 h) (zrow, zrow))
  (hfs : ∀ n h, f (n + 1) h = step D hc (x0 (n + 1) h) (x1 (n + 1) h) (x2 (n + 1) h) (f n (Nat.lt_of_succ_lt h)).2)

include hD hR h0 h1 h2 hf0 hfs

/-- At every point the first component is that point's rows of the layer of the arrays; at the last point the other two are its column sums and its column sums of squares. -/
theorem run (n : ℕ) (h : n < N) :
    (∀ (p : Fin 20000) (q : Fin 64), (f n h).1 (ix2 p q) = lin A0 A1 A2 (ix2 ⟨20000 * n + p, by omega⟩ q))
    ∧ (n + 1 = N → ∀ j : S1x64.Idx, (f n h).2.1 j = csum (lin A0 A1 A2) j ∧ (f n h).2.2 j = csumsq (lin A0 A1 A2) j) := by
  have hy := fun n (h : n < N) r q => linBlk_eq (hc := hc) hD n (by omega) (h0 n h) (h1 n h) (h2 n h) r q
  refine ⟨fun p q => ?_, fun hn j => ?_⟩
  · have e : (f n h).1 = linBlk D hc (x0 n h) (x1 n h) (x2 n h) := by
      cases n with
      | zero => rw [hf0]; rfl
      | succ n => rw [hfs]; rfl
    rw [e]
    exact hy n h p q
  · rw [row_idx j]
    exact ⟨acc_rows hR (lin A0 A1 A2) (fun n h => linBlk D hc (x0 n h) (x1 n h) (x2 n h)) (fun n h => (f n h).2.1) hy
        (fun h => by rw [hf0]; rfl) (fun n h => by rw [hfs]; rfl) n h hn (j 1),
      acc_rows hR (fun i => lin A0 A1 A2 i * lin A0 A1 A2 i)
        (fun n h => mulf (linBlk D hc (x0 n h) (x1 n h) (x2 n h)) (linBlk D hc (x0 n h) (x1 n h) (x2 n h))) (fun n h => (f n h).2.2)
        (fun n h r q => congrArg (fun z => z * z) (hy n h r q)) (fun h => by rw [hf0]; rfl) (fun n h => by rw [hfs]; rfl) n h hn (j 1)⟩

end Run

end Cert.KBlocks

end
-- ==== Proof.Reg0.lean ====
import proofs.«401100_j23158463660136_1_alg».proof.Proof.Gen.KernelIdeal.Frame
import proofs.«401100_j23158463660136_1_alg».proof.Proof.KBlocks

noncomputable section

namespace Cert.KernelIdeal.Reg0

open Idealize.ShloMosaic Idealize.ShloMosaic.TcCoe Idealize.SL.Sem Cert.KernelIdeal Cert.KernelIdeal.Gen Cert.Spec Cert.KBlocks
open Idealize.ShloMosaic.ValueIdx

variable (V : (c : Dev nD) → (b : Ref sig .tc) → Buf (Elt Ideal) ((c : Thread nD τ).loc b))

theorem t_lt (t : Fin cfg0.N) : t.val < 5 := lt_of_lt_of_eq t.isLt N_0

theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

theorem xblk_apply (c : Dev nD) (t : Fin cfg0.N) (p : Fin 20000) (k : Fin 4) :
    (iblk0 V c 0 t : Vec Ideal S20000x4 .f32) (ix2 p k)
      = (V c (Pipeline.arrRef spec0 0) : Mat 100000 4) (ix2 ⟨20000 * t.val + p, by have := t_lt t; omega⟩ k) := by
  obtain ⟨e0, e1, -⟩ := idx_facts t
  exact congrArg (V c (Pipeline.arrRef spec0 0)) (Shape.idx_ext₂ (by show win0_0.index t (0 : Fin 2) * 20000 + 1 * p.val = 20000 * t.val + p.val; omega)
    (by show win0_0.index t (1 : Fin 2) * 4 + 1 * k.val = k.val; omega))

theorem wblk_apply (c : Dev nD) (t : Fin cfg0.N) (k : Fin 4) (q : Fin 64) :
    (iblk0 V c 1 t : Vec Ideal S4x64 .f32) (ix2 k q) = (V c (Pipeline.arrRef spec0 1) : Mat 4 64) (ix2 k q) := by
  obtain ⟨-, -, e0, e1, -⟩ := idx_facts t
  exact congrArg (V c (Pipeline.arrRef spec0 1)) (Shape.idx_ext₂ (by show win0_1.index t (0 : Fin 2) * 4 + 1 * k.val = k.val; omega)
    (by show win0_1.index t (1 : Fin 2) * 64 + 1 * q.val = q.val; omega))

theorem bblk_apply (c : Dev nD) (t : Fin cfg0.N) (q : Fin 64) :
    (iblk0 V c 2 t : Vec Ideal S1x64 .f32) (ix2 0 q) = (V c (Pipeline.arrRef spec0 2) : Mat 1 64) (ix2 0 q) := by
  obtain ⟨-, -, -, -, e0, e1, -⟩ := idx_facts t
  exact congrArg (V c (Pipeline.arrRef spec0 2)) (Shape.idx_ext₂ (by show win0_2.index t (0 : Fin 2) * 1 + 1 * 0 = 0; omega)
    (by show win0_2.index t (1 : Fin 2) * 64 + 1 * q.val = q.val; omega))

theorem flushed_eq (c : Dev nD) (t : Fin cfg0.N) :
    (dat0 (F := Ideal) V c).flushed 3 t = ((cfg0.win 3).blk t).view.read (Elt Ideal) (lin (V c (Pipeline.arrRef spec0 0) : Mat 100000 4) (V c (Pipeline.arrRef spec0 1) : Mat 4 64) (V c (Pipeline.arrRef spec0 2) : Mat 1 64)) := by
  show (cfg0.win 3).cut (grid0.coords t) ((dat0 V c).after 3 t) = _
  rw [after0_3]
  unfold out0_3
  rw [View.canon_unit_zero hz]
  simp only [View.ld_unit_zero (S := S20000x4) hz, View.ld_unit_zero (S := S4x64) hz, View.ld_unit_zero (S := S1x64) hz]
  funext y
  obtain ⟨-, -, -, -, -, -, e0, e1⟩ := idx_facts t
  exact ((congrArg _ (eq_ix2 y)).trans (linBlk_eq (D := dot_S20000x4_S4x64_S20000x64_1_0_0_1_n_n) (hc := shapeCasts_S20000x4_S20000x4) rfl t.val
      (by have := t_lt t; omega) (xblk_apply V c t) (wblk_apply V c t) (bblk_apply V c t) (y 0) (y 1))).trans
    (congrArg _ (Shape.idx_ext₂ (by show 20000 * t.val + (y 0).val = win0_3.index t (0 : Fin 2) * 20000 + 1 * (y 0).val; omega)
      (by show (y 1).val = win0_3.index t (1 : Fin 2) * 64 + 1 * (y 1).val; omega)))

theorem cover (i : S100000x64.Idx) : ∃ t : Fin cfg0.N, (cfg0.win 3).flush t = true ∧ i ∈ ((cfg0.win 3).blk t).view.set := by
  have hi0 : (i 0).val < 100000 := (i 0).isLt
  have hi1 : (i 1).val < 64 := (i 1).isLt
  obtain ⟨t, ht⟩ : ∃ t : Fin cfg0.N, t.val = (i 0).val / 20000 := ⟨⟨_, by rw [show cfg0.N = 5 from N_0]; omega⟩, rfl⟩
  obtain ⟨-, -, -, -, -, -, e0, e1⟩ := idx_facts t
  refine ⟨t, flush0_3 t, ?_⟩
  show i ∈ ((View.whole main_v2).slice (win0_3.rect t)).set
  rw [View.set_slice_whole, Rect.mem_set_unit]
  exact Fin.forall_fin_two.mpr ⟨by show win0_3.index t (0 : Fin 2) * 20000 ≤ (i 0).val ∧ (i 0).val < win0_3.index t (0 : Fin 2) * 20000 + 20000; omega,
    by show win0_3.index t (1 : Fin 2) * 64 ≤ (i 1).val ∧ (i 1).val < win0_3.index t (1 : Fin 2) * 64 + 64; omega⟩

theorem arr3 (c : Dev nD) :
    ((dat0 (F := Ideal) V c).arrAt 3 cfg0.N : Mat 100000 64)
      = lin (V c (Pipeline.arrRef spec0 0) : Mat 100000 4) (V c (Pipeline.arrRef spec0 1) : Mat 4 64)
          (V c (Pipeline.arrRef spec0 2) : Mat 1 64) :=
  (dat0 (F := Ideal) V c).arrAt_eq_of_cover 3 _ (fun t _ => flushed_eq V c t) cover

end Cert.KernelIdeal.Reg0

end
-- ==== Proof.KEdge.lean ====
import proofs.«401100_j23158463660136_1_alg».proof.Proof.Gen.KernelIdeal.Frame
import proofs.«401100_j23158463660136_1_alg».proof.Proof.Reg0
import proofs.«401100_j23158463660136_1_alg».proof.Proof.Net
import proofs.«401100_j23158463660136_1_alg».proof.Proof.KArgs
import Idealize.ShloMosaic.Lib.Pipeline.Value
import Idealize.ShloMosaic.Lib.ValueIdx
import Idealize.ShloMosaic.Lib.StableHlo.Run

noncomputable section

namespace Cert.KernelIdeal.KEdge

open Idealize.ShloMosaic Idealize.ShloMosaic.TcCoe Idealize.SL.Sem Cert.KernelIdeal Cert.KernelIdeal.Gen Cert.Spec
open Idealize.ShloMosaic.ValueIdx

variable (m : (ℓ : Loc nD τ sig) → Buf (Elt Ideal) ℓ) (ρ : Dev nD → PrngReg) (c : Dev nD)

/-- The 23 argument arrays come first among the buffers; every buffer written between the regions comes after them. -/
theorem arg_ne {b y : Ref sig .tc} (hb : b.idx.val < 23) (hy : 23 ≤ y.idx.val) :
    Proc.devRef (τ := τ) .tc b ≠ Proc.devRef .tc y :=
  StableHlo.devRef_ne_of_ne fun e => by subst e; omega

macro "host_kept" : tactic => `(tactic| (
  refine StableHlo.after_of_forall_not_mem _ _ (List.forall_iff_forall_mem.mp ?_)
  simp only [hostOps0, hostOps1, hostOps1_1, hostOps1_2, hostOps1_3, hostOps2, hostOps3, hostOps4, hostOps5, hostOps6, hostOps7,
    List.Forall, StableHlo.nullary_writes, StableHlo.unary_writes, StableHlo.binary_writes, StableHlo.ternary_writes,
    StableHlo.quaternary_writes, StableHlo.reshape_writes, StableHlo.binaryIndexed_writes, Finset.mem_singleton]
  repeat' apply And.intro
  all_goals first | exact StableHlo.devRef_ne_of_ne (by decide) | exact arg_ne ‹_› (by decide)))

def dstWords (ei : IVec S2x1600000 32) : IVec S1600000 32 :=
  shapeCast S1600000 (extractStridedSlice S1x1600000 ![1, 0] ei slices_S2x1600000_S1x1600000_1_0) shapeCasts_S1x1600000_S1600000

def srcWords (ei : IVec S2x1600000 32) : IVec S1600000 32 :=
  shapeCast S1600000 (extractStridedSlice S1x1600000 ![0, 0] ei slices_S2x1600000_S1x1600000_0_0) shapeCasts_S1x1600000_S1600000

def gD (ei : IVec S2x1600000 32) : Mat 100000 64 → Mat 1600000 64 := fun x =>
  Host.gather gather_S100000x64_S1600000x1_S1600000x64_1_0_n_n_0_1_164 x
    (broadcastInDim S1600000x1 ![0] bcast_S1600000_S1600000x1_0
      (select (cmpi .slt (dstWords ei) (broadcastInDim S1600000 ![] bcast_S_S1600000 (constantI S_ 32 0#32)))
        (addi (dstWords ei) (broadcastInDim S1600000 ![] bcast_S_S1600000 (constantI S_ 32 100000#32))) (dstWords ei)))

def gS (ei : IVec S2x1600000 32) : Mat 100000 64 → Mat 1600000 64 := fun x =>
  Host.gather gather_S100000x64_S1600000x1_S1600000x64_1_0_n_n_0_1_164 x
    (broadcastInDim S1600000x1 ![0] bcast_S1600000_S1600000x1_0
      (select (cmpi .slt (srcWords ei) (broadcastInDim S1600000 ![] bcast_S_S1600000 (constantI S_ 32 0#32)))
        (addi (srcWords ei) (broadcastInDim S1600000 ![] bcast_S_S1600000 (constantI S_ 32 100000#32))) (srcWords ei)))

section
variable (b : Ref sig .tc) (hb : b.idx.val < 23 := by decide)
include hb
/-- An argument array holds what was launched at every boundary up to the first region that has it among its arrays. -/
theorem arg1 : W1 m ρ c (Proc.devRef .tc b) = m ((c.tc : Thread nD τ).loc b) := by host_kept
section
variable (h0 : ∀ w, Pipeline.arrRef spec0 w ≠ b := by decide)
include h0
theorem arg2 : W2 m ρ c (Proc.devRef .tc b) = m ((c.tc : Thread nD τ).loc b) := (W2_of_ne m ρ c b h0).trans (arg1 m ρ c b hb)
theorem arg5 : W5 m ρ c (Proc.devRef .tc b) = m ((c.tc : Thread nD τ).loc b) :=
  Eq.trans (by host_kept) (Eq.trans (by host_kept) (Eq.trans (by host_kept) (arg2 m ρ c b hb h0)))
section
variable (h1 : ∀ w, Pipeline.arrRef spec1 w ≠ b := by decide)
include h1
theorem arg7 : W7 m ρ c (Proc.devRef .tc b) = m ((c.tc : Thread nD τ).loc b) := (W7_of_ne m ρ c b h1).trans (Eq.trans (by host_kept) (arg5 m ρ c b hb h0))
section
variable (h2 : ∀ w, Pipeline.arrRef spec2 w ≠ b := by decide)
include h2
theorem arg9 : W9 m ρ c (Proc.devRef .tc b) = m ((c.tc : Thread nD τ).loc b) := (W9_of_ne m ρ c b h2).trans (Eq.trans (by host_kept) (arg7 m ρ c b hb h0 h1))
section
variable (h3 : ∀ w, Pipeline.arrRef spec3 w ≠ b := by decide)
include h3
theorem arg11 : W11 m ρ c (Proc.devRef .tc b) = m ((c.tc : Thread nD τ).loc b) := (W11_of_ne m ρ c b h3).trans (Eq.trans (by host_kept) (arg9 m ρ c b hb h0 h1 h2))
section
variable (h4 : ∀ w, Pipeline.arrRef spec4 w ≠ b := by decide)
include h4
theorem arg13 : W13 m ρ c (Proc.devRef .tc b) = m ((c.tc : Thread nD τ).loc b) := (W13_of_ne m ρ c b h4).trans (Eq.trans (by host_kept) (arg11 m ρ c b hb h0 h1 h2 h3))
section
variable (h5 : ∀ w, Pipeline.arrRef spec5 w ≠ b := by decide)
include h5
theorem arg15 : W15 m ρ c (Proc.devRef .tc b) = m ((c.tc : Thread nD τ).loc b) := (W15_of_ne m ρ c b h5).trans (Eq.trans (by host_kept) (arg13 m ρ c b hb h0 h1 h2 h3 h4))
end
end
end
end
end
end
end

theorem concat_cols_eq {R A B C : ℕ} (hC : A + B = C) (x : Mat R A) (y : Mat R B)
    (h : Shape.Concatenates [(⟨2, ![R, A]⟩ : Shape), ⟨2, ![R, B]⟩] ⟨2, ![R, C]⟩ 1) :
    concatenate (⟨2, ![R, C]⟩ : Shape) 1 [⟨⟨2, ![R, A]⟩, x⟩, ⟨⟨2, ![R, B]⟩, y⟩] h = Net.cat hC x y := by
  funext i
  unfold Net.cat
  by_cases h1 : (i 1).val < A
  · rw [dif_pos h1]
    exact concatenate_pair_apply_left (1 : Fin 2) x y h i rfl (ix2 (i 0) ⟨(i 1).val, h1⟩) fun b =>
      match b with | ⟨0, _⟩ => rfl | ⟨1, _⟩ => rfl
  · rw [dif_neg h1]
    exact concatenate_pair_apply_right (1 : Fin 2) x y h i rfl rfl (ix2 (i 0) ⟨(i 1).val - A, by have := idx2_lt1 i; omega⟩)
      (fun b hb => match b with | ⟨0, _⟩ => rfl | ⟨1, _⟩ => absurd rfl hb) (Nat.sub_add_cancel (Nat.le_of_not_lt h1))

theorem reshape_row_eq {C : ℕ} (v : Net.Vec1 C) (h : (⟨1, ![C]⟩ : Shape).ShapeCasts ⟨2, ![1, C]⟩) :
    shapeCast (⟨2, ![1, C]⟩ : Shape) v h = Net.row v := by
  funext i
  refine shapeCast_apply v h i (ix1 (i 1)) ?_
  rw [Shape.rowMajor_val_one, Shape.rowMajor_val_two]
  have := idx2_lt0 i
  show (i 1).val = (i 0).val * C + (i 1).val
  rw [show (i 0).val = 0 by omega]; omega

theorem toVec_apply {C : ℕ} (s : Mat 1 C) (h : (⟨2, ![1, C]⟩ : Shape).ShapeCasts ⟨1, ![C]⟩) (k : Fin C) :
    shapeCast (⟨1, ![C]⟩ : Shape) s h (ix1 k) = s (ix2 0 k) := by
  refine shapeCast_apply s h (ix1 k) (ix2 0 k) ?_
  rw [Shape.rowMajor_val_one, Shape.rowMajor_val_two]
  show (0 : Fin 1).val * C + k.val = k.val
  rw [Fin.val_zero]; omega

/-- A one-row matrix read as a vector, every entry divided by the constant of bits `d`. -/
abbrev divRow (d : BitVec 32) (s : Mat 1 64) : FVec Ideal S64 .f32 :=
  Host.divf (shapeCast S64 s shapeCasts_S1x64_S64) (broadcastInDim S64 ![] bcast_S_S64 (constant (F := Ideal) S_ .f32 d))

/-- Column sums depend on the column only, so the quotient row of the column sums is the column mean. -/
theorem meanRow_eq (d : BitVec 32) {R : ℕ} (y : Mat R 64) :
    shapeCast S1x64 (divRow d (csum y)) shapeCasts_S64_S1x64 = Net.cmean (Ideal.ofBits .f32 d) y := by
  funext i
  refine (congrFun (reshape_row_eq _ shapeCasts_S64_S1x64) i).trans ?_
  show Ideal.div (shapeCast S64 (csum y) shapeCasts_S1x64_S64 (ix1 (i 1))) _ = _
  rw [toVec_apply (csum y) shapeCasts_S1x64_S64 (i 1)]; rfl

theorem varRow_eq (d : BitVec 32) {R : ℕ} (y : Mat R 64) :
    shapeCast S1x64 (subf (divRow d (csumsq y)) (mulf (divRow d (csum y)) (divRow d (csum y)))) shapeCasts_S64_S1x64
      = Net.cvarK (Ideal.ofBits .f32 d) y := by
  funext i
  refine (congrFun (reshape_row_eq _ shapeCasts_S64_S1x64) i).trans ?_
  show Ideal.div (shapeCast S64 (csumsq y) shapeCasts_S1x64_S64 (ix1 (i 1))) _
      - Ideal.div (shapeCast S64 (csum y) shapeCasts_S1x64_S64 (ix1 (i 1))) _
        * Ideal.div (shapeCast S64 (csum y) shapeCasts_S1x64_S64 (ix1 (i 1))) _ = _
  rw [toVec_apply (csumsq y) shapeCasts_S1x64_S64 (i 1), toVec_apply (csum y) shapeCasts_S1x64_S64 (i 1)]; rfl

/-- Equal operands give equal layers. -/
theorem lin_congr {R K C : ℕ} {x x' : Mat R K} {w w' : Mat K C} {b b' : Mat 1 C} (hx : x = x') (hw : w = w') (hb : b = b') :
    lin x w b = lin x' w' b' := by rw [hx, hw, hb]

theorem bnrelu_congr {R C : ℕ} (y : Mat R C) {μ μ' v v' g g' β β' : Mat 1 C} (h1 : μ = μ') (h2 : v = v') (h3 : g = g') (h4 : β = β') :
    bnrelu y μ v g β = bnrelu y μ' v' g' β' := by rw [h1, h2, h3, h4]

theorem W3_v6 : W3 m ρ c (Proc.devRef .tc main_v6) = dstWords (KArgs.edges m c) := by
  show StableHlo.after hostOps1 (W2 m ρ c) (Proc.devRef .tc main_v6) = _
  after_results
  rw [arg2 m ρ c main_arg2]
  rfl

theorem W3_v4 : W3 m ρ c (Proc.devRef .tc main_v4) = srcWords (KArgs.edges m c) := by
  show StableHlo.after hostOps1 (W2 m ρ c) (Proc.devRef .tc main_v4) = _
  after_results
  rw [arg2 m ρ c main_arg2]
  rfl

/-- Region 0 leaves the linear layer of the positions beside the velocities: the node embedding. -/
theorem W2_v2 : (W2 m ρ c (Proc.devRef .tc main_v2) : Mat 100000 64) = Net.h (KArgs.argsOf m c) := by
  refine (W2_arr m ρ c 3).trans ((Reg0.arr3 (V1 m ρ) c).trans ?_)
  show lin (StableHlo.after hostOps0 (W0 m ρ c) (Proc.devRef .tc main_v0) : Mat 100000 4) (W1 m ρ c (Proc.devRef .tc main_arg3) : Mat 4 64)
    (StableHlo.after hostOps0 (W0 m ρ c) (Proc.devRef .tc main_v1) : Mat 1 64) = _
  rw [arg1 m ρ c main_arg3]
  after_results
  exact congrArg₂ (lin · (KArgs.argsOf m c).W_in ·) (concat_cols_eq (C := 4) rfl _ _ _) (reshape_row_eq (KArgs.argsOf m c).b_in _)

/-- Neither buffer is written between its own boundary and the last edge-side one. -/
theorem carry11 (b : Ref sig .tc) (hb : b = main_v2 ∨ b = main_v6) :
    W11 m ρ c (Proc.devRef .tc b) = W3 m ρ c (Proc.devRef .tc b) := by
  rcases hb with rfl | rfl <;>
  exact calc W11 m ρ c _
    _ = W10 m ρ c _ := W11_of_ne m ρ c _ (by decide)
    _ = W9 m ρ c _ := by host_kept
    _ = W8 m ρ c _ := W9_of_ne m ρ c _ (by decide)
    _ = W7 m ρ c _ := by host_kept
    _ = W6 m ρ c _ := W7_of_ne m ρ c _ (by decide)
    _ = W5 m ρ c _ := by host_kept
    _ = W4 m ρ c _ := by host_kept
    _ = W3 m ρ c _ := by host_kept

theorem h_eq : (W11 m ρ c (Proc.devRef .tc main_v2) : Mat 100000 64) = Net.h (KArgs.argsOf m c) :=
  (carry11 m ρ c _ (.inl rfl)).trans ((show W3 m ρ c _ = W2 m ρ c _ by host_kept).trans (W2_v2 m ρ c))

theorem dst_eq : W11 m ρ c (Proc.devRef .tc main_v6) = dstWords (KArgs.edges m c) :=
  (carry11 m ρ c _ (.inr rfl)).trans (W3_v6 m ρ c)

end Cert.KernelIdeal.KEdge

end
-- ==== Proof.Reg4.lean ====
import proofs.«401100_j23158463660136_1_alg».proof.Proof.Gen.KernelIdeal.Frame
import proofs.«401100_j23158463660136_1_alg».proof.Proof.KBlocks
import Idealize.ShloMosaic.Lib.Tactic

noncomputable section

namespace Cert.KernelIdeal.Reg4

open Idealize.ShloMosaic Idealize.ShloMosaic.TcCoe Idealize.ShloMosaic.Tactic Idealize.SL.Sem Cert.KernelIdeal Cert.KernelIdeal.Gen Cert.Spec Cert.KBlocks
open Idealize.ShloMosaic.ValueIdx

section Pieces
variable {F : FTy → Type} [FloatOps F] (c : Dev nD) (i : grid4.Coords) (a1 : Memref sig .tc .vmem S20000x128 .f32) (h1 : a1.IsWhole) (a2 : Memref sig .tc .vmem S128x64 .f32) (h2 : a2.IsWhole) (a3 : Memref sig .tc .vmem S1x64 .f32) (h3 : a3.IsWhole) (a4 : Memref sig .tc .vmem S20000x64 .f32) (h4 : a4.IsWhole) (a5 : Memref sig .tc .vmem S1x64 .f32) (h5 : a5.IsWhole) (a6 : Memref sig .tc .vmem S1x64 .f32) (h6 : a6.IsWhole) (x0 : Vec F S20000x128 .f32) (x1 : Vec F S128x64 .f32) (x2 : Vec F S1x64 .f32)

theorem out_A (hc : cond4_0 i) :
    (out4_A_3 c i a1 h1 a2 h2 a3 h3 a4 h4 a5 h5 a6 h6 hc x0 x1 x2, out4_A_4 c i a1 h1 a2 h2 a3 h3 a4 h4 a5 h5 a6 h6 hc x0 x1 x2, out4_A_5 c i a1 h1 a2 h2 a3 h3 a4 h4 a5 h5 a6 h6 hc x0 x1 x2) = step dot_S20000x128_S128x64_S20000x64_1_0_0_1_n_n shapeCasts_S20000x128_S20000x128 x0 x1 x2 (zrow, zrow) := by
  unfold out4_A_3 out4_A_4 out4_A_5
  rw [View.read_writes_eq_canon _ _ _ fun y => cover4_A_3 (y := y) .., View.read_writes_eq_canon _ _ _ fun y => cover4_A_4 (y := y) ..,
    View.read_writes_eq_canon _ _ _ fun y => cover4_A_5 (y := y) ..]
  unfold kernelRun4_A
  dsimp only
  sl_unfold_words
  simp only [View.canon_unit_zero (S := S20000x64) hz, View.canon_cons_unit_zero (S := S1x64) hz, View.readCov_unit_zero (S := S1x64) _ hz, View.readAt_eq_ld, h1.read_unread, h2.read_unread, h3.read_unread, View.ld_unit_zero (S := S20000x128) hz, View.ld_unit_zero (S := S128x64) hz, View.ld_unit_zero (S := S1x64) hz]
  rfl

theorem out_B (hc : ¬cond4_0 i) (xo4 xo5 : Vec F S1x64 .f32) :
    (out4_B_3 c i a1 h1 a2 h2 a3 h3 a4 h4 a5 h5 a6 h6 hc x0 x1 x2 xo4 xo5, out4_B_4 c i a1 h1 a2 h2 a3 h3 a4 h4 a5 h5 a6 h6 hc x0 x1 x2 xo4 xo5, out4_B_5 c i a1 h1 a2 h2 a3 h3 a4 h4 a5 h5 a6 h6 hc x0 x1 x2 xo4 xo5) = step dot_S20000x128_S128x64_S20000x64_1_0_0_1_n_n shapeCasts_S20000x128_S20000x128 x0 x1 x2 (xo4, xo5) := by
  unfold out4_B_3 out4_B_4 out4_B_5
  rw [View.read_writes_eq_canon _ _ _ fun y => cover4_B_3 (y := y) .., View.read_writes_eq_canon _ _ _ fun y => cover4_B_4 (y := y) ..,
    View.read_writes_eq_canon _ _ _ fun y => cover4_B_5 (y := y) ..]
  unfold kernelRun4_B
  dsimp only
  sl_unfold_words
  simp only [View.canon_unit_zero (S := S20000x64) hz, View.canon_unit_zero (S := S1x64) hz, View.readAt_eq_ld, h1.read_unread, h2.read_unread, h3.read_unread, h5.read_unread, h6.read_unread, View.ld_unit_zero (S := S20000x128) hz, View.ld_unit_zero (S := S128x64) hz, View.ld_unit_zero (S := S1x64) hz]
  rfl

end Pieces

variable (V : (c : Dev nD) → (b : Ref sig .tc) → Buf (Elt Ideal) ((c : Thread nD τ).loc b))

abbrev Y (c : Dev nD) : Mat 100000 64 := lin (V c (Pipeline.arrRef spec4 0) : Mat 100000 128) (V c (Pipeline.arrRef spec4 1) : Mat 128 64) (V c (Pipeline.arrRef spec4 2) : Mat 1 64)

theorem t_lt (t : Fin cfg4.N) : t.val < 5 := lt_of_lt_of_eq t.isLt N_4

theorem idx_facts : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = t.val ∧ win4_3.index t (1 : Fin 2) = 0
    ∧ win4_4.index t (0 : Fin 2) = 0 ∧ win4_4.index t (1 : Fin 2) = 0
    ∧ win4_5.index t (0 : Fin 2) = 0 ∧ win4_5.index t (1 : Fin 2) = 0 :=
  (by decide +kernel : ∀ t : Fin grid4.N, _)

theorem xblk_apply (c : Dev nD) (t : Fin cfg4.N) (p : Fin 20000) (k : Fin 128) :
    (iblk4 V c 0 t : Vec Ideal S20000x128 .f32) (ix2 p k)
      = (V c (Pipeline.arrRef spec4 0) : Mat 100000 128) (ix2 ⟨20000 * t.val + p, by have := t_lt t; omega⟩ k) := by
  obtain ⟨e0, e1, -⟩ := idx_facts t
  exact congrArg (V c (Pipeline.arrRef spec4 0)) (Shape.idx_ext₂ (by show win4_0.index t (0 : Fin 2) * 20000 + 1 * p.val = 20000 * t.val + p.val; omega)
    (by show win4_0.index t (1 : Fin 2) * 128 + 1 * k.val = k.val; omega))

theorem wblk_apply (c : Dev nD) (t : Fin cfg4.N) (k : Fin 128) (q : Fin 64) :
    (iblk4 V c 1 t : Vec Ideal S128x64 .f32) (ix2 k q) = (V c (Pipeline.arrRef spec4 1) : Mat 128 64) (ix2 k q) := by
  obtain ⟨-, -, e0, e1, -⟩ := idx_facts t
  exact congrArg (V c (Pipeline.arrRef spec4 1)) (Shape.idx_ext₂ (by show win4_1.index t (0 : Fin 2) * 128 + 1 * k.val = k.val; omega)
    (by show win4_1.index t (1 : Fin 2) * 64 + 1 * q.val = q.val; omega))

theorem bblk_apply (c : Dev nD) (t : Fin cfg4.N) (q : Fin 64) :
    (iblk4 V c 2 t : Vec Ideal S1x64 .f32) (ix2 0 q) = (V c (Pipeline.arrRef spec4 2) : Mat 1 64) (ix2 0 q) := by
  obtain ⟨-, -, -, -, e0, e1, -⟩ := idx_facts t
  exact congrArg (V c (Pipeline.arrRef spec4 2)) (Shape.idx_ext₂ (by show win4_2.index t (0 : Fin 2) * 1 + 1 * 0 = 0; omega)
    (by show win4_2.index t (1 : Fin 2) * 64 + 1 * q.val = q.val; omega))

theorem outs0 (c : Dev nD) (h : 0 < cfg4.N) :
    outsAt4 V c 0 h = step dot_S20000x128_S128x64_S20000x64_1_0_0_1_n_n shapeCasts_S20000x128_S20000x128 (iblk4 V c 0 ⟨0, h⟩) (iblk4 V c 1 ⟨0, h⟩) (iblk4 V c 2 ⟨0, h⟩) (zrow, zrow) :=
  (outsAt4_A V c ⟨0, h⟩ rfl).trans (out_A ..)

theorem outsS (c : Dev nD) (n : ℕ) (h : n + 1 < cfg4.N) :
    outsAt4 V c (n + 1) h = step dot_S20000x128_S128x64_S20000x64_1_0_0_1_n_n shapeCasts_S20000x128_S20000x128 (iblk4 V c 0 ⟨n + 1, h⟩) (iblk4 V c 1 ⟨n + 1, h⟩) (iblk4 V c 2 ⟨n + 1, h⟩)
      (outsAt4 V c n (Nat.lt_of_succ_lt h)).2 :=
  (outsAt4_B V c ⟨n + 1, h⟩ (by have : n + 1 < 5 := t_lt ⟨n + 1, h⟩; show ¬(n + 1) % 5 = 0; omega)).trans (out_B ..)

theorem bufs (c : Dev nD) (t : Fin cfg4.N) :
    (∀ (p : Fin 20000) (q : Fin 64), (outsAt4 V c t.val t.isLt).1 (ix2 p q) = Y V c (ix2 ⟨20000 * t.val + p, by have := t_lt t; omega⟩ q))
    ∧ (t.val + 1 = cfg4.N → ∀ j : S1x64.Idx, (outsAt4 V c t.val t.isLt).2.1 j = csum (Y V c) j ∧ (outsAt4 V c t.val t.isLt).2.2 j = csumsq (Y V c) j) :=
  run rfl (congrArg (20000 * ·) N_4) (fun n h => xblk_apply V c ⟨n, h⟩) (fun n h => wblk_apply V c ⟨n, h⟩) (fun n h => bblk_apply V c ⟨n, h⟩)
    (outs0 V c) (outsS V c) t.val t.isLt

theorem flushed3_eq (c : Dev nD) (t : Fin cfg4.N) :
    (dat4 (F := Ideal) V c).flushed 3 t = ((cfg4.win 3).blk t).view.read (Elt Ideal) (Y V c) := by
  show (cfg4.win 3).cut (grid4.coords t) ((dat4 V c).after 3 t) = _
  rw [after4_3]
  funext y
  obtain ⟨-, -, -, -, -, -, e0, e1, -⟩ := idx_facts t
  exact ((congrArg _ (eq_ix2 y)).trans ((bufs V c t).1 (y 0) (y 1))).trans (congrArg (Y V c) (Shape.idx_ext₂
    (by show 20000 * t.val + (y 0).val = win4_3.index t (0 : Fin 2) * 20000 + 1 * (y 0).val; omega)
    (by show (y 1).val = win4_3.index t (1 : Fin 2) * 64 + 1 * (y 1).val; omega)))

theorem cover3 (i : S100000x64.Idx) : ∃ t : Fin cfg4.N, (cfg4.win 3).flush t = true ∧ i ∈ ((cfg4.win 3).blk t).view.set := by
  have hi0 : (i 0).val < 100000 := (i 0).isLt
  have hi1 : (i 1).val < 64 := (i 1).isLt
  obtain ⟨t, ht⟩ : ∃ t : Fin cfg4.N, t.val = (i 0).val / 20000 := ⟨⟨_, by rw [show cfg4.N = 5 from N_4]; omega⟩, rfl⟩
  obtain ⟨-, -, -, -, -, -, e0, e1, -⟩ := idx_facts t
  refine ⟨t, flush4_3 t, ?_⟩
  show i ∈ ((View.whole main_v44_0).slice (win4_3.rect t)).set
  rw [View.set_slice_whole, Rect.mem_set_unit]
  exact Fin.forall_fin_two.mpr ⟨by show win4_3.index t (0 : Fin 2) * 20000 ≤ (i 0).val ∧ (i 0).val < win4_3.index t (0 : Fin 2) * 20000 + 20000; omega,
    by show win4_3.index t (1 : Fin 2) * 64 ≤ (i 1).val ∧ (i 1).val < win4_3.index t (1 : Fin 2) * 64 + 64; omega⟩

theorem flushed4_eq (c : Dev nD) (t : Fin cfg4.N) (hf : (cfg4.win 4).flush t = true) :
    (dat4 (F := Ideal) V c).flushed 4 t = ((cfg4.win 4).blk t).view.read (Elt Ideal) (csum (Y V c)) := by
  have hl := (flush4_4 t).mp hf
  have ht := t_lt t
  suffices h : ∀ G : Mat 1 64, (∀ j, (outsAt4 V c t.val t.isLt).2.1 j = G j) →
      (dat4 (F := Ideal) V c).flushed 4 t = ((cfg4.win 4).blk t).view.read (Elt Ideal) G from
    h _ fun j => ((bufs V c t).2 (by have : cfg4.N = 5 := N_4; omega) j).1
  intro G hG
  show (cfg4.win 4).cut (grid4.coords t) ((dat4 V c).after 4 t) = _
  rw [after4_4]
  funext y
  obtain ⟨-, -, -, -, -, -, -, -, e0, e1, -⟩ := idx_facts t
  exact ((congrArg _ (eq_ix2 y)).trans (hG _)).trans (congrArg G (Shape.idx_ext₂
    (by show (y 0).val = win4_4.index t (0 : Fin 2) * 1 + 1 * (y 0).val; omega)
    (by show (y 1).val = win4_4.index t (1 : Fin 2) * 64 + 1 * (y 1).val; omega)))

theorem cover4 (i : S1x64.Idx) : ∃ t : Fin cfg4.N, (cfg4.win 4).flush t = true ∧ i ∈ ((cfg4.win 4).blk t).view.set := by
  have hi0 : (i 0).val < 1 := (i 0).isLt
  have hi1 : (i 1).val < 64 := (i 1).isLt
  obtain ⟨t, ht⟩ : ∃ t : Fin cfg4.N, t.val = 4 := ⟨⟨4, by rw [show cfg4.N = 5 from N_4]; omega⟩, rfl⟩
  obtain ⟨-, -, -, -, -, -, -, -, e0, e1, -⟩ := idx_facts t
  refine ⟨t, (flush4_4 t).mpr (by omega), ?_⟩
  show i ∈ ((View.whole main_v44_1).slice (win4_4.rect t)).set
  rw [View.set_slice_whole, Rect.mem_set_unit]
  exact Fin.forall_fin_two.mpr ⟨by show win4_4.index t (0 : Fin 2) * 1 ≤ (i 0).val ∧ (i 0).val < win4_4.index t (0 : Fin 2) * 1 + 1; omega,
    by show win4_4.index t (1 : Fin 2) * 64 ≤ (i 1).val ∧ (i 1).val < win4_4.index t (1 : Fin 2) * 64 + 64; omega⟩

theorem flushed5_eq (c : Dev nD) (t : Fin cfg4.N) (hf : (cfg4.win 5).flush t = true) :
    (dat4 (F := Ideal) V c).flushed 5 t = ((cfg4.win 5).blk t).view.read (Elt Ideal) (csumsq (Y V c)) := by
  have hl := (flush4_5 t).mp hf
  have ht := t_lt t
  suffices h : ∀ G : Mat 1 64, (∀ j, (outsAt4 V c t.val t.isLt).2.2 j = G j) →
      (dat4 (F := Ideal) V c).flushed 5 t = ((cfg4.win 5).blk t).view.read (Elt Ideal) G from
    h _ fun j => ((bufs V c t).2 (by have : cfg4.N = 5 := N_4; omega) j).2
  intro G hG
  show (cfg4.win 5).cut (grid4.coords t) ((dat4 V c).after 5 t) = _
  rw [after4_5]
  funext y
  obtain ⟨-, -, -, -, -, -, -, -, -, -, e0, e1⟩ := idx_facts t
  exact ((congrArg _ (eq_ix2 y)).trans (hG _)).trans (congrArg G (Shape.idx_ext₂
    (by show (y 0).val = win4_5.index t (0 : Fin 2) * 1 + 1 * (y 0).val; omega)
    (by show (y 1).val = win4_5.index t (1 : Fin 2) * 64 + 1 * (y 1).val; omega)))

theorem cover5 (i : S1x64.Idx) : ∃ t : Fin cfg4.N, (cfg4.win 5).flush t = true ∧ i ∈ ((cfg4.win 5).blk t).view.set := by
  have hi0 : (i 0).val < 1 := (i 0).isLt
  have hi1 : (i 1).val < 64 := (i 1).isLt
  obtain ⟨t, ht⟩ : ∃ t : Fin cfg4.N, t.val = 4 := ⟨⟨4, by rw [show cfg4.N = 5 from N_4]; omega⟩, rfl⟩
  obtain ⟨-, -, -, -, -, -, -, -, -, -, e0, e1⟩ := idx_facts t
  refine ⟨t, (flush4_5 t).mpr (by omega), ?_⟩
  show i ∈ ((View.whole main_v44_2).slice (win4_5.rect t)).set
  rw [View.set_slice_whole, Rect.mem_set_unit]
  exact Fin.forall_fin_two.mpr ⟨by show win4_5.index t (0 : Fin 2) * 1 ≤ (i 0).val ∧ (i 0).val < win4_5.index t (0 : Fin 2) * 1 + 1; omega,
    by show win4_5.index t (1 : Fin 2) * 64 ≤ (i 1).val ∧ (i 1).val < win4_5.index t (1 : Fin 2) * 64 + 64; omega⟩

theorem arr3 (c : Dev nD) :
    ((dat4 (F := Ideal) V c).arrAt 3 cfg4.N : Mat 100000 64) = lin (V c (Pipeline.arrRef spec4 0) : Mat 100000 128) (V c (Pipeline.arrRef spec4 1) : Mat 128 64) (V c (Pipeline.arrRef spec4 2) : Mat 1 64) :=
  (dat4 (F := Ideal) V c).arrAt_eq_of_cover 3 (Y V c) (fun t _ => flushed3_eq V c t) cover3

theorem arr4 (c : Dev nD) :
    ((dat4 (F := Ideal) V c).arrAt 4 cfg4.N : Mat 1 64) = csum (lin (V c (Pipeline.arrRef spec4 0) : Mat 100000 128) (V c (Pipeline.arrRef spec4 1) : Mat 128 64) (V c (Pipeline.arrRef spec4 2) : Mat 1 64)) :=
  (dat4 (F := Ideal) V c).arrAt_eq_of_cover 4 (csum (Y V c)) (flushed4_eq V c) cover4

theorem arr5 (c : Dev nD) :
    ((dat4 (F := Ideal) V c).arrAt 5 cfg4.N : Mat 1 64) = csumsq (lin (V c (Pipeline.arrRef spec4 0) : Mat 100000 128) (V c (Pipeline.arrRef spec4 1) : Mat 128 64) (V c (Pipeline.arrRef spec4 2) : Mat 1 64)) :=
  (dat4 (F := Ideal) V c).arrAt_eq_of_cover 5 (csumsq (Y V c)) (flushed5_eq V c) cover5

end Cert.KernelIdeal.Reg4

end
-- ==== Proof.KBnBlocks.lean ====
import proofs.«401100_j23158463660136_1_alg».proof.Proof.KBlocks

noncomputable section

namespace Cert.KBnBlocks

open Idealize.ShloMosaic Idealize.ShloMosaic.TcCoe Idealize.SL.Sem Cert.KernelIdeal Cert.KernelIdeal.Gen Cert.Spec Cert.MatIdx
open Idealize.ShloMosaic.ValueIdx

section Payloads
variable {F : FTy → Type} [FloatOps F]

-- A block normalised column by column, scaled, shifted and clipped at zero.
def bn (x : Vec F S20000x64 .f32) (v m g b : Vec F S1x64 .f32) : FVec F S20000x64 .f32 :=
  maximumf (addf (mulf (mulf (subf (shapeCast S20000x64 x shapeCasts_S20000x64_S20000x64) (broadcastTo S20000x64 (shapeCast S1x64 m shapeCasts_S1x64_S1x64) broadcasts_S1x64_S20000x64))
    (broadcastTo S20000x64 (rsqrt (addf (shapeCast S1x64 v shapeCasts_S1x64_S1x64) (broadcast S1x64 (Scalar.ofBits .f32 0x3727C5AC#32)))) broadcasts_S1x64_S20000x64))
    (broadcastTo S20000x64 (shapeCast S1x64 g shapeCasts_S1x64_S1x64) broadcasts_S1x64_S20000x64)) (broadcastTo S20000x64 (shapeCast S1x64 b shapeCasts_S1x64_S1x64) broadcasts_S1x64_S20000x64))
    (broadcast S20000x64 (Scalar.ofBits .f32 0x00000000#32))

-- A block times a square weight matrix plus a bias row.
def lin64 (a : FVec F S20000x64 .f32) (w : Vec F S64x64 .f32) (c : Vec F S1x64 .f32) : FVec F S20000x64 .f32 :=
  addf (matmul dot_S20000x64_S64x64_S20000x64_1_0_0_1_n_n none a w (constant S20000x64 .f32 0x00000000#32)) (broadcastTo S20000x64 (shapeCast S1x64 c shapeCasts_S1x64_S1x64) broadcasts_S1x64_S20000x64)

-- A block times a weight column plus a bias entry.
def lin1 (a : FVec F S20000x64 .f32) (w : Vec F S64x1 .f32) (c : Vec F S1x1 .f32) : FVec F S20000x1 .f32 :=
  addf (matmul dot_S20000x64_S64x1_S20000x1_1_0_0_1_n_n none a w (constant S20000x1 .f32 0x00000000#32)) (broadcastTo S20000x1 (shapeCast S1x1 c shapeCasts_S1x1_S1x1) broadcasts_S1x1_S20000x1)

end Payloads

theorem ext2 {α : Type} {n0 n1 : ℕ} {f g : (⟨2, ![n0, n1]⟩ : Shape).Idx → α} (h : ∀ r q, f (ix2 r q) = g (ix2 r q)) : f = g :=
  funext fun i => by rw [eq_ix2 i]; exact h _ _

theorem bn_eq (x : Vec Ideal S20000x64 .f32) (v m g b : Vec Ideal S1x64 .f32) :
    bn x v m g b = bnrelu (x : Mat 20000 64) (m : Mat 1 64) (v : Mat 1 64) (g : Mat 1 64) (b : Mat 1 64) := by
  refine ext2 fun r q => ?_
  unfold bn
  simp only [shapeCast_self]
  rw [maximumf_apply, addf_apply, mulf_apply, mulf_apply, subf_apply, bcRow_apply, bcRow_apply, bcRow_apply, bcRow_apply]
  exact congrArg (max _) Ideal.ofBits_zero_f32

theorem lin64_bn (x : Vec Ideal S20000x64 .f32) (v m g b : Vec Ideal S1x64 .f32) (w : Vec Ideal S64x64 .f32) (c : Vec Ideal S1x64 .f32) :
    lin64 (bn x v m g b) w c = lin (bnrelu (x : Mat 20000 64) (m : Mat 1 64) (v : Mat 1 64) (g : Mat 1 64) (b : Mat 1 64)) (w : Mat 64 64) (c : Mat 1 64) := by
  rw [← bn_eq]
  refine ext2 fun r q => ?_
  unfold lin64
  rw [addf_apply, matmul_plain_apply dot_S20000x64_S64x64_S20000x64_1_0_0_1_n_n rfl, shapeCast_self, bcRow_apply]
  rfl

theorem lin1_bn (x : Vec Ideal S20000x64 .f32) (v m g b : Vec Ideal S1x64 .f32) (w : Vec Ideal S64x1 .f32) (c : Vec Ideal S1x1 .f32) :
    lin1 (bn x v m g b) w c = lin (bnrelu (x : Mat 20000 64) (m : Mat 1 64) (v : Mat 1 64) (g : Mat 1 64) (b : Mat 1 64)) (w : Mat 64 1) (c : Mat 1 1) := by
  rw [← bn_eq]
  refine ext2 fun r q => ?_
  unfold lin1
  rw [addf_apply, matmul_plain_apply dot_S20000x64_S64x1_S20000x1_1_0_0_1_n_n rfl, shapeCast_self, bcRow_apply]
  rfl

-- The value at an index depends on the entry there and on the index's column only.
theorem bnrelu_congr {R R' C : ℕ} {A : Mat R C} {A' : Mat R' C} {m v g b m' v' g' b' : Mat 1 C} {i : (⟨2, ![R, C]⟩ : Shape).Idx} {j : (⟨2, ![R', C]⟩ : Shape).Idx}
    (hA : A i = A' j) (h1 : (i 1).val = (j 1).val) (hm : m = m') (hv : v = v') (hg : g = g') (hb : b = b') :
    bnrelu A m v g b i = bnrelu A' m' v' g' b' j := by
  subst hm hv hg hb
  have e : i 1 = j 1 := Fin.ext h1
  unfold bnrelu
  rw [hA, e]

-- The value at an index depends on the index's row of the input and on the index's column only.
theorem lin_bnrelu_congr {R R' K C : ℕ} {A : Mat R K} {A' : Mat R' K} {m v g b m' v' g' b' : Mat 1 K} {W W' : Mat K C} {c c' : Mat 1 C}
    {i : (⟨2, ![R, C]⟩ : Shape).Idx} {j : (⟨2, ![R', C]⟩ : Shape).Idx}
    (hA : ∀ k, A (ix2 (i 0) k) = A' (ix2 (j 0) k)) (h1 : (i 1).val = (j 1).val)
    (hm : m = m') (hv : v = v') (hg : g = g') (hb : b = b') (hW : W = W') (hc : c = c') :
    lin (bnrelu A m v g b) W c i = lin (bnrelu A' m' v' g' b') W' c' j := by
  subst hW hc
  have e : i 1 = j 1 := Fin.ext h1
  unfold lin
  rw [e]
  exact congrArg (· + _) (Finset.sum_congr rfl fun k _ => congrArg (· * _) (bnrelu_congr (hA k) rfl hm hv hg hb))

-- Column sums at an index depend on the index's column only.
theorem csum_congr {R C : ℕ} (G : Mat R C) {i j : (⟨2, ![1, C]⟩ : Shape).Idx} (h : (i 1).val = (j 1).val) : csum G i = csum G j := by
  unfold csum; rw [Fin.ext h]

theorem csumsq_congr {R C : ℕ} (G : Mat R C) {i j : (⟨2, ![1, C]⟩ : Shape).Idx} (h : (i 1).val = (j 1).val) : csumsq G i = csumsq G j := by
  unfold csumsq; rw [Fin.ext h]

end Cert.KBnBlocks

end
-- ==== Proof.Reg5.lean ====
import proofs.«401100_j23158463660136_1_alg».proof.Proof.Gen.KernelIdeal.Frame
import proofs.«401100_j23158463660136_1_alg».proof.Proof.KBnBlocks
import Idealize.ShloMosaic.Lib.Tactic

noncomputable section

namespace Cert.KernelIdeal.Reg5

open Idealize.ShloMosaic Idealize.ShloMosaic.TcCoe Idealize.SL.Sem Cert.KernelIdeal Cert.KernelIdeal.Gen Cert.Spec Cert.KBlocks Cert.KBnBlocks
open Idealize.ShloMosaic.ValueIdx

section Pieces
variable {F : FTy → Type} [FloatOps F] {c : Dev nD} {i : grid5.Coords} {a1 : Memref sig .tc .vmem S20000x64 .f32} {h1 : a1.IsWhole} {a2 : Memref sig .tc .vmem S1x64 .f32} {h2 : a2.IsWhole} {a3 : Memref sig .tc .vmem S1x64 .f32} {h3 : a3.IsWhole} {a4 : Memref sig .tc .vmem S1x64 .f32} {h4 : a4.IsWhole} {a5 : Memref sig .tc .vmem S1x64 .f32} {h5 : a5.IsWhole} {a6 : Memref sig .tc .vmem S64x64 .f32} {h6 : a6.IsWhole} {a7 : Memref sig .tc .vmem S1x64 .f32} {h7 : a7.IsWhole} {a8 : Memref sig .tc .vmem S20000x64 .f32} {h8 : a8.IsWhole} {a9 : Memref sig .tc .vmem S1x64 .f32} {h9 : a9.IsWhole} {a10 : Memref sig .tc .vmem S1x64 .f32} {h10 : a10.IsWhole} {hA : cond5_0 i} {hB : ¬cond5_0 i}
  {x0 : Vec F S20000x64 .f32} {x1 x2 x3 x4 : Vec F S1x64 .f32} {x5 : Vec F S64x64 .f32} {x6 xo8 xo9 : Vec F S1x64 .f32}

theorem pieceA7 : out5_A_7 c i a1 h1 a2 h2 a3 h3 a4 h4 a5 h5 a6 h6 a7 h7 a8 h8 a9 h9 a10 h10 hA x0 x1 x2 x3 x4 x5 x6 = k5_pay5 x0 x2 x1 x3 x4 x5 x6 := by
  unfold out5_A_7
  rw [View.read_writes_eq_canon _ _ _ (cover5_A_7 c i a1 h1 a2 h2 a3 h3 a4 h4 a5 h5 a6 h6 a7 h7 a8 h8 a9 h9 a10 h10 hA x0 x1 x2 x3 x4 x5 x6)]
  unfold kernelRun5_A
  dsimp only
  sl_unfold_words
  rw [View.canon_unit_zero hz]
  simp only [View.readAt_eq_ld, h1.read_unread, h2.read_unread, h3.read_unread, h4.read_unread, h5.read_unread, h6.read_unread, h7.read_unread, h9.read_unread, h10.read_unread, View.ld_unit_zero (S := S20000x64) hz, View.ld_unit_zero (S := S1x64) hz, View.ld_unit_zero (S := S64x64) hz, View.readCov_unit_zero (S := S1x64) _ hz]

theorem pieceA8 : out5_A_8 c i a1 h1 a2 h2 a3 h3 a4 h4 a5 h5 a6 h6 a7 h7 a8 h8 a9 h9 a10 h10 hA x0 x1 x2 x3 x4 x5 x6 = k5_pay1 (k5_pay5 x0 x2 x1 x3 x4 x5 x6) k5_pay3 := by
  unfold out5_A_8
  rw [View.read_writes_eq_canon _ _ _ (cover5_A_8 c i a1 h1 a2 h2 a3 h3 a4 h4 a5 h5 a6 h6 a7 h7 a8 h8 a9 h9 a10 h10 hA x0 x1 x2 x3 x4 x5 x6)]
  unfold kernelRun5_A
  dsimp only
  sl_unfold_words
  rw [View.canon_cons_unit_zero (S := S1x64) hz]
  simp only [View.readAt_eq_ld, h1.read_unread, h2.read_unread, h3.read_unread, h4.read_unread, h5.read_unread, h6.read_unread, h7.read_unread, h9.read_unread, h10.read_unread, View.ld_unit_zero (S := S20000x64) hz, View.ld_unit_zero (S := S1x64) hz, View.ld_unit_zero (S := S64x64) hz, View.readCov_unit_zero (S := S1x64) _ hz]

theorem pieceA9 : out5_A_9 c i a1 h1 a2 h2 a3 h3 a4 h4 a5 h5 a6 h6 a7 h7 a8 h8 a9 h9 a10 h10 hA x0 x1 x2 x3 x4 x5 x6 = k5_pay2 (k5_pay5 x0 x2 x1 x3 x4 x5 x6) k5_pay4 := by
  unfold out5_A_9
  rw [View.read_writes_eq_canon _ _ _ (cover5_A_9 c i a1 h1 a2 h2 a3 h3 a4 h4 a5 h5 a6 h6 a7 h7 a8 h8 a9 h9 a10 h10 hA x0 x1 x2 x3 x4 x5 x6)]
  unfold kernelRun5_A
  dsimp only
  sl_unfold_words
  rw [View.canon_cons_unit_zero (S := S1x64) hz]
  simp only [View.readAt_eq_ld, h1.read_unread, h2.read_unread, h3.read_unread, h4.read_unread, h5.read_unread, h6.read_unread, h7.read_unread, h9.read_unread, h10.read_unread, View.ld_unit_zero (S := S20000x64) hz, View.ld_unit_zero (S := S1x64) hz, View.ld_unit_zero (S := S64x64) hz, View.readCov_unit_zero (S := S1x64) _ hz]

theorem pieceB7 : out5_B_7 c i a1 h1 a2 h2 a3 h3 a4 h4 a5 h5 a6 h6 a7 h7 a8 h8 a9 h9 a10 h10 hB x0 x1 x2 x3 x4 x5 x6 xo8 xo9 = k5_pay5 x0 x2 x1 x3 x4 x5 x6 := by
  unfold out5_B_7
  rw [View.read_writes_eq_canon _ _ _ (cover5_B_7 c i a1 h1 a2 h2 a3 h3 a4 h4 a5 h5 a6 h6 a7 h7 a8 h8 a9 h9 a10 h10 hB x0 x1 x2 x3 x4 x5 x6 xo8 xo9)]
  unfold kernelRun5_B
  dsimp only
  sl_unfold_words
  rw [View.canon_unit_zero hz]
  simp only [View.readAt_eq_ld, h1.read_unread, h2.read_unread, h3.read_unread, h4.read_unread, h5.read_unread, h6.read_unread, h7.read_unread, h9.read_unread, h10.read_unread, View.ld_unit_zero (S := S20000x64) hz, View.ld_unit_zero (S := S1x64) hz, View.ld_unit_zero (S := S64x64) hz, View.readCov_unit_zero (S := S1x64) _ hz]

theorem pieceB8 : out5_B_8 c i a1 h1 a2 h2 a3 h3 a4 h4 a5 h5 a6 h6 a7 h7 a8 h8 a9 h9 a10 h10 hB x0 x1 x2 x3 x4 x5 x6 xo8 xo9 = k5_pay1 (k5_pay5 x0 x2 x1 x3 x4 x5 x6) xo8 := by
  unfold out5_B_8
  rw [View.read_writes_eq_canon _ _ _ (cover5_B_8 c i a1 h1 a2 h2 a3 h3 a4 h4 a5 h5 a6 h6 a7 h7 a8 h8 a9 h9 a10 h10 hB x0 x1 x2 x3 x4 x5 x6 xo8 xo9)]
  unfold kernelRun5_B
  dsimp only
  sl_unfold_words
  rw [View.canon_unit_zero hz]
  simp only [View.readAt_eq_ld, h1.read_unread, h2.read_unread, h3.read_unread, h4.read_unread, h5.read_unread, h6.read_unread, h7.read_unread, h9.read_unread, h10.read_unread, View.ld_unit_zero (S := S20000x64) hz, View.ld_unit_zero (S := S1x64) hz, View.ld_unit_zero (S := S64x64) hz, View.readCov_unit_zero (S := S1x64) _ hz]

theorem pieceB9 : out5_B_9 c i a1 h1 a2 h2 a3 h3 a4 h4 a5 h5 a6 h6 a7 h7 a8 h8 a9 h9 a10 h10 hB x0 x1 x2 x3 x4 x5 x6 xo8 xo9 = k5_pay2 (k5_pay5 x0 x2 x1 x3 x4 x5 x6) xo9 := by
  unfold out5_B_9
  rw [View.read_writes_eq_canon _ _ _ (cover5_B_9 c i a1 h1 a2 h2 a3 h3 a4 h4 a5 h5 a6 h6 a7 h7 a8 h8 a9 h9 a10 h10 hB x0 x1 x2 x3 x4 x5 x6 xo8 xo9)]
  unfold kernelRun5_B
  dsimp only
  sl_unfold_words
  rw [View.canon_unit_zero hz]
  simp only [View.readAt_eq_ld, h1.read_unread, h2.read_unread, h3.read_unread, h4.read_unread, h5.read_unread, h6.read_unread, h7.read_unread, h9.read_unread, h10.read_unread, View.ld_unit_zero (S := S20000x64) hz, View.ld_unit_zero (S := S1x64) hz, View.ld_unit_zero (S := S64x64) hz, View.readCov_unit_zero (S := S1x64) _ hz]

end Pieces

variable (V : (c : Dev nD) → (b : Ref sig .tc) → Buf (Elt Ideal) ((c : Thread nD τ).loc b))

-- The layer's result on point n's input blocks.
abbrev Yb (c : Dev nD) (n : ℕ) (h : n < cfg5.N) : FVec Ideal S20000x64 .f32 :=
  lin64 (bn (iblk5 V c 0 ⟨n, h⟩) (iblk5 V c 2 ⟨n, h⟩) (iblk5 V c 1 ⟨n, h⟩) (iblk5 V c 3 ⟨n, h⟩) (iblk5 V c 4 ⟨n, h⟩)) (iblk5 V c 5 ⟨n, h⟩) (iblk5 V c 6 ⟨n, h⟩)

-- At the first point both running rows start from zero;
theorem outs0 (c : Dev nD) (h : 0 < cfg5.N) :
    outsAt5 V c 0 h = (Yb V c 0 h, accum (Yb V c 0 h) zrow, accum (mulf (Yb V c 0 h) (Yb V c 0 h)) zrow) :=
  (outsAt5_A V c ⟨0, h⟩ rfl).trans (congrArg₂ Prod.mk pieceA7 (congrArg₂ Prod.mk pieceA8 pieceA9))

-- at every later point they gain that point's column sums.
theorem outsS (c : Dev nD) (n : ℕ) (h : n + 1 < cfg5.N) :
    outsAt5 V c (n + 1) h = (Yb V c (n + 1) h, accum (Yb V c (n + 1) h) (outsAt5 V c n (Nat.lt_of_succ_lt h)).2.1,
      accum (mulf (Yb V c (n + 1) h) (Yb V c (n + 1) h)) (outsAt5 V c n (Nat.lt_of_succ_lt h)).2.2) :=
  (outsAt5_B V c ⟨n + 1, h⟩ (by have := lt_of_lt_of_eq h N_5; show ¬(n + 1) % 5 = 0; omega)).trans
    (congrArg₂ Prod.mk pieceB7 (congrArg₂ Prod.mk pieceB8 pieceB9))

abbrev Y (c : Dev nD) : Mat 100000 64 := lin (bnrelu (V c (Pipeline.arrRef spec5 0) : Mat 100000 64) (V c (Pipeline.arrRef spec5 1) : Mat 1 64) (V c (Pipeline.arrRef spec5 2) : Mat 1 64) (V c (Pipeline.arrRef spec5 3) : Mat 1 64) (V c (Pipeline.arrRef spec5 4) : Mat 1 64)) (V c (Pipeline.arrRef spec5 5) : Mat 64 64) (V c (Pipeline.arrRef spec5 6) : Mat 1 64)

theorem idx : ∀ t : Fin cfg5.N, win5_0.index t 0 = t.val ∧ win5_7.index t 0 = t.val :=
  (by decide +kernel : ∀ t : Fin grid5.N, _)

-- Each of these blocks is its whole array.
theorem small (c : Dev nD) (t : Fin cfg5.N) :
    (iblk5 V c 1 t : Mat 1 64) = V c (Pipeline.arrRef spec5 1) ∧ (iblk5 V c 2 t : Mat 1 64) = V c (Pipeline.arrRef spec5 2)
    ∧ (iblk5 V c 3 t : Mat 1 64) = V c (Pipeline.arrRef spec5 3) ∧ (iblk5 V c 4 t : Mat 1 64) = V c (Pipeline.arrRef spec5 4)
    ∧ (iblk5 V c 5 t : Mat 64 64) = V c (Pipeline.arrRef spec5 5) ∧ (iblk5 V c 6 t : Mat 1 64) = V c (Pipeline.arrRef spec5 6) :=
  ⟨funext fun y => congrArg (V c _) (Shape.idx_ext₂ (win5_1.rect_emb_val_of_index_zero t 0 rfl y) (win5_1.rect_emb_val_of_index_zero t 1 rfl y)),
    funext fun y => congrArg (V c _) (Shape.idx_ext₂ (win5_2.rect_emb_val_of_index_zero t 0 rfl y) (win5_2.rect_emb_val_of_index_zero t 1 rfl y)),
    funext fun y => congrArg (V c _) (Shape.idx_ext₂ (win5_3.rect_emb_val_of_index_zero t 0 rfl y) (win5_3.rect_emb_val_of_index_zero t 1 rfl y)),
    funext fun y => congrArg (V c _) (Shape.idx_ext₂ (win5_4.rect_emb_val_of_index_zero t 0 rfl y) (win5_4.rect_emb_val_of_index_zero t 1 rfl y)),
    funext fun y => congrArg (V c _) (Shape.idx_ext₂ (win5_5.rect_emb_val_of_index_zero t 0 rfl y) (win5_5.rect_emb_val_of_index_zero t 1 rfl y)),
    funext fun y => congrArg (V c _) (Shape.idx_ext₂ (win5_6.rect_emb_val_of_index_zero t 0 rfl y) (win5_6.rect_emb_val_of_index_zero t 1 rfl y))⟩

-- Row r of point t's input block is row 20000 t + r of the input array.
theorem row0 (c : Dev nD) (t : Fin cfg5.N) (r : Fin 20000) (k : Fin 64) (r' : Fin 100000) (hr : r'.val = 20000 * t.val + r.val) :
    (iblk5 V c 0 t : Mat 20000 64) (ix2 r k) = (V c (Pipeline.arrRef spec5 0) : Mat 100000 64) (ix2 r' k) :=
  congrArg (V c _) (Shape.idx_ext₂ ((win5_0.rect_emb_val t _ 0).trans (by rw [(idx t).1]; show t.val * 20000 + r.val = r'.val; omega))
    (win5_0.rect_emb_val_of_index_zero t 1 rfl _))

-- Point n's block of the result at (r, q) is the result on the arrays at (20000 n + r, q).
theorem Yb_at (c : Dev nD) (n : ℕ) (h : n < cfg5.N) (i : S20000x64.Idx) (j : S100000x64.Idx)
    (h0 : (j 0).val = 20000 * n + (i 0).val) (h1 : (i 1).val = (j 1).val) : Yb V c n h i = Y V c j := by
  obtain ⟨e1, e2, e3, e4, e5, e6⟩ := small V c ⟨n, h⟩
  exact (congrFun (lin64_bn _ _ _ _ _ _ _) i).trans (lin_bnrelu_congr (fun k => row0 V c ⟨n, h⟩ (i 0) k (j 0) h0) h1 e1 e2 e3 e4 e5 e6)

theorem flushed7_eq (c : Dev nD) (t : Fin cfg5.N) :
    (dat5 (F := Ideal) V c).flushed 7 t = ((cfg5.win 7).blk t).view.read (Elt Ideal) (Y V c) := by
  show (cfg5.win 7).cut (grid5.coords t) ((dat5 V c).after 7 t) = _
  rw [after5_7, show (outsAt5 V c t.val t.isLt).1 = Yb V c t.val t.isLt from by
    obtain ⟨n, h⟩ := t
    cases n with
    | zero => rw [outs0]
    | succ n => rw [outsS]]
  funext y
  refine Yb_at V c t.val t.isLt _ _ ((win5_7.rect_emb_val t y 0).trans ?_) (win5_7.rect_emb_val_of_index_zero t 1 rfl y).symm
  rw [(idx t).2]
  show t.val * 20000 + (y 0).val = 20000 * t.val + (y 0).val
  omega

theorem cover7 (i : S100000x64.Idx) :
    ∃ t : Fin cfg5.N, (cfg5.win 7).flush t = true ∧ i ∈ ((cfg5.win 7).blk t).view.set := by
  have hi0 : (i 0).val < 100000 := idx2_lt0 i
  have hq : (i 0).val / 20000 < cfg5.N := by rw [show cfg5.N = 5 from N_5]; omega
  refine ⟨⟨(i 0).val / 20000, hq⟩, flush5_7 _, ?_⟩
  show i ∈ ((View.whole (Pipeline.arrRef spec5 7)).slice (win5_7.rect ⟨(i 0).val / 20000, hq⟩)).set
  rw [View.set_slice_whole, Rect.mem_set_unit]
  have e : win5_7.index ⟨(i 0).val / 20000, hq⟩ 0 = (i 0).val / 20000 := (idx ⟨(i 0).val / 20000, hq⟩).2
  intro a
  match a with
  | ⟨0, _⟩ => show win5_7.index _ 0 * 20000 ≤ (i 0).val ∧ (i 0).val < win5_7.index _ 0 * 20000 + 20000; rw [e]; omega
  | ⟨1, _⟩ => exact ⟨Nat.zero_le _, idx2_lt1 i⟩

theorem arr7 (c : Dev nD) :
    ((dat5 (F := Ideal) V c).arrAt 7 cfg5.N : Mat 100000 64) = lin (bnrelu (V c (Pipeline.arrRef spec5 0) : Mat 100000 64) (V c (Pipeline.arrRef spec5 1) : Mat 1 64) (V c (Pipeline.arrRef spec5 2) : Mat 1 64) (V c (Pipeline.arrRef spec5 3) : Mat 1 64) (V c (Pipeline.arrRef spec5 4) : Mat 1 64)) (V c (Pipeline.arrRef spec5 5) : Mat 64 64) (V c (Pipeline.arrRef spec5 6) : Mat 1 64) :=
  (dat5 (F := Ideal) V c).arrAt_eq_of_cover 7 _ (fun t _ => flushed7_eq V c t) cover7

-- After the last point the two running rows hold the column sums and the column sums of squares of all rows.
theorem acc (c : Dev nD) (n : ℕ) (h : n < cfg5.N) (hn : n + 1 = cfg5.N) (j : S1x64.Idx) :
    (outsAt5 V c n h).2.1 j = csum (Y V c) j ∧ (outsAt5 V c n h).2.2 j = csumsq (Y V c) j := by
  rw [row_idx j]
  exact ⟨acc_rows (congrArg (20000 * ·) N_5) (Y V c) (Yb V c) (fun n h => (outsAt5 V c n h).2.1) (fun n h r q => Yb_at V c n h _ _ rfl rfl)
      (fun h => by rw [outs0]) (fun n h => by rw [outsS]) n h hn (j 1),
    acc_rows (congrArg (20000 * ·) N_5) (fun i => Y V c i * Y V c i) (fun n h => mulf (Yb V c n h) (Yb V c n h)) (fun n h => (outsAt5 V c n h).2.2)
      (fun n h r q => congrArg (fun z => z * z) (Yb_at V c n h _ _ rfl rfl)) (fun h => by rw [outs0]) (fun n h => by rw [outsS]) n h hn (j 1)⟩

theorem last (t : Fin cfg5.N) (h : t.val % 5 = 4) : t.val + 1 = cfg5.N := by
  have := lt_of_lt_of_eq t.isLt N_5; exact (by omega : t.val + 1 = 5).trans N_5.symm

theorem read8 (t : Fin cfg5.N) (G : Mat 1 64) (y : S1x64.Idx) : ((cfg5.win 8).blk t).view.read (Elt Ideal) G y = G (((cfg5.win 8).blk t).view.emb y) := rfl
theorem read9 (t : Fin cfg5.N) (G : Mat 1 64) (y : S1x64.Idx) : ((cfg5.win 9).blk t).view.read (Elt Ideal) G y = G (((cfg5.win 9).blk t).view.emb y) := rfl

theorem flushed8_eq (c : Dev nD) (t : Fin cfg5.N) (hf : (cfg5.win 8).flush t = true) :
    (dat5 (F := Ideal) V c).flushed 8 t = ((cfg5.win 8).blk t).view.read (Elt Ideal) (csum (Y V c)) := by
  show (cfg5.win 8).cut (grid5.coords t) ((dat5 V c).after 8 t) = _
  rw [after5_8]
  funext y
  refine Eq.trans ?_ (read8 t _ y).symm
  exact ((acc V c t.val t.isLt (last t ((flush5_8 t).mp hf)) _).1).trans (csum_congr _ (win5_8.rect_emb_val_of_index_zero t 1 rfl y).symm)

theorem flushed9_eq (c : Dev nD) (t : Fin cfg5.N) (hf : (cfg5.win 9).flush t = true) :
    (dat5 (F := Ideal) V c).flushed 9 t = ((cfg5.win 9).blk t).view.read (Elt Ideal) (csumsq (Y V c)) := by
  show (cfg5.win 9).cut (grid5.coords t) ((dat5 V c).after 9 t) = _
  rw [after5_9]
  funext y
  refine Eq.trans ?_ (read9 t _ y).symm
  exact ((acc V c t.val t.isLt (last t ((flush5_9 t).mp hf)) _).2).trans (csumsq_congr _ (win5_9.rect_emb_val_of_index_zero t 1 rfl y).symm)

-- The last point's block covers the whole row.
theorem cover8 (i : S1x64.Idx) : ∃ t : Fin cfg5.N, (cfg5.win 8).flush t = true ∧ i ∈ ((cfg5.win 8).blk t).view.set := by
  have hq : 4 < cfg5.N := by rw [show cfg5.N = 5 from N_5]; omega
  refine ⟨⟨4, hq⟩, (flush5_8 _).mpr rfl, ?_⟩
  show i ∈ ((View.whole (Pipeline.arrRef spec5 8)).slice (win5_8.rect ⟨4, hq⟩)).set
  rw [View.set_slice_whole, Rect.mem_set_unit]
  exact fun a => match a with
    | ⟨0, _⟩ => ⟨Nat.zero_le _, idx2_lt0 i⟩
    | ⟨1, _⟩ => ⟨Nat.zero_le _, idx2_lt1 i⟩

theorem cover9 (i : S1x64.Idx) : ∃ t : Fin cfg5.N, (cfg5.win 9).flush t = true ∧ i ∈ ((cfg5.win 9).blk t).view.set := by
  have hq : 4 < cfg5.N := by rw [show cfg5.N = 5 from N_5]; omega
  refine ⟨⟨4, hq⟩, (flush5_9 _).mpr rfl, ?_⟩
  show i ∈ ((View.whole (Pipeline.arrRef spec5 9)).slice (win5_9.rect ⟨4, hq⟩)).set
  rw [View.set_slice_whole, Rect.mem_set_unit]
  exact fun a => match a with
    | ⟨0, _⟩ => ⟨Nat.zero_le _, idx2_lt0 i⟩
    | ⟨1, _⟩ => ⟨Nat.zero_le _, idx2_lt1 i⟩

theorem arr8 (c : Dev nD) :
    ((dat5 (F := Ideal) V c).arrAt 8 cfg5.N : Mat 1 64) = csum (lin (bnrelu (V c (Pipeline.arrRef spec5 0) : Mat 100000 64) (V c (Pipeline.arrRef spec5 1) : Mat 1 64) (V c (Pipeline.arrRef spec5 2) : Mat 1 64) (V c (Pipeline.arrRef spec5 3) : Mat 1 64) (V c (Pipeline.arrRef spec5 4) : Mat 1 64)) (V c (Pipeline.arrRef spec5 5) : Mat 64 64) (V c (Pipeline.arrRef spec5 6) : Mat 1 64)) :=
  (dat5 (F := Ideal) V c).arrAt_eq_of_cover 8 _ (flushed8_eq V c) cover8

theorem arr9 (c : Dev nD) :
    ((dat5 (F := Ideal) V c).arrAt 9 cfg5.N : Mat 1 64) = csumsq (lin (bnrelu (V c (Pipeline.arrRef spec5 0) : Mat 100000 64) (V c (Pipeline.arrRef spec5 1) : Mat 1 64) (V c (Pipeline.arrRef spec5 2) : Mat 1 64) (V c (Pipeline.arrRef spec5 3) : Mat 1 64) (V c (Pipeline.arrRef spec5 4) : Mat 1 64)) (V c (Pipeline.arrRef spec5 5) : Mat 64 64) (V c (Pipeline.arrRef spec5 6) : Mat 1 64)) :=
  (dat5 (F := Ideal) V c).arrAt_eq_of_cover 9 _ (flushed9_eq V c) cover9

end Cert.KernelIdeal.Reg5

end
-- ==== Proof.Reg6.lean ====
import proofs.«401100_j23158463660136_1_alg».proof.Proof.Gen.KernelIdeal.Frame
import proofs.«401100_j23158463660136_1_alg».proof.Proof.KBnBlocks

noncomputable section

namespace Cert.KernelIdeal.Reg6

open Idealize.ShloMosaic Idealize.ShloMosaic.TcCoe Idealize.SL.Sem Cert.KernelIdeal Cert.KernelIdeal.Gen Cert.Spec Cert.KBlocks Cert.KBnBlocks
open Idealize.ShloMosaic.ValueIdx

variable (V : (c : Dev nD) → (b : Ref sig .tc) → Buf (Elt Ideal) ((c : Thread nD τ).loc b))

-- Each of these blocks is its whole array.
theorem small (c : Dev nD) (t : Fin cfg6.N) :
    (iblk6 V c 1 t : Mat 1 64) = V c (Pipeline.arrRef spec6 1) ∧ (iblk6 V c 2 t : Mat 1 64) = V c (Pipeline.arrRef spec6 2)
    ∧ (iblk6 V c 3 t : Mat 1 64) = V c (Pipeline.arrRef spec6 3) ∧ (iblk6 V c 4 t : Mat 1 64) = V c (Pipeline.arrRef spec6 4)
    ∧ (iblk6 V c 5 t : Mat 64 1) = V c (Pipeline.arrRef spec6 5) ∧ (iblk6 V c 6 t : Mat 1 1) = V c (Pipeline.arrRef spec6 6) := by
  refine ⟨?_, ?_, ?_, ?_, ?_, ?_⟩ <;>
    exact funext fun y => congrArg (V c _) (Shape.idx_ext₂ (Pipeline.Window.rect_emb_val_of_index_zero _ t 0 rfl y) (Pipeline.Window.rect_emb_val_of_index_zero _ t 1 rfl y))

theorem pay_eq (x : Vec Ideal S20000x64 .f32) (v m g b : Vec Ideal S1x64 .f32) (w : Vec Ideal S64x1 .f32) (d : Vec Ideal S1x1 .f32) :
    k6_pay1 x v m g b w d = lin (bnrelu (x : Mat 20000 64) (m : Mat 1 64) (v : Mat 1 64) (g : Mat 1 64) (b : Mat 1 64)) (w : Mat 64 1) (d : Mat 1 1) := lin1_bn x v m g b w d

theorem flushed_eq (c : Dev nD) (t : Fin cfg6.N) :
    (dat6 (F := Ideal) V c).flushed 7 t = ((cfg6.win 7).blk t).view.read (Elt Ideal) (lin (bnrelu (V c (Pipeline.arrRef spec6 0) : Mat 100000 64) (V c (Pipeline.arrRef spec6 1) : Mat 1 64) (V c (Pipeline.arrRef spec6 2) : Mat 1 64) (V c (Pipeline.arrRef spec6 3) : Mat 1 64) (V c (Pipeline.arrRef spec6 4) : Mat 1 64)) (V c (Pipeline.arrRef spec6 5) : Mat 64 1) (V c (Pipeline.arrRef spec6 6) : Mat 1 1)) := by
  show (cfg6.win 7).cut (grid6.coords t) ((dat6 V c).after 7 t) = _
  rw [after6_7]
  unfold out6_7
  rw [View.canon_unit_zero hz]
  simp only [View.ld_unit_zero (S := S20000x64) hz, View.ld_unit_zero (S := S1x64) hz, View.ld_unit_zero (S := S64x1) hz, View.ld_unit_zero (S := S1x1) hz]
  rw [pay_eq]
  obtain ⟨e1, e2, e3, e4, e5, e6⟩ := small V c t
  funext y
  exact lin_bnrelu_congr (fun k => congrArg (V c _) (Shape.idx_ext₂ rfl (win6_0.rect_emb_val_of_index_zero t 1 rfl _))) (win6_7.rect_emb_val_of_index_zero t 1 rfl y).symm e1 e2 e3 e4 e5 e6

theorem idx7 : ∀ t : Fin cfg6.N, win6_7.index t 0 = t.val := (by decide +kernel : ∀ t : Fin grid6.N, _)

theorem cover (i : S100000x1.Idx) :
    ∃ t : Fin cfg6.N, (cfg6.win 7).flush t = true ∧ i ∈ ((cfg6.win 7).blk t).view.set := by
  have hi0 : (i 0).val < 100000 := idx2_lt0 i
  have hq : (i 0).val / 20000 < cfg6.N := by rw [show cfg6.N = 5 from N_6]; omega
  refine ⟨⟨(i 0).val / 20000, hq⟩, flush6_7 _, ?_⟩
  show i ∈ ((View.whole (Pipeline.arrRef spec6 7)).slice (win6_7.rect ⟨(i 0).val / 20000, hq⟩)).set
  rw [View.set_slice_whole, Rect.mem_set_unit]
  have e : win6_7.index ⟨(i 0).val / 20000, hq⟩ 0 = (i 0).val / 20000 := idx7 ⟨(i 0).val / 20000, hq⟩
  intro a
  match a with
  | ⟨0, _⟩ => show win6_7.index _ 0 * 20000 ≤ (i 0).val ∧ (i 0).val < win6_7.index _ 0 * 20000 + 20000; rw [e]; omega
  | ⟨1, _⟩ => exact ⟨Nat.zero_le _, idx2_lt1 i⟩

theorem arr7 (c : Dev nD) :
    ((dat6 (F := Ideal) V c).arrAt 7 cfg6.N : Mat 100000 1)
      = lin (bnrelu (V c (Pipeline.arrRef spec6 0) : Mat 100000 64) (V c (Pipeline.arrRef spec6 1) : Mat 1 64) (V c (Pipeline.arrRef spec6 2) : Mat 1 64) (V c (Pipeline.arrRef spec6 3) : Mat 1 64) (V c (Pipeline.arrRef spec6 4) : Mat 1 64)) (V c (Pipeline.arrRef spec6 5) : Mat 64 1) (V c (Pipeline.arrRef spec6 6) : Mat 1 1) :=
  (dat6 (F := Ideal) V c).arrAt_eq_of_cover 7 _ (fun t _ => flushed_eq V c t) cover

end Cert.KernelIdeal.Reg6

end
-- ==== Proof.KNode.lean ====
import proofs.«401100_j23158463660136_1_alg».proof.Proof.Gen.KernelIdeal.Frame
import proofs.«401100_j23158463660136_1_alg».proof.Proof.Reg4
import proofs.«401100_j23158463660136_1_alg».proof.Proof.Reg5
import proofs.«401100_j23158463660136_1_alg».proof.Proof.Reg6
import proofs.«401100_j23158463660136_1_alg».proof.Proof.KEdge
import Idealize.ShloMosaic.Lib.Pipeline.Value
import Idealize.ShloMosaic.Lib.ValueIdx
import Idealize.ShloMosaic.Lib.IdealHost

noncomputable section

namespace Cert.KernelIdeal.KNode

open Idealize.ShloMosaic Idealize.ShloMosaic.TcCoe Idealize.SL.Sem Cert.KernelIdeal Cert.KernelIdeal.Gen Cert.Spec Cert.KernelIdeal.KEdge
open Idealize.ShloMosaic.ValueIdx

variable (m : (ℓ : Loc nD τ sig) → Buf (Elt Ideal) ℓ) (ρ : Dev nD → PrngReg) (c : Dev nD)

def seg (dw : IVec S1600000 32) : Spec.Mat 1600000 64 → Spec.Mat 100000 64 := fun u => Host.scatterAdd scatter_S100000x64_S1600000x1_S1600000x64_1_0_0_1 (broadcastInDim S100000x64 ![] bcast_S_S100000x64 (constant (F := Ideal) S_ .f32 0x00000000#32)) (broadcastInDim S1600000x1 ![0] bcast_S1600000_S1600000x1_0 dw) u

/-- Region 4 leaves the first update layer of the embedding beside the summed messages, with its column statistics. -/
theorem stage4 : let y := Net.tC1 (seg (W11 m ρ c (Proc.devRef .tc main_v6))) (KArgs.argsOf m c) (W11 m ρ c (Proc.devRef .tc main_v2)) (W11 m ρ c (Proc.devRef .tc main_v38))
    (W13 m ρ c (Proc.devRef .tc main_v44_0) : Mat 100000 64) = y ∧ (W13 m ρ c (Proc.devRef .tc main_v44_1) : Mat 1 64) = csum y
      ∧ (W13 m ρ c (Proc.devRef .tc main_v44_2) : Mat 1 64) = csumsq y := by
  intro y
  have h : lin (W12 m ρ c (Proc.devRef .tc main_v42) : Mat 100000 128) (W12 m ρ c (Proc.devRef .tc main_arg13) : Mat 128 64)
      (W12 m ρ c (Proc.devRef .tc main_v43) : Mat 1 64) = y := by
    after_results
    rw [arg11 m ρ c main_arg13, arg11 m ρ c main_arg14]
    exact lin_congr (concat_cols_eq (C := 128) rfl _ _ _) rfl (reshape_row_eq _ _)
  exact ⟨((W13_arr m ρ c 3).trans (Reg4.arr3 (V12 m ρ) c)).trans h, ((W13_arr m ρ c 4).trans (Reg4.arr4 (V12 m ρ) c)).trans (congrArg csum h),
    ((W13_arr m ρ c 5).trans (Reg4.arr5 (V12 m ρ) c)).trans (congrArg csumsq h)⟩

/-- Region 5 normalises by those statistics, clips and leaves the second update layer with its statistics. -/
theorem stage5 : let y := Net.tC2 Net.cvarK (seg (W11 m ρ c (Proc.devRef .tc main_v6))) (KArgs.argsOf m c) (W11 m ρ c (Proc.devRef .tc main_v2)) (W11 m ρ c (Proc.devRef .tc main_v38))
    (W15 m ρ c (Proc.devRef .tc main_v58_0) : Mat 100000 64) = y ∧ (W15 m ρ c (Proc.devRef .tc main_v58_1) : Mat 1 64) = csum y
      ∧ (W15 m ρ c (Proc.devRef .tc main_v58_2) : Mat 1 64) = csumsq y := by
  intro y
  obtain ⟨e0, e1, e2⟩ := stage4 m ρ c
  have h : lin (bnrelu (W14 m ρ c (Proc.devRef .tc main_v44_0) : Mat 100000 64) (W14 m ρ c (Proc.devRef .tc main_v53) : Mat 1 64)
        (W14 m ρ c (Proc.devRef .tc main_v54) : Mat 1 64) (W14 m ρ c (Proc.devRef .tc main_v55) : Mat 1 64)
        (W14 m ρ c (Proc.devRef .tc main_v56) : Mat 1 64))
      (W14 m ρ c (Proc.devRef .tc main_arg17) : Mat 64 64) (W14 m ρ c (Proc.devRef .tc main_v57) : Mat 1 64) = y := by
    after_results_simp
    rw [e0, e1, e2, arg13 m ρ c main_arg15, arg13 m ρ c main_arg16, arg13 m ρ c main_arg17, arg13 m ρ c main_arg18]
    exact lin_congr (bnrelu_congr _ (meanRow_eq _ _) (varRow_eq _ _) (reshape_row_eq _ _) (reshape_row_eq _ _)) rfl (reshape_row_eq _ _)
  exact ⟨((W15_arr m ρ c 7).trans (Reg5.arr7 (V14 m ρ) c)).trans h, ((W15_arr m ρ c 8).trans (Reg5.arr8 (V14 m ρ) c)).trans (congrArg csum h),
    ((W15_arr m ρ c 9).trans (Reg5.arr9 (V14 m ρ) c)).trans (congrArg csumsq h)⟩

theorem result_eq : W18 m ρ c (Proc.devRef .tc main_v73)
    = Net.tResult Net.cvarK (seg (W11 m ρ c (Proc.devRef .tc main_v6))) (KArgs.argsOf m c)
        (W11 m ρ c (Proc.devRef .tc main_v2)) (W11 m ρ c (Proc.devRef .tc main_v38)) := by
  obtain ⟨e0, e1, e2⟩ := stage5 m ρ c
  have h : lin (bnrelu (W16 m ρ c (Proc.devRef .tc main_v58_0) : Mat 100000 64) (W16 m ρ c (Proc.devRef .tc main_v67) : Mat 1 64)
        (W16 m ρ c (Proc.devRef .tc main_v68) : Mat 1 64) (W16 m ρ c (Proc.devRef .tc main_v69) : Mat 1 64)
        (W16 m ρ c (Proc.devRef .tc main_v70) : Mat 1 64))
      (W16 m ρ c (Proc.devRef .tc main_arg21) : Mat 64 1) (W16 m ρ c (Proc.devRef .tc main_v71) : Mat 1 1)
      = Net.tOut Net.cvarK (seg (W11 m ρ c (Proc.devRef .tc main_v6))) (KArgs.argsOf m c) (W11 m ρ c (Proc.devRef .tc main_v2)) (W11 m ρ c (Proc.devRef .tc main_v38)) := by
    after_results_simp
    rw [e0, e1, e2, arg15 m ρ c main_arg19, arg15 m ρ c main_arg20, arg15 m ρ c main_arg21, arg15 m ρ c main_arg22]
    exact lin_congr (bnrelu_congr _ (meanRow_eq _ _) (varRow_eq _ _) (reshape_row_eq _ _) (reshape_row_eq _ _)) rfl (reshape_row_eq _ _)
  show StableHlo.after hostOps7 (W17 m ρ c) (Proc.devRef .tc main_v73) = _
  after_results
  funext i
  refine (shapeCast_apply _ shapeCasts_S100000x1_S100000 i (ix2 (i 0) 0) ?_).trans
    (congrFun ((W17_arr m ρ c 7).trans ((Reg6.arr7 (V16 m ρ) c).trans h)) _)
  rw [Shape.rowMajor_val_one, Shape.rowMajor_val_two]
  show (i 0).val * 1 + 0 = (i 0).val
  omega

end Cert.KernelIdeal.KNode

end
-- ==== Proof.REdgeRun.lean ====
import proofs.«401100_j23158463660136_1_alg».proof.Proof.RefRun
import proofs.«401100_j23158463660136_1_alg».proof.Proof.Net
import Idealize.ShloMosaic.Lib.Pipeline.Frame
import Idealize.ShloMosaic.Lib.IdealHost

noncomputable section

namespace Cert.ReferenceIdeal.REdge

open Cert.ReferenceIdeal Cert.ReferenceIdeal.Gen Idealize.ShloMosaic Idealize.ShloMosaic.TcCoe Idealize.SL.Sem Idealize.ShloMosaic.StableHlo

variable {F : FTy → Type} [FloatOps F]

-- A buffer that no operation of a line writes keeps its contents through the line.
theorem keep (l : List (HloOp τ sig (Elt Ideal))) (W : Valuation τ sig (Elt Ideal)) (r : Ref sig .tc)
    (h : ∀ op ∈ l, Proc.devRef .tc r ∉ op.writes) : after l W (Proc.devRef .tc r) = W (Proc.devRef .tc r) :=
  after_of_forall_not_mem l W h

section Stages

variable {R K C A B : ℕ}

def catH (h : Shape.Concatenates [(⟨2, ![R, A]⟩ : Shape), ⟨2, ![R, B]⟩] ⟨2, ![R, C]⟩ 1) (x : (⟨⟨2, ![R, A]⟩, .f32⟩ : BufTy).Contents (Elt F)) (y : (⟨⟨2, ![R, B]⟩, .f32⟩ : BufTy).Contents (Elt F)) : (⟨⟨2, ![R, C]⟩, .f32⟩ : BufTy).Contents (Elt F) :=
  concatenate ⟨2, ![R, C]⟩ 1 [⟨⟨2, ![R, A]⟩, x⟩, ⟨⟨2, ![R, B]⟩, y⟩] h

def linH (d : DotDims ⟨2, ![R, K]⟩ ⟨2, ![K, C]⟩ ⟨2, ![R, C]⟩) (hb1 : (⟨1, ![C]⟩ : Shape).BroadcastsInDim ⟨2, ![1, C]⟩ ![1])
    (hb2 : (⟨2, ![1, C]⟩ : Shape).BroadcastsInDim ⟨2, ![R, C]⟩ ![0, 1]) (x : (⟨⟨2, ![R, K]⟩, .f32⟩ : BufTy).Contents (Elt F)) (w : (⟨⟨2, ![K, C]⟩, .f32⟩ : BufTy).Contents (Elt F)) (b : (⟨⟨1, ![C]⟩, .f32⟩ : BufTy).Contents (Elt F)) : (⟨⟨2, ![R, C]⟩, .f32⟩ : BufTy).Contents (Elt F) :=
  addf (Host.dotGeneral d none x w) (broadcastInDim ⟨2, ![R, C]⟩ ![0, 1] hb2 (broadcastInDim ⟨2, ![1, C]⟩ ![1] hb1 b))

def zeroC : (⟨S_, .f32⟩ : BufTy).Contents (Elt F) := constant S_ .f32 0x00000000#32

def epsV : (⟨S64, .f32⟩ : BufTy).Contents (Elt F) := broadcastInDim S64 ![] bcast_S_S64 (constant S_ .f32 0x3727C5AC#32)

variable (hr : (⟨2, ![R, 64]⟩ : Shape).ReducesTo [0] S64) (hu : S1x64.BroadcastsInDim ⟨2, ![R, 64]⟩ ![0, 1])
  (hz : S_.BroadcastsInDim ⟨2, ![R, 64]⟩ ![]) (n : BitVec 32)

def countE : (⟨S64, .f32⟩ : BufTy).Contents (Elt F) := broadcastInDim S64 ![] bcast_S_S64 (constant S_ .f32 n)

def upE (v : (⟨S64, .f32⟩ : BufTy).Contents (Elt F)) : (⟨⟨2, ![R, 64]⟩, .f32⟩ : BufTy).Contents (Elt F) :=
  broadcastInDim ⟨2, ![R, 64]⟩ ![0, 1] hu (broadcastInDim S1x64 ![1] bcast_S64_S1x64_1 v)

def meanE (y : (⟨⟨2, ![R, 64]⟩, .f32⟩ : BufTy).Contents (Elt F)) : (⟨S64, .f32⟩ : BufTy).Contents (Elt F) :=
  Host.divf (Host.reduceAdd y zeroC hr h_S_) (countE n)

def devE (y : (⟨⟨2, ![R, 64]⟩, .f32⟩ : BufTy).Contents (Elt F)) : (⟨⟨2, ![R, 64]⟩, .f32⟩ : BufTy).Contents (Elt F) :=
  subf y (upE hu (meanE hr n y))

def varE (y : (⟨⟨2, ![R, 64]⟩, .f32⟩ : BufTy).Contents (Elt F)) : (⟨S64, .f32⟩ : BufTy).Contents (Elt F) :=
  Host.divf (Host.reduceAdd (mulf (devE hr hu n y) (devE hr hu n y)) zeroC hr h_S_) (countE n)

-- Normalise the columns by their mean and mean squared deviation over the R rows, scale, shift, clip below at zero.
def bnE (y : (⟨⟨2, ![R, 64]⟩, .f32⟩ : BufTy).Contents (Elt F)) (g β : (⟨S64, .f32⟩ : BufTy).Contents (Elt F)) : (⟨⟨2, ![R, 64]⟩, .f32⟩ : BufTy).Contents (Elt F) :=
  maximumf (addf (mulf (mulf (devE hr hu n y) (upE hu (Host.rsqrt (addf (varE hr hu n y) epsV)))) (upE hu g)) (upE hu β))
    (broadcastInDim ⟨2, ![R, 64]⟩ ![] hz zeroC)

end Stages

def dstWords (ei : IVec S2x1600000 32) : IVec S1600000 32 :=
  shapeCast S1600000 (extractStridedSlice S1x1600000 ![1, 0] ei slices_S2x1600000_S1x1600000_1_0) shapeCasts_S1x1600000_S1600000

def srcWords (ei : IVec S2x1600000 32) : IVec S1600000 32 :=
  shapeCast S1600000 (extractStridedSlice S1x1600000 ![0, 0] ei slices_S2x1600000_S1x1600000_0_0) shapeCasts_S1x1600000_S1600000

-- The rows of x at the node words w, a negative word first raised by the node count.
def gatherAt (w : IVec S1600000 32) (x : (⟨S100000x64, .f32⟩ : BufTy).Contents (Elt F)) : (⟨S1600000x64, .f32⟩ : BufTy).Contents (Elt F) :=
  Host.gather gather_S100000x64_S1600000x1_S1600000x64_1_0_n_n_0_1_164 x (broadcastInDim S1600000x1 ![0] bcast_S1600000_S1600000x1_0 (select (cmpi .slt w (broadcastInDim S1600000 ![] bcast_S_S1600000 (constantI S_ 32 0#32))) (addi w (broadcastInDim S1600000 ![] bcast_S_S1600000 (constantI S_ 32 100000#32))) w))

abbrev bnEdge (y : (⟨S1600000x64, .f32⟩ : BufTy).Contents (Elt F)) (g β : (⟨S64, .f32⟩ : BufTy).Contents (Elt F)) : (⟨S1600000x64, .f32⟩ : BufTy).Contents (Elt F) :=
  bnE reducesTo_S1600000x64_S64_d0 bcast_S1x64_S1600000x64_0_1 bcast_S_S1600000x64 0x49C35000#32 y g β

def argsAt (W : Valuation τ sig (Elt Ideal)) : Cert.Net.Args where
  pos := W (Proc.devRef .tc main_arg0)
  vel := W (Proc.devRef .tc main_arg1)
  W_in := W (Proc.devRef .tc main_arg3)
  b_in := W (Proc.devRef .tc main_arg4)
  mW1 := W (Proc.devRef .tc main_arg5)
  mb1 := W (Proc.devRef .tc main_arg6)
  mg1 := W (Proc.devRef .tc main_arg7)
  mB1 := W (Proc.devRef .tc main_arg8)
  mW2 := W (Proc.devRef .tc main_arg9)
  mb2 := W (Proc.devRef .tc main_arg10)
  mg2 := W (Proc.devRef .tc main_arg11)
  mB2 := W (Proc.devRef .tc main_arg12)
  uW1 := W (Proc.devRef .tc main_arg13)
  ub1 := W (Proc.devRef .tc main_arg14)
  ug1 := W (Proc.devRef .tc main_arg15)
  uB1 := W (Proc.devRef .tc main_arg16)
  uW2 := W (Proc.devRef .tc main_arg17)
  ub2 := W (Proc.devRef .tc main_arg18)
  ug2 := W (Proc.devRef .tc main_arg19)
  uB2 := W (Proc.devRef .tc main_arg20)
  W_pred := W (Proc.devRef .tc main_arg21)
  b_pred := W (Proc.devRef .tc main_arg22)

-- A line that writes none of the argument buffers leaves the arguments as they were.
theorem argsAt_after (l : List (HloOp τ sig (Elt Ideal))) (W : Valuation τ sig (Elt Ideal))
    (h : ∀ op ∈ l, ∀ r ∈ ([main_arg0, main_arg1, main_arg3, main_arg4, main_arg5, main_arg6, main_arg7, main_arg8, main_arg9, main_arg10, main_arg11, main_arg12, main_arg13, main_arg14, main_arg15, main_arg16, main_arg17, main_arg18, main_arg19, main_arg20, main_arg21, main_arg22] : List (Ref sig .tc)), Proc.devRef .tc r ∉ op.writes) :
    argsAt (after l W) = argsAt W := by
  unfold argsAt
  congr 1 <;> exact keep l W _ fun op hop => h op hop _ (by decide)

variable (W : Valuation τ sig (Elt Ideal))

theorem E1_v4 : after E1 W (Proc.devRef .tc main_v4)
    = linH dot_S100000x4_S4x64_S100000x64_1_0_0_1_n_n bcast_S64_S1x64_1 bcast_S1x64_S100000x64_0_1
        (catH concatenates_S100000x2_S100000x2_S100000x4_d1 (argsAt W).pos (argsAt W).vel) (argsAt W).W_in (argsAt W).b_in := by
  after_results
  rfl

theorem E2_v8 : after E2 W (Proc.devRef .tc main_v8) = dstWords (W (Proc.devRef .tc main_arg2)) := by
  after_results
  rfl

theorem E2_v6 : after E2 W (Proc.devRef .tc main_v6) = srcWords (W (Proc.devRef .tc main_arg2)) := by
  after_results
  rfl

theorem E3_v15 : after E3 W (Proc.devRef .tc main_v15) = gatherAt (W (Proc.devRef .tc main_v8)) (W (Proc.devRef .tc main_v4)) := by
  after_results_simp
  rfl

theorem E3_v22 : after E3 W (Proc.devRef .tc main_v22) = gatherAt (W (Proc.devRef .tc main_v6)) (W (Proc.devRef .tc main_v4)) := by
  after_results_simp
  rfl

theorem E4_v27 : after E4 W (Proc.devRef .tc main_v27)
    = linH dot_S1600000x128_S128x64_S1600000x64_1_0_0_1_n_n bcast_S64_S1x64_1 bcast_S1x64_S1600000x64_0_1
        (catH concatenates_S1600000x64_S1600000x64_S1600000x128_d1 (W (Proc.devRef .tc main_v15)) (W (Proc.devRef .tc main_v22))) (argsAt W).mW1 (argsAt W).mb1 := by
  after_results
  rfl

theorem E5_v53 : after E5 W (Proc.devRef .tc main_v53) = bnEdge (W (Proc.devRef .tc main_v27)) (argsAt W).mg1 (argsAt W).mB1 := by
  after_results_simp
  rfl

theorem E6_v57 : after E6 W (Proc.devRef .tc main_v57)
    = linH dot_S1600000x64_S64x64_S1600000x64_1_0_0_1_n_n bcast_S64_S1x64_1 bcast_S1x64_S1600000x64_0_1 (W (Proc.devRef .tc main_v53)) (argsAt W).mW2 (argsAt W).mb2 := by
  after_results
  rfl

theorem E7_v83 : after E7 W (Proc.devRef .tc main_v83) = bnEdge (W (Proc.devRef .tc main_v57)) (argsAt W).mg2 (argsAt W).mB2 := by
  after_results_simp
  rfl

end Cert.ReferenceIdeal.REdge

end
-- ==== Proof.REdgeOps.lean ====
import proofs.«401100_j23158463660136_1_alg».proof.Proof.REdgeRun
import proofs.«401100_j23158463660136_1_alg».proof.Proof.MatIdx
import proofs.«401100_j23158463660136_1_alg».proof.Proof.Net

noncomputable section

namespace Cert.ReferenceIdeal.REdge

open Cert.ReferenceIdeal Cert.ReferenceIdeal.Gen Idealize.ShloMosaic Idealize.ShloMosaic.TcCoe Idealize.SL.Sem Idealize.ShloMosaic.StableHlo Idealize.ShloMosaic.ValueIdx

-- A vector laid as one row and then along every row reads, at row r and column c, its entry c.
theorem up_apply {R C : ℕ} {α : Type} (hb1 : (⟨1, ![C]⟩ : Shape).BroadcastsInDim ⟨2, ![1, C]⟩ ![1])
    (hb2 : (⟨2, ![1, C]⟩ : Shape).BroadcastsInDim ⟨2, ![R, C]⟩ ![0, 1]) (v : (⟨1, ![C]⟩ : Shape).Idx → α)
    (j : (⟨2, ![R, C]⟩ : Shape).Idx) :
    broadcastInDim ⟨2, ![R, C]⟩ ![0, 1] hb2 (broadcastInDim ⟨2, ![1, C]⟩ ![1] hb1 v) j = v (ix1 (j 1)) := by
  have h1 : (j 1).val < C := (j 1).isLt
  exact (broadcastInDim_apply ![0, 1] hb2 _ j (ix2 0 ⟨(j 1).val, h1⟩) (fun a => match a with
      | ⟨0, _⟩ => by show 0 = if (1 : Nat) = 1 then 0 else (j 0).val; rw [if_pos rfl]
      | ⟨1, _⟩ => by show (j 1).val = if C = 1 then 0 else (j 1).val; split <;> omega)).trans
    (broadcastInDim_apply ![1] hb1 v (ix2 0 ⟨(j 1).val, h1⟩) (ix1 (j 1)) (fun a => match a with
      | ⟨0, _⟩ => by show (j 1).val = if C = 1 then 0 else (j 1).val; split <;> omega))

theorem lin_eq {R K C : ℕ} (d : DotDims ⟨2, ![R, K]⟩ ⟨2, ![K, C]⟩ ⟨2, ![R, C]⟩)
    (hb1 : (⟨1, ![C]⟩ : Shape).BroadcastsInDim ⟨2, ![1, C]⟩ ![1])
    (hb2 : (⟨2, ![1, C]⟩ : Shape).BroadcastsInDim ⟨2, ![R, C]⟩ ![0, 1])
    (x : Spec.Mat R K) (w : Spec.Mat K C) (b : Net.Vec1 C) (h : d = DotDims.plain R K C) :
    linH (F := Ideal) d hb1 hb2 x w b = Spec.lin x w (Net.row b) := by
  funext i
  unfold linH
  rw [addf_apply, MatIdx.dotGeneral_plain_apply d h, up_apply]
  rfl

theorem cat_eq {R A B C : ℕ} (hC : A + B = C)
    (h : Shape.Concatenates [(⟨2, ![R, A]⟩ : Shape), ⟨2, ![R, B]⟩] ⟨2, ![R, C]⟩ 1)
    (x : Spec.Mat R A) (y : Spec.Mat R B) : catH (F := Ideal) h x y = Net.cat hC x y := by
  funext j
  have hj : (j 1).val < C := (j 1).isLt
  simp only [catH, Net.cat]
  split
  · next hlt =>
    exact concatenate_pair_apply_left 1 x y h j rfl (ix2 (j 0) ⟨(j 1).val, hlt⟩) (fun b => match b with
      | ⟨0, _⟩ => rfl
      | ⟨1, _⟩ => rfl)
  · next hge =>
    exact concatenate_pair_apply_right 1 x y h j rfl rfl (ix2 (j 0) ⟨(j 1).val - A, by omega⟩)
      (fun b hb => match b, hb with
        | ⟨0, _⟩, _ => rfl
        | ⟨1, _⟩, hb => absurd rfl hb)
      (by show ((j 1).val - A) + A = (j 1).val; omega)

theorem hdivf_apply {s : Shape} (a b : FVec Ideal s .f32) (i : s.Idx) : Host.divf a b i = Ideal.div (a i) (b i) := rfl

theorem hrsqrt_apply {s : Shape} (a : FVec Ideal s .f32) (i : s.Idx) : Host.rsqrt a i = Ideal.rsqrt (a i) := rfl

section BN

variable {R : ℕ} (hr : (⟨2, ![R, 64]⟩ : Shape).ReducesTo [0] S64)
  (hu : S1x64.BroadcastsInDim ⟨2, ![R, 64]⟩ ![0, 1]) (hz : S_.BroadcastsInDim ⟨2, ![R, 64]⟩ ![]) (n : BitVec 32)

theorem countE_apply (j : S64.Idx) : countE (F := Ideal) n j = Ideal.ofBits .f32 n := by
  unfold countE; rw [broadcastInDim_scalar_apply]; rfl

theorem epsV_apply (j : S64.Idx) : epsV (F := Ideal) j = Spec.eps := by
  unfold epsV; rw [broadcastInDim_scalar_apply]; rfl

theorem upE_apply (v : Net.Vec1 64) (j : (⟨2, ![R, 64]⟩ : Shape).Idx) : upE (F := Ideal) hu v j = v (ix1 (j 1)) :=
  up_apply bcast_S64_S1x64_1 hu v j

-- The host's sum over the rows, from zero, is the column sum.
theorem reduceE_apply (hR : (⟨2, ![R, 64]⟩ : Shape).Reduces [0] S64) (x : Spec.Mat R 64) (j : S64.Idx) :
    Host.reduceAdd (F := Ideal) (φ := .f32) x (zeroC (F := Ideal)) hr h_S_ j = ∑ k : Fin R, x (ix2 k (j 0)) := by
  simp only [Host.reduceAdd, Ideal.hostReduceAdd_def]
  rw [Ideal.hostReduceAdd_single hr hR]
  unfold zeroC
  rw [constant_apply, Ideal.ofBits_zero_f32, zero_add]
  refine Finset.sum_congr rfl fun k _ => ?_
  exact congrArg x (funext fun a => Fin.ext (by match a with | ⟨0, _⟩ => rfl | ⟨1, _⟩ => rfl))

theorem meanE_apply (hR : (⟨2, ![R, 64]⟩ : Shape).Reduces [0] S64) (y : Spec.Mat R 64) (j : S64.Idx) :
    meanE (F := Ideal) hr n y j = Net.cmean (Ideal.ofBits .f32 n) y (ix2 0 (j 0)) := by
  unfold meanE
  rw [hdivf_apply, reduceE_apply hr hR, countE_apply]
  rfl

theorem devE_apply (hR : (⟨2, ![R, 64]⟩ : Shape).Reduces [0] S64) (y : Spec.Mat R 64) (i : (⟨2, ![R, 64]⟩ : Shape).Idx) :
    devE (F := Ideal) hr hu n y i = y i - Net.cmean (Ideal.ofBits .f32 n) y (ix2 0 (i 1)) := by
  unfold devE
  rw [subf_apply, upE_apply, meanE_apply hr n hR]
  try rfl

theorem varE_apply (hR : (⟨2, ![R, 64]⟩ : Shape).Reduces [0] S64) (y : Spec.Mat R 64) (j : S64.Idx) :
    varE (F := Ideal) hr hu n y j = Net.cvarR (Ideal.ofBits .f32 n) y (ix2 0 (j 0)) := by
  unfold varE
  rw [hdivf_apply, reduceE_apply hr hR, countE_apply]
  simp only [Net.cvarR]
  refine congrArg (fun s => Ideal.div s (Ideal.ofBits .f32 n)) (Finset.sum_congr rfl fun r _ => ?_)
  rw [mulf_apply, devE_apply hr hu n hR]
  try rfl

-- The normalisation lines are the stage bnrelu at the column means and mean squared deviations over the R rows.
theorem bnE_eq (hR : (⟨2, ![R, 64]⟩ : Shape).Reduces [0] S64) (y : Spec.Mat R 64) (g β : Net.Vec1 64) :
    bnE (F := Ideal) hr hu hz n y g β
      = Spec.bnrelu y (Net.cmean (Ideal.ofBits .f32 n) y) (Net.cvarR (Ideal.ofBits .f32 n) y) (Net.row g) (Net.row β) := by
  funext i
  unfold bnE
  rw [maximumf_apply, addf_apply, mulf_apply, mulf_apply, devE_apply hr hu n hR, upE_apply, upE_apply, upE_apply, hrsqrt_apply,
    addf_apply, varE_apply hr hu n hR, epsV_apply, broadcastInDim_scalar_apply]
  unfold zeroC
  rw [constant_apply, Ideal.ofBits_zero_f32]
  try rfl

end BN

theorem bnEdge_eq (y : Spec.Mat 1600000 64) (g β : Net.Vec1 64) :
    bnEdge (F := Ideal) y g β = Spec.bnrelu y (Net.cmean Net.DE y) (Net.cvarR Net.DE y) (Net.row g) (Net.row β) :=
  bnE_eq _ _ _ _ (by decide) y g β

end Cert.ReferenceIdeal.REdge

end
-- ==== Proof.REdge.lean ====
import proofs.«401100_j23158463660136_1_alg».proof.Proof.REdgeOps
import proofs.«401100_j23158463660136_1_alg».proof.Proof.RArgs

noncomputable section

namespace Cert.ReferenceIdeal.REdge

open Cert.ReferenceIdeal Cert.ReferenceIdeal.Gen Idealize.ShloMosaic Idealize.ShloMosaic.TcCoe Idealize.SL.Sem Idealize.ShloMosaic.StableHlo Idealize.ShloMosaic.ValueIdx

variable (m : (ℓ : Loc nD τ sig) → Buf (Elt Ideal) ℓ) (c : Dev nD)

def gD (ei : IVec S2x1600000 32) (x : Spec.Mat 100000 64) : Spec.Mat 1600000 64 := gatherAt (F := Ideal) (dstWords ei) x

def gS (ei : IVec S2x1600000 32) (x : Spec.Mat 100000 64) : Spec.Mat 1600000 64 := gatherAt (F := Ideal) (srcWords ei) x

theorem opsE_after (W : Valuation τ sig (Elt Ideal)) :
    after RefSplit.opsE W = after E7 (after E6 (after E5 (after E4 (after E3 (after E2 (after E1 W)))))) := by
  unfold RefSplit.opsE
  rw [StableHlo.after_append, StableHlo.after_append, StableHlo.after_append, StableHlo.after_append, StableHlo.after_append, StableHlo.after_append]

theorem h_eq : after RefSplit.opsE (launchContents m c) (Proc.devRef .tc main_v4) = Net.h (RArgs.argsOf m c) := by
  unfold RefSplit.opsE
  rw [StableHlo.after_append, keep (E2 ++ (E3 ++ (E4 ++ (E5 ++ (E6 ++ E7))))) _ main_v4 (by decide), E1_v4, lin_eq, cat_eq (C := 4) rfl]
  all_goals rfl

theorem dst_eq : after RefSplit.opsE (launchContents m c) (Proc.devRef .tc main_v8) = dstWords (RArgs.edges m c) := by
  unfold RefSplit.opsE
  rw [StableHlo.after_append, StableHlo.after_append, keep (E3 ++ (E4 ++ (E5 ++ (E6 ++ E7)))) _ main_v8 (by decide), E2_v8, keep E1 _ main_arg2 (by decide)]
  rfl

-- The messages: each stretch's function is the network's stage, and no stretch writes an argument a later one reads.
theorem msg_eq : after RefSplit.opsE (launchContents m c) (Proc.devRef .tc main_v83)
    = Net.msg Net.cvarR (gD (RArgs.edges m c)) (gS (RArgs.edges m c)) (RArgs.argsOf m c) := by
  rw [opsE_after, E7_v83, E6_v57, E5_v53, E4_v27, E3_v15, E3_v22, E2_v8, E2_v6, keep E2 _ main_v4 (by decide), E1_v4,
    keep E1 _ main_arg2 (by decide), argsAt_after E6 _ (by decide), argsAt_after E5 _ (by decide), argsAt_after E4 _ (by decide),
    argsAt_after E3 _ (by decide), argsAt_after E2 _ (by decide), argsAt_after E1 _ (by decide),
    bnEdge_eq, lin_eq, bnEdge_eq, lin_eq, cat_eq (C := 128) rfl, lin_eq, cat_eq (C := 4) rfl]
  all_goals rfl

end Cert.ReferenceIdeal.REdge

end
-- ==== Proof.RNode.lean ====
import proofs.«401100_j23158463660136_1_alg».proof.Proof.REdgeOps
import proofs.«401100_j23158463660136_1_alg».proof.Proof.RArgs

noncomputable section

namespace Cert.ReferenceIdeal.RNode

open Cert.ReferenceIdeal Cert.ReferenceIdeal.Gen Idealize.ShloMosaic Idealize.ShloMosaic.TcCoe Idealize.SL.Sem Idealize.ShloMosaic.StableHlo Idealize.ShloMosaic.ValueIdx
open Cert.ReferenceIdeal.RefSplit Cert.ReferenceIdeal.REdge Cert.Spec Cert.Net

abbrev bnNode (y : Mat 100000 64) (g β : Vec1 64) : Mat 100000 64 :=
  bnE (F := Ideal) reducesTo_S100000x64_S64_d0 bcast_S1x64_S100000x64_0_1 bcast_S_S100000x64 0x47C35000#32 y g β

theorem bnNode_eq (y : Mat 100000 64) (g β : Vec1 64) :
    bnNode y g β = bnrelu y (cmean DN y) (cvarR DN y) (row g) (row β) :=
  bnE_eq _ _ _ _ (by decide) y g β

-- The sum of per-edge rows into their destination nodes: a scatter-add into a zero array at the row words dw.
def seg (dw : IVec S1600000 32) : Mat 1600000 64 → Mat 100000 64 := fun u =>
  Host.scatterAdd (F := Ideal) scatter_S100000x64_S1600000x1_S1600000x64_1_0_0_1
    (broadcastInDim S100000x64 ![] bcast_S_S100000x64 (constant (F := Ideal) S_ .f32 0x00000000#32))
    (broadcastInDim S1600000x1 ![0] bcast_S1600000_S1600000x1_0 dw) u

variable (V : Valuation τ sig (Elt Ideal))

theorem A_run : after (opsA (F := Ideal)) V (Proc.devRef .tc main_v91)
    = linH (F := Ideal) dot_S100000x128_S128x64_S100000x64_1_0_0_1_n_n bcast_S64_S1x64_1 bcast_S1x64_S100000x64_0_1
        (catH concatenates_S100000x64_S100000x64_S100000x128_d1 (V (Proc.devRef .tc main_v4)) (seg (V (Proc.devRef .tc main_v8)) (V (Proc.devRef .tc main_v83))))
        (argsAt V).uW1 (argsAt V).ub1 := by
  after_results
  rfl

theorem B_run : after (opsB (F := Ideal)) V (Proc.devRef .tc main_v117) = bnNode (V (Proc.devRef .tc main_v91)) (argsAt V).ug1 (argsAt V).uB1 := by
  after_results_simp
  rfl

theorem C_run : after (opsC (F := Ideal)) V (Proc.devRef .tc main_v121)
    = linH (F := Ideal) dot_S100000x64_S64x64_S100000x64_1_0_0_1_n_n bcast_S64_S1x64_1 bcast_S1x64_S100000x64_0_1 (V (Proc.devRef .tc main_v117)) (argsAt V).uW2 (argsAt V).ub2 := by
  after_results_simp
  rfl

theorem D_run : after (opsD (F := Ideal)) V (Proc.devRef .tc main_v147) = bnNode (V (Proc.devRef .tc main_v121)) (argsAt V).ug2 (argsAt V).uB2 := by
  after_results_simp
  rfl

theorem E_run : after (RNode.opsE (F := Ideal)) V (Proc.devRef .tc main_v152)
    = shapeCast S100000 (linH (F := Ideal) dot_S100000x64_S64x1_S100000x1_1_0_0_1_n_n bcast_S1_S1x1_1 bcast_S1x1_S100000x1_0_1 (V (Proc.devRef .tc main_v147)) (argsAt V).W_pred (argsAt V).b_pred) shapeCasts_S100000x1_S100000 := by
  after_results_simp
  rfl

-- A one-column array read as a vector over its rows.
theorem reshape_eq (o : Mat 100000 1) (i : S100000.Idx) : shapeCast S100000 o shapeCasts_S100000x1_S100000 i = o (ix2 (i 0) 0) :=
  shapeCast_apply o shapeCasts_S100000x1_S100000 i (ix2 (i 0) 0)
    (by rewrite [Shape.rowMajor_val_two, Shape.rowMajor_val_one]; show (i 0).val * 1 + 0 = (i 0).val; omega)

-- The node side computes the node side of the network from whatever valuation it starts.
theorem result_eq (W : Valuation τ sig (Elt Ideal)) :
    after (opsN (F := Ideal)) W (Proc.devRef .tc main_v152) = tResult cvarR (seg (W (Proc.devRef .tc main_v8))) (argsAt W) (W (Proc.devRef .tc main_v4)) (W (Proc.devRef .tc main_v83)) := by
  unfold RefSplit.opsN
  rw [StableHlo.after_append, StableHlo.after_append, StableHlo.after_append, StableHlo.after_append, E_run, D_run, C_run, B_run, A_run]
  rw [argsAt_after opsD _ (by decide), argsAt_after opsC _ (by decide), argsAt_after opsB _ (by decide), argsAt_after opsA _ (by decide),
    lin_eq, bnNode_eq, lin_eq, bnNode_eq, lin_eq, cat_eq (C := 128) rfl]
  · funext i
    rw [reshape_eq]
    rfl
  all_goals rfl

end Cert.ReferenceIdeal.RNode

end
-- ==== Proof.Glue.lean ====
import proofs.«401100_j23158463660136_1_alg».proof.Proof.Assemble
import proofs.«401100_j23158463660136_1_alg».proof.Proof.GlueMath
import proofs.«401100_j23158463660136_1_alg».proof.Proof.KEdge
import proofs.«401100_j23158463660136_1_alg».proof.Proof.KNode
import proofs.«401100_j23158463660136_1_alg».proof.Proof.REdge
import proofs.«401100_j23158463660136_1_alg».proof.Proof.RNode

noncomputable section

namespace Cert.Glue

open Idealize.ShloMosaic Idealize.ShloMosaic.TcCoe Idealize.SL.Sem Cert.Spec Cert.Net

theorem gD_real (ei : IVec Cert.KernelIdeal.S2x1600000 32) (x : Mat 100000 64) (hx : IsReal x) :
    IsReal (Cert.KernelIdeal.KEdge.gD ei x) := by
  unfold Cert.KernelIdeal.KEdge.gD
  exact isReal_gather _ _ _ hx

theorem gS_real (ei : IVec Cert.KernelIdeal.S2x1600000 32) (x : Mat 100000 64) (hx : IsReal x) :
    IsReal (Cert.KernelIdeal.KEdge.gS ei x) := by
  unfold Cert.KernelIdeal.KEdge.gS
  exact isReal_gather _ _ _ hx

theorem seg_real (d : IVec Cert.KernelIdeal.S1600000 32) (x : Mat 1600000 64) (hx : IsReal x) :
    IsReal (Cert.KernelIdeal.KNode.seg d x) := by
  unfold Cert.KernelIdeal.KNode.seg
  refine isReal_scatterAdd _ _ _ _ (fun i => ⟨0, ?_⟩) hx
  show Ideal.ofBits .f32 0x00000000#32 = ((0 : ℝ) : EReal)
  rw [Ideal.ofBits_zero_f32]; rfl

-- No operation of the reference's edge side writes an argument buffer.
theorem args_eq (m : (ℓ : Loc Cert.ReferenceIdeal.nD Cert.ReferenceIdeal.τ Cert.ReferenceIdeal.sig) → Buf (Elt Ideal) ℓ)
    (c : Dev Cert.ReferenceIdeal.nD) :
    Cert.ReferenceIdeal.REdge.argsAt (StableHlo.after (Cert.ReferenceIdeal.RefSplit.opsE (F := Ideal)) (StableHlo.launchContents m c))
      = Cert.ReferenceIdeal.RArgs.argsOf m c :=
  (Cert.ReferenceIdeal.REdge.argsAt_after _ _ (by decide)).trans rfl

theorem algebraic_of_msg
    (hKm : ∀ (m : (ℓ : Loc Cert.KernelIdeal.nD Cert.KernelIdeal.τ Cert.KernelIdeal.sig) → Buf (Elt Ideal) ℓ)
      (ρ : Dev Cert.KernelIdeal.nD → PrngReg) (c : Dev Cert.KernelIdeal.nD),
      Cert.Assemble.InRange (Cert.KernelIdeal.KArgs.edges m c) →
      Cert.KernelIdeal.Gen.W11 (F := Ideal) m ρ c (Proc.devRef .tc Cert.KernelIdeal.main_v38)
        = Net.msg cvarK (Cert.KernelIdeal.KEdge.gD (Cert.KernelIdeal.KArgs.edges m c))
            (Cert.KernelIdeal.KEdge.gS (Cert.KernelIdeal.KArgs.edges m c)) (Cert.KernelIdeal.KArgs.argsOf m c)) :
    Cert.algebraic_KernelIdeal_ReferenceIdeal :=
  Cert.Assemble.algebraic_of Cert.KernelIdeal.KEdge.dstWords Cert.KernelIdeal.KEdge.gD Cert.KernelIdeal.KEdge.gS
    Cert.KernelIdeal.KNode.seg Cert.ReferenceIdeal.REdge.argsAt gD_real gS_real seg_real
    Cert.KernelIdeal.KEdge.h_eq Cert.KernelIdeal.KEdge.dst_eq hKm Cert.KernelIdeal.KNode.result_eq
    Cert.ReferenceIdeal.REdge.h_eq Cert.ReferenceIdeal.REdge.dst_eq Cert.ReferenceIdeal.REdge.msg_eq args_eq
    Cert.ReferenceIdeal.RNode.result_eq

end Cert.Glue

end
-- ==== Proof.Reg1.lean ====
import proofs.«401100_j23158463660136_1_alg».proof.Proof.Gen.KernelIdeal.Frame
import proofs.«401100_j23158463660136_1_alg».proof.Proof.KBlocks
import Idealize.ShloMosaic.Lib.Tactic

noncomputable section

namespace Cert.KernelIdeal.Reg1

open Idealize.ShloMosaic Idealize.ShloMosaic.TcCoe Idealize.ShloMosaic.Tactic Idealize.SL.Sem Cert.KernelIdeal Cert.KernelIdeal.Gen Cert.Spec Cert.KBlocks
open Idealize.ShloMosaic.ValueIdx

section Pieces
variable {F : FTy → Type} [FloatOps F] (c : Dev nD) (i : grid1.Coords) (a1 : Memref sig .tc .vmem S20000x128 .f32) (h1 : a1.IsWhole) (a2 : Memref sig .tc .vmem S128x64 .f32) (h2 : a2.IsWhole) (a3 : Memref sig .tc .vmem S1x64 .f32) (h3 : a3.IsWhole) (a4 : Memref sig .tc .vmem S20000x64 .f32) (h4 : a4.IsWhole) (a5 : Memref sig .tc .vmem S1x64 .f32) (h5 : a5.IsWhole) (a6 : Memref sig .tc .vmem S1x64 .f32) (h6 : a6.IsWhole) (x0 : Vec F S20000x128 .f32) (x1 : Vec F S128x64 .f32) (x2 : Vec F S1x64 .f32)

theorem out_A (hc : cond1_0 i) :
    (out1_A_3 c i a1 h1 a2 h2 a3 h3 a4 h4 a5 h5 a6 h6 hc x0 x1 x2, out1_A_4 c i a1 h1 a2 h2 a3 h3 a4 h4 a5 h5 a6 h6 hc x0 x1 x2, out1_A_5 c i a1 h1 a2 h2 a3 h3 a4 h4 a5 h5 a6 h6 hc x0 x1 x2) = step dot_S20000x128_S128x64_S20000x64_1_0_0_1_n_n shapeCasts_S20000x128_S20000x128 x0 x1 x2 (zrow, zrow) := by
  unfold out1_A_3 out1_A_4 out1_A_5
  rw [View.read_writes_eq_canon _ _ _ fun y => cover1_A_3 (y := y) .., View.read_writes_eq_canon _ _ _ fun y => cover1_A_4 (y := y) ..,
    View.read_writes_eq_canon _ _ _ fun y => cover1_A_5 (y := y) ..]
  unfold kernelRun1_A
  dsimp only
  sl_unfold_words
  simp only [View.canon_unit_zero (S := S20000x64) hz, View.canon_cons_unit_zero (S := S1x64) hz, View.readCov_unit_zero (S := S1x64) _ hz, View.readAt_eq_ld, h1.read_unread, h2.read_unread, h3.read_unread, View.ld_unit_zero (S := S20000x128) hz, View.ld_unit_zero (S := S128x64) hz, View.ld_unit_zero (S := S1x64) hz]
  rfl

theorem out_B (hc : ¬cond1_0 i) (xo4 xo5 : Vec F S1x64 .f32) :
    (out1_B_3 c i a1 h1 a2 h2 a3 h3 a4 h4 a5 h5 a6 h6 hc x0 x1 x2 xo4 xo5, out1_B_4 c i a1 h1 a2 h2 a3 h3 a4 h4 a5 h5 a6 h6 hc x0 x1 x2 xo4 xo5, out1_B_5 c i a1 h1 a2 h2 a3 h3 a4 h4 a5 h5 a6 h6 hc x0 x1 x2 xo4 xo5) = step dot_S20000x128_S128x64_S20000x64_1_0_0_1_n_n shapeCasts_S20000x128_S20000x128 x0 x1 x2 (xo4, xo5) := by
  unfold out1_B_3 out1_B_4 out1_B_5
  rw [View.read_writes_eq_canon _ _ _ fun y => cover1_B_3 (y := y) .., View.read_writes_eq_canon _ _ _ fun y => cover1_B_4 (y := y) ..,
    View.read_writes_eq_canon _ _ _ fun y => cover1_B_5 (y := y) ..]
  unfold kernelRun1_B
  dsimp only
  sl_unfold_words
  simp only [View.canon_unit_zero (S := S20000x64) hz, View.canon_unit_zero (S := S1x64) hz, View.readAt_eq_ld, h1.read_unread, h2.read_unread, h3.read_unread, h5.read_unread, h6.read_unread, View.ld_unit_zero (S := S20000x128) hz, View.ld_unit_zero (S := S128x64) hz, View.ld_unit_zero (S := S1x64) hz]
  rfl

end Pieces

variable (V : (c : Dev nD) → (b : Ref sig .tc) → Buf (Elt Ideal) ((c : Thread nD τ).loc b))

abbrev Y (c : Dev nD) : Mat 1600000 64 := lin (V c (Pipeline.arrRef spec1 0) : Mat 1600000 128) (V c (Pipeline.arrRef spec1 1) : Mat 128 64) (V c (Pipeline.arrRef spec1 2) : Mat 1 64)

theorem t_lt (t : Fin cfg1.N) : t.val < 80 := lt_of_lt_of_eq t.isLt N_1

theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0 :=
  (by decide +kernel : ∀ t : Fin grid1.N, _)

theorem xblk_apply (c : Dev nD) (t : Fin cfg1.N) (p : Fin 20000) (k : Fin 128) :
    (iblk1 V c 0 t : Vec Ideal S20000x128 .f32) (ix2 p k)
      = (V c (Pipeline.arrRef spec1 0) : Mat 1600000 128) (ix2 ⟨20000 * t.val + p, by have := t_lt t; omega⟩ k) := by
  obtain ⟨e0, e1, -⟩ := idx_facts t
  exact congrArg (V c (Pipeline.arrRef spec1 0)) (Shape.idx_ext₂ (by show win1_0.index t (0 : Fin 2) * 20000 + 1 * p.val = 20000 * t.val + p.val; omega)
    (by show win1_0.index t (1 : Fin 2) * 128 + 1 * k.val = k.val; omega))

theorem wblk_apply (c : Dev nD) (t : Fin cfg1.N) (k : Fin 128) (q : Fin 64) :
    (iblk1 V c 1 t : Vec Ideal S128x64 .f32) (ix2 k q) = (V c (Pipeline.arrRef spec1 1) : Mat 128 64) (ix2 k q) := by
  obtain ⟨-, -, e0, e1, -⟩ := idx_facts t
  exact congrArg (V c (Pipeline.arrRef spec1 1)) (Shape.idx_ext₂ (by show win1_1.index t (0 : Fin 2) * 128 + 1 * k.val = k.val; omega)
    (by show win1_1.index t (1 : Fin 2) * 64 + 1 * q.val = q.val; omega))

theorem bblk_apply (c : Dev nD) (t : Fin cfg1.N) (q : Fin 64) :
    (iblk1 V c 2 t : Vec Ideal S1x64 .f32) (ix2 0 q) = (V c (Pipeline.arrRef spec1 2) : Mat 1 64) (ix2 0 q) := by
  obtain ⟨-, -, -, -, e0, e1, -⟩ := idx_facts t
  exact congrArg (V c (Pipeline.arrRef spec1 2)) (Shape.idx_ext₂ (by show win1_2.index t (0 : Fin 2) * 1 + 1 * 0 = 0; omega)
    (by show win1_2.index t (1 : Fin 2) * 64 + 1 * q.val = q.val; omega))

theorem outs0 (c : Dev nD) (h : 0 < cfg1.N) :
    outsAt1 V c 0 h = step dot_S20000x128_S128x64_S20000x64_1_0_0_1_n_n shapeCasts_S20000x128_S20000x128 (iblk1 V c 0 ⟨0, h⟩) (iblk1 V c 1 ⟨0, h⟩) (iblk1 V c 2 ⟨0, h⟩) (zrow, zrow) :=
  (outsAt1_A V c ⟨0, h⟩ rfl).trans (out_A ..)

theorem outsS (c : Dev nD) (n : ℕ) (h : n + 1 < cfg1.N) :
    outsAt1 V c (n + 1) h = step dot_S20000x128_S128x64_S20000x64_1_0_0_1_n_n shapeCasts_S20000x128_S20000x128 (iblk1 V c 0 ⟨n + 1, h⟩) (iblk1 V c 1 ⟨n + 1, h⟩) (iblk1 V c 2 ⟨n + 1, h⟩)
      (outsAt1 V c n (Nat.lt_of_succ_lt h)).2 :=
  (outsAt1_B V c ⟨n + 1, h⟩ (by have : n + 1 < 80 := t_lt ⟨n + 1, h⟩; show ¬(n + 1) % 80 = 0; omega)).trans (out_B ..)

theorem bufs (c : Dev nD) (t : Fin cfg1.N) :
    (∀ (p : Fin 20000) (q : Fin 64), (outsAt1 V c t.val t.isLt).1 (ix2 p q) = Y V c (ix2 ⟨20000 * t.val + p, by have := t_lt t; omega⟩ q))
    ∧ (t.val + 1 = cfg1.N → ∀ j : S1x64.Idx, (outsAt1 V c t.val t.isLt).2.1 j = csum (Y V c) j ∧ (outsAt1 V c t.val t.isLt).2.2 j = csumsq (Y V c) j) :=
  run rfl (congrArg (20000 * ·) N_1) (fun n h => xblk_apply V c ⟨n, h⟩) (fun n h => wblk_apply V c ⟨n, h⟩) (fun n h => bblk_apply V c ⟨n, h⟩)
    (outs0 V c) (outsS V c) t.val t.isLt

theorem flushed3_eq (c : Dev nD) (t : Fin cfg1.N) :
    (dat1 (F := Ideal) V c).flushed 3 t = ((cfg1.win 3).blk t).view.read (Elt Ideal) (Y V c) := by
  show (cfg1.win 3).cut (grid1.coords t) ((dat1 V c).after 3 t) = _
  rw [after1_3]
  funext y
  obtain ⟨-, -, -, -, -, -, e0, e1, -⟩ := idx_facts t
  exact ((congrArg _ (eq_ix2 y)).trans ((bufs V c t).1 (y 0) (y 1))).trans (congrArg (Y V c) (Shape.idx_ext₂
    (by show 20000 * t.val + (y 0).val = win1_3.index t (0 : Fin 2) * 20000 + 1 * (y 0).val; omega)
    (by show (y 1).val = win1_3.index t (1 : Fin 2) * 64 + 1 * (y 1).val; omega)))

theorem cover3 (i : S1600000x64.Idx) : ∃ t : Fin cfg1.N, (cfg1.win 3).flush t = true ∧ i ∈ ((cfg1.win 3).blk t).view.set := by
  have hi0 : (i 0).val < 1600000 := (i 0).isLt
  have hi1 : (i 1).val < 64 := (i 1).isLt
  obtain ⟨t, ht⟩ : ∃ t : Fin cfg1.N, t.val = (i 0).val / 20000 := ⟨⟨_, by rw [show cfg1.N = 80 from N_1]; omega⟩, rfl⟩
  obtain ⟨-, -, -, -, -, -, e0, e1, -⟩ := idx_facts t
  refine ⟨t, flush1_3 t, ?_⟩
  show i ∈ ((View.whole main_v11_0).slice (win1_3.rect t)).set
  rw [View.set_slice_whole, Rect.mem_set_unit]
  exact Fin.forall_fin_two.mpr ⟨by show win1_3.index t (0 : Fin 2) * 20000 ≤ (i 0).val ∧ (i 0).val < win1_3.index t (0 : Fin 2) * 20000 + 20000; omega,
    by show win1_3.index t (1 : Fin 2) * 64 ≤ (i 1).val ∧ (i 1).val < win1_3.index t (1 : Fin 2) * 64 + 64; omega⟩

theorem flushed4_eq (c : Dev nD) (t : Fin cfg1.N) (hf : (cfg1.win 4).flush t = true) :
    (dat1 (F := Ideal) V c).flushed 4 t = ((cfg1.win 4).blk t).view.read (Elt Ideal) (csum (Y V c)) := by
  have hl := (flush1_4 t).mp hf
  have ht := t_lt t
  suffices h : ∀ G : Mat 1 64, (∀ j, (outsAt1 V c t.val t.isLt).2.1 j = G j) →
      (dat1 (F := Ideal) V c).flushed 4 t = ((cfg1.win 4).blk t).view.read (Elt Ideal) G from
    h _ fun j => ((bufs V c t).2 (by have : cfg1.N = 80 := N_1; omega) j).1
  intro G hG
  show (cfg1.win 4).cut (grid1.coords t) ((dat1 V c).after 4 t) = _
  rw [after1_4]
  funext y
  obtain ⟨-, -, -, -, -, -, -, -, e0, e1, -⟩ := idx_facts t
  exact ((congrArg _ (eq_ix2 y)).trans (hG _)).trans (congrArg G (Shape.idx_ext₂
    (by show (y 0).val = win1_4.index t (0 : Fin 2) * 1 + 1 * (y 0).val; omega)
    (by show (y 1).val = win1_4.index t (1 : Fin 2) * 64 + 1 * (y 1).val; omega)))

theorem cover4 (i : S1x64.Idx) : ∃ t : Fin cfg1.N, (cfg1.win 4).flush t = true ∧ i ∈ ((cfg1.win 4).blk t).view.set := by
  have hi0 : (i 0).val < 1 := (i 0).isLt
  have hi1 : (i 1).val < 64 := (i 1).isLt
  obtain ⟨t, ht⟩ : ∃ t : Fin cfg1.N, t.val = 79 := ⟨⟨79, by rw [show cfg1.N = 80 from N_1]; omega⟩, rfl⟩
  obtain ⟨-, -, -, -, -, -, -, -, e0, e1, -⟩ := idx_facts t
  refine ⟨t, (flush1_4 t).mpr (by omega), ?_⟩
  show i ∈ ((View.whole main_v11_1).slice (win1_4.rect t)).set
  rw [View.set_slice_whole, Rect.mem_set_unit]
  exact Fin.forall_fin_two.mpr ⟨by show win1_4.index t (0 : Fin 2) * 1 ≤ (i 0).val ∧ (i 0).val < win1_4.index t (0 : Fin 2) * 1 + 1; omega,
    by show win1_4.index t (1 : Fin 2) * 64 ≤ (i 1).val ∧ (i 1).val < win1_4.index t (1 : Fin 2) * 64 + 64; omega⟩

theorem flushed5_eq (c : Dev nD) (t : Fin cfg1.N) (hf : (cfg1.win 5).flush t = true) :
    (dat1 (F := Ideal) V c).flushed 5 t = ((cfg1.win 5).blk t).view.read (Elt Ideal) (csumsq (Y V c)) := by
  have hl := (flush1_5 t).mp hf
  have ht := t_lt t
  suffices h : ∀ G : Mat 1 64, (∀ j, (outsAt1 V c t.val t.isLt).2.2 j = G j) →
      (dat1 (F := Ideal) V c).flushed 5 t = ((cfg1.win 5).blk t).view.read (Elt Ideal) G from
    h _ fun j => ((bufs V c t).2 (by have : cfg1.N = 80 := N_1; omega) j).2
  intro G hG
  show (cfg1.win 5).cut (grid1.coords t) ((dat1 V c).after 5 t) = _
  rw [after1_5]
  funext y
  obtain ⟨-, -, -, -, -, -, -, -, -, -, e0, e1⟩ := idx_facts t
  exact ((congrArg _ (eq_ix2 y)).trans (hG _)).trans (congrArg G (Shape.idx_ext₂
    (by show (y 0).val = win1_5.index t (0 : Fin 2) * 1 + 1 * (y 0).val; omega)
    (by show (y 1).val = win1_5.index t (1 : Fin 2) * 64 + 1 * (y 1).val; omega)))

theorem cover5 (i : S1x64.Idx) : ∃ t : Fin cfg1.N, (cfg1.win 5).flush t = true ∧ i ∈ ((cfg1.win 5).blk t).view.set := by
  have hi0 : (i 0).val < 1 := (i 0).isLt
  have hi1 : (i 1).val < 64 := (i 1).isLt
  obtain ⟨t, ht⟩ : ∃ t : Fin cfg1.N, t.val = 79 := ⟨⟨79, by rw [show cfg1.N = 80 from N_1]; omega⟩, rfl⟩
  obtain ⟨-, -, -, -, -, -, -, -, -, -, e0, e1⟩ := idx_facts t
  refine ⟨t, (flush1_5 t).mpr (by omega), ?_⟩
  show i ∈ ((View.whole main_v11_2).slice (win1_5.rect t)).set
  rw [View.set_slice_whole, Rect.mem_set_unit]
  exact Fin.forall_fin_two.mpr ⟨by show win1_5.index t (0 : Fin 2) * 1 ≤ (i 0).val ∧ (i 0).val < win1_5.index t (0 : Fin 2) * 1 + 1; omega,
    by show win1_5.index t (1 : Fin 2) * 64 ≤ (i 1).val ∧ (i 1).val < win1_5.index t (1 : Fin 2) * 64 + 64; omega⟩

theorem arr3 (c : Dev nD) :
    ((dat1 (F := Ideal) V c).arrAt 3 cfg1.N : Mat 1600000 64) = lin (V c (Pipeline.arrRef spec1 0) : Mat 1600000 128) (V c (Pipeline.arrRef spec1 1) : Mat 128 64) (V c (Pipeline.arrRef spec1 2) : Mat 1 64) :=
  (dat1 (F := Ideal) V c).arrAt_eq_of_cover 3 (Y V c) (fun t _ => flushed3_eq V c t) cover3

theorem arr4 (c : Dev nD) :
    ((dat1 (F := Ideal) V c).arrAt 4 cfg1.N : Mat 1 64) = csum (lin (V c (Pipeline.arrRef spec1 0) : Mat 1600000 128) (V c (Pipeline.arrRef spec1 1) : Mat 128 64) (V c (Pipeline.arrRef spec1 2) : Mat 1 64)) :=
  (dat1 (F := Ideal) V c).arrAt_eq_of_cover 4 (csum (Y V c)) (flushed4_eq V c) cover4

theorem arr5 (c : Dev nD) :
    ((dat1 (F := Ideal) V c).arrAt 5 cfg1.N : Mat 1 64) = csumsq (lin (V c (Pipeline.arrRef spec1 0) : Mat 1600000 128) (V c (Pipeline.arrRef spec1 1) : Mat 128 64) (V c (Pipeline.arrRef spec1 2) : Mat 1 64)) :=
  (dat1 (F := Ideal) V c).arrAt_eq_of_cover 5 (csumsq (Y V c)) (flushed5_eq V c) cover5

end Cert.KernelIdeal.Reg1

end
-- ==== Proof.Reg2.lean ====
import proofs.«401100_j23158463660136_1_alg».proof.Proof.Gen.KernelIdeal.Frame
import proofs.«401100_j23158463660136_1_alg».proof.Proof.KBnBlocks
import Idealize.ShloMosaic.Lib.Tactic

noncomputable section

namespace Cert.KernelIdeal.Reg2

open Idealize.ShloMosaic Idealize.ShloMosaic.TcCoe Idealize.SL.Sem Cert.KernelIdeal Cert.KernelIdeal.Gen Cert.Spec Cert.KBlocks Cert.KBnBlocks
open Idealize.ShloMosaic.ValueIdx

section Pieces
variable {F : FTy → Type} [FloatOps F] {c : Dev nD} {i : grid2.Coords} {a1 : Memref sig .tc .vmem S20000x64 .f32} {h1 : a1.IsWhole} {a2 : Memref sig .tc .vmem S1x64 .f32} {h2 : a2.IsWhole} {a3 : Memref sig .tc .vmem S1x64 .f32} {h3 : a3.IsWhole} {a4 : Memref sig .tc .vmem S1x64 .f32} {h4 : a4.IsWhole} {a5 : Memref sig .tc .vmem S1x64 .f32} {h5 : a5.IsWhole} {a6 : Memref sig .tc .vmem S64x64 .f32} {h6 : a6.IsWhole} {a7 : Memref sig .tc .vmem S1x64 .f32} {h7 : a7.IsWhole} {a8 : Memref sig .tc .vmem S20000x64 .f32} {h8 : a8.IsWhole} {a9 : Memref sig .tc .vmem S1x64 .f32} {h9 : a9.IsWhole} {a10 : Memref sig .tc .vmem S1x64 .f32} {h10 : a10.IsWhole} {hA : cond2_0 i} {hB : ¬cond2_0 i}
  {x0 : Vec F S20000x64 .f32} {x1 x2 x3 x4 : Vec F S1x64 .f32} {x5 : Vec F S64x64 .f32} {x6 xo8 xo9 : Vec F S1x64 .f32}

theorem pieceA7 : out2_A_7 c i a1 h1 a2 h2 a3 h3 a4 h4 a5 h5 a6 h6 a7 h7 a8 h8 a9 h9 a10 h10 hA x0 x1 x2 x3 x4 x5 x6 = k2_pay5 x0 x2 x1 x3 x4 x5 x6 := by
  unfold out2_A_7
  rw [View.read_writes_eq_canon _ _ _ (cover2_A_7 c i a1 h1 a2 h2 a3 h3 a4 h4 a5 h5 a6 h6 a7 h7 a8 h8 a9 h9 a10 h10 hA x0 x1 x2 x3 x4 x5 x6)]
  unfold kernelRun2_A
  dsimp only
  sl_unfold_words
  rw [View.canon_unit_zero hz]
  simp only [View.readAt_eq_ld, h1.read_unread, h2.read_unread, h3.read_unread, h4.read_unread, h5.read_unread, h6.read_unread, h7.read_unread, h9.read_unread, h10.read_unread, View.ld_unit_zero (S := S20000x64) hz, View.ld_unit_zero (S := S1x64) hz, View.ld_unit_zero (S := S64x64) hz, View.readCov_unit_zero (S := S1x64) _ hz]

theorem pieceA8 : out2_A_8 c i a1 h1 a2 h2 a3 h3 a4 h4 a5 h5 a6 h6 a7 h7 a8 h8 a9 h9 a10 h10 hA x0 x1 x2 x3 x4 x5 x6 = k2_pay1 (k2_pay5 x0 x2 x1 x3 x4 x5 x6) k2_pay3 := by
  unfold out2_A_8
  rw [View.read_writes_eq_canon _ _ _ (cover2_A_8 c i a1 h1 a2 h2 a3 h3 a4 h4 a5 h5 a6 h6 a7 h7 a8 h8 a9 h9 a10 h10 hA x0 x1 x2 x3 x4 x5 x6)]
  unfold kernelRun2_A
  dsimp only
  sl_unfold_words
  rw [View.canon_cons_unit_zero (S := S1x64) hz]
  simp only [View.readAt_eq_ld, h1.read_unread, h2.read_unread, h3.read_unread, h4.read_unread, h5.read_unread, h6.read_unread, h7.read_unread, h9.read_unread, h10.read_unread, View.ld_unit_zero (S := S20000x64) hz, View.ld_unit_zero (S := S1x64) hz, View.ld_unit_zero (S := S64x64) hz, View.readCov_unit_zero (S := S1x64) _ hz]

theorem pieceA9 : out2_A_9 c i a1 h1 a2 h2 a3 h3 a4 h4 a5 h5 a6 h6 a7 h7 a8 h8 a9 h9 a10 h10 hA x0 x1 x2 x3 x4 x5 x6 = k2_pay2 (k2_pay5 x0 x2 x1 x3 x4 x5 x6) k2_pay4 := by
  unfold out2_A_9
  rw [View.read_writes_eq_canon _ _ _ (cover2_A_9 c i a1 h1 a2 h2 a3 h3 a4 h4 a5 h5 a6 h6 a7 h7 a8 h8 a9 h9 a10 h10 hA x0 x1 x2 x3 x4 x5 x6)]
  unfold kernelRun2_A
  dsimp only
  sl_unfold_words
  rw [View.canon_cons_unit_zero (S := S1x64) hz]
  simp only [View.readAt_eq_ld, h1.read_unread, h2.read_unread, h3.read_unread, h4.read_unread, h5.read_unread, h6.read_unread, h7.read_unread, h9.read_unread, h10.read_unread, View.ld_unit_zero (S := S20000x64) hz, View.ld_unit_zero (S := S1x64) hz, View.ld_unit_zero (S := S64x64) hz, View.readCov_unit_zero (S := S1x64) _ hz]

theorem pieceB7 : out2_B_7 c i a1 h1 a2 h2 a3 h3 a4 h4 a5 h5 a6 h6 a7 h7 a8 h8 a9 h9 a10 h10 hB x0 x1 x2 x3 x4 x5 x6 xo8 xo9 = k2_pay5 x0 x2 x1 x3 x4 x5 x6 := by
  unfold out2_B_7
  rw [View.read_writes_eq_canon _ _ _ (cover2_B_7 c i a1 h1 a2 h2 a3 h3 a4 h4 a5 h5 a6 h6 a7 h7 a8 h8 a9 h9 a10 h10 hB x0 x1 x2 x3 x4 x5 x6 xo8 xo9)]
  unfold kernelRun2_B
  dsimp only
  sl_unfold_words
  rw [View.canon_unit_zero hz]
  simp only [View.readAt_eq_ld, h1.read_unread, h2.read_unread, h3.read_unread, h4.read_unread, h5.read_unread, h6.read_unread, h7.read_unread, h9.read_unread, h10.read_unread, View.ld_unit_zero (S := S20000x64) hz, View.ld_unit_zero (S := S1x64) hz, View.ld_unit_zero (S := S64x64) hz, View.readCov_unit_zero (S := S1x64) _ hz]

theorem pieceB8 : out2_B_8 c i a1 h1 a2 h2 a3 h3 a4 h4 a5 h5 a6 h6 a7 h7 a8 h8 a9 h9 a10 h10 hB x0 x1 x2 x3 x4 x5 x6 xo8 xo9 = k2_pay1 (k2_pay5 x0 x2 x1 x3 x4 x5 x6) xo8 := by
  unfold out2_B_8
  rw [View.read_writes_eq_canon _ _ _ (cover2_B_8 c i a1 h1 a2 h2 a3 h3 a4 h4 a5 h5 a6 h6 a7 h7 a8 h8 a9 h9 a10 h10 hB x0 x1 x2 x3 x4 x5 x6 xo8 xo9)]
  unfold kernelRun2_B
  dsimp only
  sl_unfold_words
  rw [View.canon_unit_zero hz]
  simp only [View.readAt_eq_ld, h1.read_unread, h2.read_unread, h3.read_unread, h4.read_unread, h5.read_unread, h6.read_unread, h7.read_unread, h9.read_unread, h10.read_unread, View.ld_unit_zero (S := S20000x64) hz, View.ld_unit_zero (S := S1x64) hz, View.ld_unit_zero (S := S64x64) hz, View.readCov_unit_zero (S := S1x64) _ hz]

theorem pieceB9 : out2_B_9 c i a1 h1 a2 h2 a3 h3 a4 h4 a5 h5 a6 h6 a7 h7 a8 h8 a9 h9 a10 h10 hB x0 x1 x2 x3 x4 x5 x6 xo8 xo9 = k2_pay2 (k2_pay5 x0 x2 x1 x3 x4 x5 x6) xo9 := by
  unfold out2_B_9
  rw [View.read_writes_eq_canon _ _ _ (cover2_B_9 c i a1 h1 a2 h2 a3 h3 a4 h4 a5 h5 a6 h6 a7 h7 a8 h8 a9 h9 a10 h10 hB x0 x1 x2 x3 x4 x5 x6 xo8 xo9)]
  unfold kernelRun2_B
  dsimp only
  sl_unfold_words
  rw [View.canon_unit_zero hz]
  simp only [View.readAt_eq_ld, h1.read_unread, h2.read_unread, h3.read_unread, h4.read_unread, h5.read_unread, h6.read_unread, h7.read_unread, h9.read_unread, h10.read_unread, View.ld_unit_zero (S := S20000x64) hz, View.ld_unit_zero (S := S1x64) hz, View.ld_unit_zero (S := S64x64) hz, View.readCov_unit_zero (S := S1x64) _ hz]

end Pieces

variable (V : (c : Dev nD) → (b : Ref sig .tc) → Buf (Elt Ideal) ((c : Thread nD τ).loc b))

-- The layer's result on point n's input blocks.
abbrev Yb (c : Dev nD) (n : ℕ) (h : n < cfg2.N) : FVec Ideal S20000x64 .f32 :=
  lin64 (bn (iblk2 V c 0 ⟨n, h⟩) (iblk2 V c 2 ⟨n, h⟩) (iblk2 V c 1 ⟨n, h⟩) (iblk2 V c 3 ⟨n, h⟩) (iblk2 V c 4 ⟨n, h⟩)) (iblk2 V c 5 ⟨n, h⟩) (iblk2 V c 6 ⟨n, h⟩)

-- At the first point both running rows start from zero;
theorem outs0 (c : Dev nD) (h : 0 < cfg2.N) :
    outsAt2 V c 0 h = (Yb V c 0 h, accum (Yb V c 0 h) zrow, accum (mulf (Yb V c 0 h) (Yb V c 0 h)) zrow) :=
  (outsAt2_A V c ⟨0, h⟩ rfl).trans (congrArg₂ Prod.mk pieceA7 (congrArg₂ Prod.mk pieceA8 pieceA9))

-- at every later point they gain that point's column sums.
theorem outsS (c : Dev nD) (n : ℕ) (h : n + 1 < cfg2.N) :
    outsAt2 V c (n + 1) h = (Yb V c (n + 1) h, accum (Yb V c (n + 1) h) (outsAt2 V c n (Nat.lt_of_succ_lt h)).2.1,
      accum (mulf (Yb V c (n + 1) h) (Yb V c (n + 1) h)) (outsAt2 V c n (Nat.lt_of_succ_lt h)).2.2) :=
  (outsAt2_B V c ⟨n + 1, h⟩ (by have := lt_of_lt_of_eq h N_2; show ¬(n + 1) % 80 = 0; omega)).trans
    (congrArg₂ Prod.mk pieceB7 (congrArg₂ Prod.mk pieceB8 pieceB9))

abbrev Y (c : Dev nD) : Mat 1600000 64 := lin (bnrelu (V c (Pipeline.arrRef spec2 0) : Mat 1600000 64) (V c (Pipeline.arrRef spec2 1) : Mat 1 64) (V c (Pipeline.arrRef spec2 2) : Mat 1 64) (V c (Pipeline.arrRef spec2 3) : Mat 1 64) (V c (Pipeline.arrRef spec2 4) : Mat 1 64)) (V c (Pipeline.arrRef spec2 5) : Mat 64 64) (V c (Pipeline.arrRef spec2 6) : Mat 1 64)

theorem idx : ∀ t : Fin cfg2.N, win2_0.index t 0 = t.val ∧ win2_7.index t 0 = t.val :=
  (by decide +kernel : ∀ t : Fin grid2.N, _)

-- Each of these blocks is its whole array.
theorem small (c : Dev nD) (t : Fin cfg2.N) :
    (iblk2 V c 1 t : Mat 1 64) = V c (Pipeline.arrRef spec2 1) ∧ (iblk2 V c 2 t : Mat 1 64) = V c (Pipeline.arrRef spec2 2)
    ∧ (iblk2 V c 3 t : Mat 1 64) = V c (Pipeline.arrRef spec2 3) ∧ (iblk2 V c 4 t : Mat 1 64) = V c (Pipeline.arrRef spec2 4)
    ∧ (iblk2 V c 5 t : Mat 64 64) = V c (Pipeline.arrRef spec2 5) ∧ (iblk2 V c 6 t : Mat 1 64) = V c (Pipeline.arrRef spec2 6) :=
  ⟨funext fun y => congrArg (V c _) (Shape.idx_ext₂ (win2_1.rect_emb_val_of_index_zero t 0 rfl y) (win2_1.rect_emb_val_of_index_zero t 1 rfl y)),
    funext fun y => congrArg (V c _) (Shape.idx_ext₂ (win2_2.rect_emb_val_of_index_zero t 0 rfl y) (win2_2.rect_emb_val_of_index_zero t 1 rfl y)),
    funext fun y => congrArg (V c _) (Shape.idx_ext₂ (win2_3.rect_emb_val_of_index_zero t 0 rfl y) (win2_3.rect_emb_val_of_index_zero t 1 rfl y)),
    funext fun y => congrArg (V c _) (Shape.idx_ext₂ (win2_4.rect_emb_val_of_index_zero t 0 rfl y) (win2_4.rect_emb_val_of_index_zero t 1 rfl y)),
    funext fun y => congrArg (V c _) (Shape.idx_ext₂ (win2_5.rect_emb_val_of_index_zero t 0 rfl y) (win2_5.rect_emb_val_of_index_zero t 1 rfl y)),
    funext fun y => congrArg (V c _) (Shape.idx_ext₂ (win2_6.rect_emb_val_of_index_zero t 0 rfl y) (win2_6.rect_emb_val_of_index_zero t 1 rfl y))⟩

-- Row r of point t's input block is row 20000 t + r of the input array.
theorem row0 (c : Dev nD) (t : Fin cfg2.N) (r : Fin 20000) (k : Fin 64) (r' : Fin 1600000) (hr : r'.val = 20000 * t.val + r.val) :
    (iblk2 V c 0 t : Mat 20000 64) (ix2 r k) = (V c (Pipeline.arrRef spec2 0) : Mat 1600000 64) (ix2 r' k) :=
  congrArg (V c _) (Shape.idx_ext₂ ((win2_0.rect_emb_val t _ 0).trans (by rw [(idx t).1]; show t.val * 20000 + r.val = r'.val; omega))
    (win2_0.rect_emb_val_of_index_zero t 1 rfl _))

-- Point n's block of the result at (r, q) is the result on the arrays at (20000 n + r, q).
theorem Yb_at (c : Dev nD) (n : ℕ) (h : n < cfg2.N) (i : S20000x64.Idx) (j : S1600000x64.Idx)
    (h0 : (j 0).val = 20000 * n + (i 0).val) (h1 : (i 1).val = (j 1).val) : Yb V c n h i = Y V c j := by
  obtain ⟨e1, e2, e3, e4, e5, e6⟩ := small V c ⟨n, h⟩
  exact (congrFun (lin64_bn _ _ _ _ _ _ _) i).trans (lin_bnrelu_congr (fun k => row0 V c ⟨n, h⟩ (i 0) k (j 0) h0) h1 e1 e2 e3 e4 e5 e6)

theorem flushed7_eq (c : Dev nD) (t : Fin cfg2.N) :
    (dat2 (F := Ideal) V c).flushed 7 t = ((cfg2.win 7).blk t).view.read (Elt Ideal) (Y V c) := by
  show (cfg2.win 7).cut (grid2.coords t) ((dat2 V c).after 7 t) = _
  rw [after2_7, show (outsAt2 V c t.val t.isLt).1 = Yb V c t.val t.isLt from by
    obtain ⟨n, h⟩ := t
    cases n with
    | zero => rw [outs0]
    | succ n => rw [outsS]]
  funext y
  refine Yb_at V c t.val t.isLt _ _ ((win2_7.rect_emb_val t y 0).trans ?_) (win2_7.rect_emb_val_of_index_zero t 1 rfl y).symm
  rw [(idx t).2]
  show t.val * 20000 + (y 0).val = 20000 * t.val + (y 0).val
  omega

theorem cover7 (i : S1600000x64.Idx) :
    ∃ t : Fin cfg2.N, (cfg2.win 7).flush t = true ∧ i ∈ ((cfg2.win 7).blk t).view.set := by
  have hi0 : (i 0).val < 1600000 := idx2_lt0 i
  have hq : (i 0).val / 20000 < cfg2.N := by rw [show cfg2.N = 80 from N_2]; omega
  refine ⟨⟨(i 0).val / 20000, hq⟩, flush2_7 _, ?_⟩
  show i ∈ ((View.whole (Pipeline.arrRef spec2 7)).slice (win2_7.rect ⟨(i 0).val / 20000, hq⟩)).set
  rw [View.set_slice_whole, Rect.mem_set_unit]
  have e : win2_7.index ⟨(i 0).val / 20000, hq⟩ 0 = (i 0).val / 20000 := (idx ⟨(i 0).val / 20000, hq⟩).2
  intro a
  match a with
  | ⟨0, _⟩ => show win2_7.index _ 0 * 20000 ≤ (i 0).val ∧ (i 0).val < win2_7.index _ 0 * 20000 + 20000; rw [e]; omega
  | ⟨1, _⟩ => exact ⟨Nat.zero_le _, idx2_lt1 i⟩

theorem arr7 (c : Dev nD) :
    ((dat2 (F := Ideal) V c).arrAt 7 cfg2.N : Mat 1600000 64) = lin (bnrelu (V c (Pipeline.arrRef spec2 0) : Mat 1600000 64) (V c (Pipeline.arrRef spec2 1) : Mat 1 64) (V c (Pipeline.arrRef spec2 2) : Mat 1 64) (V c (Pipeline.arrRef spec2 3) : Mat 1 64) (V c (Pipeline.arrRef spec2 4) : Mat 1 64)) (V c (Pipeline.arrRef spec2 5) : Mat 64 64) (V c (Pipeline.arrRef spec2 6) : Mat 1 64) :=
  (dat2 (F := Ideal) V c).arrAt_eq_of_cover 7 _ (fun t _ => flushed7_eq V c t) cover7

-- After the last point the two running rows hold the column sums and the column sums of squares of all rows.
theorem acc (c : Dev nD) (n : ℕ) (h : n < cfg2.N) (hn : n + 1 = cfg2.N) (j : S1x64.Idx) :
    (outsAt2 V c n h).2.1 j = csum (Y V c) j ∧ (outsAt2 V c n h).2.2 j = csumsq (Y V c) j := by
  rw [row_idx j]
  exact ⟨acc_rows (congrArg (20000 * ·) N_2) (Y V c) (Yb V c) (fun n h => (outsAt2 V c n h).2.1) (fun n h r q => Yb_at V c n h _ _ rfl rfl)
      (fun h => by rw [outs0]) (fun n h => by rw [outsS]) n h hn (j 1),
    acc_rows (congrArg (20000 * ·) N_2) (fun i => Y V c i * Y V c i) (fun n h => mulf (Yb V c n h) (Yb V c n h)) (fun n h => (outsAt2 V c n h).2.2)
      (fun n h r q => congrArg (fun z => z * z) (Yb_at V c n h _ _ rfl rfl)) (fun h => by rw [outs0]) (fun n h => by rw [outsS]) n h hn (j 1)⟩

theorem last (t : Fin cfg2.N) (h : t.val % 80 = 79) : t.val + 1 = cfg2.N := by
  have := lt_of_lt_of_eq t.isLt N_2; exact (by omega : t.val + 1 = 80).trans N_2.symm

theorem read8 (t : Fin cfg2.N) (G : Mat 1 64) (y : S1x64.Idx) : ((cfg2.win 8).blk t).view.read (Elt Ideal) G y = G (((cfg2.win 8).blk t).view.emb y) := rfl
theorem read9 (t : Fin cfg2.N) (G : Mat 1 64) (y : S1x64.Idx) : ((cfg2.win 9).blk t).view.read (Elt Ideal) G y = G (((cfg2.win 9).blk t).view.emb y) := rfl

theorem flushed8_eq (c : Dev nD) (t : Fin cfg2.N) (hf : (cfg2.win 8).flush t = true) :
    (dat2 (F := Ideal) V c).flushed 8 t = ((cfg2.win 8).blk t).view.read (Elt Ideal) (csum (Y V c)) := by
  show (cfg2.win 8).cut (grid2.coords t) ((dat2 V c).after 8 t) = _
  rw [after2_8]
  funext y
  refine Eq.trans ?_ (read8 t _ y).symm
  exact ((acc V c t.val t.isLt (last t ((flush2_8 t).mp hf)) _).1).trans (csum_congr _ (win2_8.rect_emb_val_of_index_zero t 1 rfl y).symm)

theorem flushed9_eq (c : Dev nD) (t : Fin cfg2.N) (hf : (cfg2.win 9).flush t = true) :
    (dat2 (F := Ideal) V c).flushed 9 t = ((cfg2.win 9).blk t).view.read (Elt Ideal) (csumsq (Y V c)) := by
  show (cfg2.win 9).cut (grid2.coords t) ((dat2 V c).after 9 t) = _
  rw [after2_9]
  funext y
  refine Eq.trans ?_ (read9 t _ y).symm
  exact ((acc V c t.val t.isLt (last t ((flush2_9 t).mp hf)) _).2).trans (csumsq_congr _ (win2_9.rect_emb_val_of_index_zero t 1 rfl y).symm)

-- The last point's block covers the whole row.
theorem cover8 (i : S1x64.Idx) : ∃ t : Fin cfg2.N, (cfg2.win 8).flush t = true ∧ i ∈ ((cfg2.win 8).blk t).view.set := by
  have hq : 79 < cfg2.N := by rw [show cfg2.N = 80 from N_2]; omega
  refine ⟨⟨79, hq⟩, (flush2_8 _).mpr rfl, ?_⟩
  show i ∈ ((View.whole (Pipeline.arrRef spec2 8)).slice (win2_8.rect ⟨79, hq⟩)).set
  rw [View.set_slice_whole, Rect.mem_set_unit]
  exact fun a => match a with
    | ⟨0, _⟩ => ⟨Nat.zero_le _, idx2_lt0 i⟩
    | ⟨1, _⟩ => ⟨Nat.zero_le _, idx2_lt1 i⟩

theorem cover9 (i : S1x64.Idx) : ∃ t : Fin cfg2.N, (cfg2.win 9).flush t = true ∧ i ∈ ((cfg2.win 9).blk t).view.set := by
  have hq : 79 < cfg2.N := by rw [show cfg2.N = 80 from N_2]; omega
  refine ⟨⟨79, hq⟩, (flush2_9 _).mpr rfl, ?_⟩
  show i ∈ ((View.whole (Pipeline.arrRef spec2 9)).slice (win2_9.rect ⟨79, hq⟩)).set
  rw [View.set_slice_whole, Rect.mem_set_unit]
  exact fun a => match a with
    | ⟨0, _⟩ => ⟨Nat.zero_le _, idx2_lt0 i⟩
    | ⟨1, _⟩ => ⟨Nat.zero_le _, idx2_lt1 i⟩

theorem arr8 (c : Dev nD) :
    ((dat2 (F := Ideal) V c).arrAt 8 cfg2.N : Mat 1 64) = csum (lin (bnrelu (V c (Pipeline.arrRef spec2 0) : Mat 1600000 64) (V c (Pipeline.arrRef spec2 1) : Mat 1 64) (V c (Pipeline.arrRef spec2 2) : Mat 1 64) (V c (Pipeline.arrRef spec2 3) : Mat 1 64) (V c (Pipeline.arrRef spec2 4) : Mat 1 64)) (V c (Pipeline.arrRef spec2 5) : Mat 64 64) (V c (Pipeline.arrRef spec2 6) : Mat 1 64)) :=
  (dat2 (F := Ideal) V c).arrAt_eq_of_cover 8 _ (flushed8_eq V c) cover8

theorem arr9 (c : Dev nD) :
    ((dat2 (F := Ideal) V c).arrAt 9 cfg2.N : Mat 1 64) = csumsq (lin (bnrelu (V c (Pipeline.arrRef spec2 0) : Mat 1600000 64) (V c (Pipeline.arrRef spec2 1) : Mat 1 64) (V c (Pipeline.arrRef spec2 2) : Mat 1 64) (V c (Pipeline.arrRef spec2 3) : Mat 1 64) (V c (Pipeline.arrRef spec2 4) : Mat 1 64)) (V c (Pipeline.arrRef spec2 5) : Mat 64 64) (V c (Pipeline.arrRef spec2 6) : Mat 1 64)) :=
  (dat2 (F := Ideal) V c).arrAt_eq_of_cover 9 _ (flushed9_eq V c) cover9

end Cert.KernelIdeal.Reg2

end
-- ==== Proof.Reg3.lean ====
import proofs.«401100_j23158463660136_1_alg».proof.Proof.Gen.KernelIdeal.Frame
import proofs.«401100_j23158463660136_1_alg».proof.Proof.KBnBlocks

noncomputable section

namespace Cert.KernelIdeal.Reg3

open Idealize.ShloMosaic Idealize.ShloMosaic.TcCoe Idealize.SL.Sem Cert.KernelIdeal Cert.KernelIdeal.Gen Cert.Spec Cert.KBlocks Cert.KBnBlocks
open Idealize.ShloMosaic.ValueIdx

variable (V : (c : Dev nD) → (b : Ref sig .tc) → Buf (Elt Ideal) ((c : Thread nD τ).loc b))

-- Each of these blocks is its whole array.
theorem small (c : Dev nD) (t : Fin cfg3.N) :
    (iblk3 V c 1 t : Mat 1 64) = V c (Pipeline.arrRef spec3 1) ∧ (iblk3 V c 2 t : Mat 1 64) = V c (Pipeline.arrRef spec3 2)
    ∧ (iblk3 V c 3 t : Mat 1 64) = V c (Pipeline.arrRef spec3 3) ∧ (iblk3 V c 4 t : Mat 1 64) = V c (Pipeline.arrRef spec3 4) := by
  refine ⟨?_, ?_, ?_, ?_⟩ <;>
    exact funext fun y => congrArg (V c _) (Shape.idx_ext₂ (Pipeline.Window.rect_emb_val_of_index_zero _ t 0 rfl y) (Pipeline.Window.rect_emb_val_of_index_zero _ t 1 rfl y))

theorem read5 (t : Fin cfg3.N) (G : Mat 1600000 64) (y : S20000x64.Idx) :
    ((cfg3.win 5).blk t).view.read (Elt Ideal) G y = G (((cfg3.win 5).blk t).view.emb y) := rfl

theorem rows (c : Dev nD) (t : Fin cfg3.N) (y : S20000x64.Idx) :
    (iblk3 V c 0 t : Mat 20000 64) y = (V c (Pipeline.arrRef spec3 0) : Mat 1600000 64) (((cfg3.win 5).blk t).view.emb y) :=
  congrArg (V c _) (Shape.idx_ext₂ rfl rfl)

theorem pay_eq (x : Vec Ideal S20000x64 .f32) (v m g b : Vec Ideal S1x64 .f32) :
    k3_pay1 x v m g b = bnrelu (x : Mat 20000 64) (m : Mat 1 64) (v : Mat 1 64) (g : Mat 1 64) (b : Mat 1 64) := bn_eq x v m g b

theorem flushed_eq (c : Dev nD) (t : Fin cfg3.N) :
    (dat3 (F := Ideal) V c).flushed 5 t
      = ((cfg3.win 5).blk t).view.read (Elt Ideal) (bnrelu (V c (Pipeline.arrRef spec3 0) : Mat 1600000 64) (V c (Pipeline.arrRef spec3 1) : Mat 1 64) (V c (Pipeline.arrRef spec3 2) : Mat 1 64) (V c (Pipeline.arrRef spec3 3) : Mat 1 64) (V c (Pipeline.arrRef spec3 4) : Mat 1 64)) := by
  show (cfg3.win 5).cut (grid3.coords t) ((dat3 V c).after 5 t) = _
  rw [after3_5]
  unfold out3_5
  rw [View.canon_unit_zero hz]
  simp only [View.ld_unit_zero (S := S20000x64) hz, View.ld_unit_zero (S := S1x64) hz]
  rw [pay_eq]
  obtain ⟨e1, e2, e3, e4⟩ := small V c t
  funext y
  refine Eq.trans ?_ (read5 t _ y).symm
  exact bnrelu_congr (rows V c t y) (win3_5.rect_emb_val_of_index_zero t 1 rfl y).symm e1 e2 e3 e4

theorem idx5 : ∀ t : Fin cfg3.N, win3_5.index t 0 = t.val := (by decide +kernel : ∀ t : Fin grid3.N, _)

theorem cover (i : S1600000x64.Idx) :
    ∃ t : Fin cfg3.N, (cfg3.win 5).flush t = true ∧ i ∈ ((cfg3.win 5).blk t).view.set := by
  have hi0 : (i 0).val < 1600000 := idx2_lt0 i
  have hq : (i 0).val / 20000 < cfg3.N := by rw [show cfg3.N = 80 from N_3]; omega
  refine ⟨⟨(i 0).val / 20000, hq⟩, flush3_5 _, ?_⟩
  show i ∈ ((View.whole (Pipeline.arrRef spec3 5)).slice (win3_5.rect ⟨(i 0).val / 20000, hq⟩)).set
  rw [View.set_slice_whole, Rect.mem_set_unit]
  have e : win3_5.index ⟨(i 0).val / 20000, hq⟩ 0 = (i 0).val / 20000 := idx5 ⟨(i 0).val / 20000, hq⟩
  intro a
  match a with
  | ⟨0, _⟩ => show win3_5.index _ 0 * 20000 ≤ (i 0).val ∧ (i 0).val < win3_5.index _ 0 * 20000 + 20000; rw [e]; omega
  | ⟨1, _⟩ => exact ⟨Nat.zero_le _, idx2_lt1 i⟩

theorem arr5 (c : Dev nD) :
    ((dat3 (F := Ideal) V c).arrAt 5 cfg3.N : Mat 1600000 64)
      = bnrelu (V c (Pipeline.arrRef spec3 0) : Mat 1600000 64) (V c (Pipeline.arrRef spec3 1) : Mat 1 64) (V c (Pipeline.arrRef spec3 2) : Mat 1 64) (V c (Pipeline.arrRef spec3 3) : Mat 1 64) (V c (Pipeline.arrRef spec3 4) : Mat 1 64) :=
  (dat3 (F := Ideal) V c).arrAt_eq_of_cover 5 _ (fun t _ => flushed_eq V c t) cover

end Cert.KernelIdeal.Reg3

end
-- ==== Proof.KEdgeMsg.lean ====
import proofs.«401100_j23158463660136_1_alg».proof.Proof.Gen.KernelIdeal.Frame
import proofs.«401100_j23158463660136_1_alg».proof.Proof.Reg1
import proofs.«401100_j23158463660136_1_alg».proof.Proof.Reg2
import proofs.«401100_j23158463660136_1_alg».proof.Proof.Reg3
import proofs.«401100_j23158463660136_1_alg».proof.Proof.KEdge
import proofs.«401100_j23158463660136_1_alg».proof.Proof.PreDecode
import Idealize.ShloMosaic.PureOps.Reduce
import Idealize.ShloMosaic.Lib.Pipeline.Value
import Idealize.ShloMosaic.Lib.ValueIdx
import Idealize.ShloMosaic.Lib.StableHlo.Run

noncomputable section

namespace Cert.KernelIdeal.KEdge

open Idealize.ShloMosaic Idealize.ShloMosaic.TcCoe Idealize.SL.Sem Cert.KernelIdeal Cert.KernelIdeal.Gen Cert.Spec
open Idealize.ShloMosaic.ValueIdx

variable (m : (ℓ : Loc nD τ sig) → Buf (Elt Ideal) ℓ) (ρ : Dev nD → PrngReg) (c : Dev nD)

def wrapIdx (w : IVec S1600000 32) : IVec S1600000x1 32 :=
  broadcastInDim S1600000x1 ![0] bcast_S1600000_S1600000x1_0
    (select (cmpi .slt w (broadcastInDim S1600000 ![] bcast_S_S1600000 (constantI S_ 32 0#32)))
      (addi w (broadcastInDim S1600000 ![] bcast_S_S1600000 (constantI S_ 32 100000#32))) w)

def inRange (w : IVec S1600000 32) : IVec S1600000 1 :=
  Host.reduce IntOp.andi
    (andi (cmpi .sge (wrapIdx w) (broadcastInDim S1600000x1 ![] bcast_S_S1600000x1 (constantI S_ 32 0#32)))
      (cmpi .sle (wrapIdx w) (broadcastInDim S1600000x1 ![0, 1] bcast_S1x1_S1600000x1_0_1
        (broadcastInDim S1x1 ![1] bcast_S1_S1x1_1 (constantI S1 32 99999#32)))))
    (constantI S_ 1 1#1) reducesTo_S1600000x1_S1600000_d1 h_S_

/-- The gather at the moved index where that index is in the node range, the not-a-number constant elsewhere. -/
def takeOut (x : FVec Ideal S100000x64 .f32) (w : IVec S1600000 32) : FVec Ideal S1600000x64 .f32 :=
  select (broadcastInDim S1600000x64 ![0] bcast_S1600000_S1600000x64_0 (inRange w))
    (Host.gather gather_S100000x64_S1600000x1_S1600000x64_1_0_n_n_0_1_164 x (wrapIdx w))
    (broadcastInDim S1600000x64 ![] bcast_S_S1600000x64 (constant (F := Ideal) S_ .f32 0x7FC00000#32))

/-- A word in the node range is not moved and passes both range tests. -/
theorem mask_word (v : BitVec 32) (hv : (0 : ℤ) ≤ v.toInt ∧ v.toInt < 100000) :
    IntOp.andi (IntOp.cmpi .sge (Scalar.select (IntOp.cmpi .slt v 0#32) (IntOp.addi v 100000#32) v) 0#32)
      (IntOp.cmpi .sle (Scalar.select (IntOp.cmpi .slt v 0#32) (IntOp.addi v 100000#32) v) 99999#32) = 1#1 := by
  rw [(Cert.PreDecode.word_facts v hv).1, select_zero, (Cert.PreDecode.word_facts v hv).2.1, (Cert.PreDecode.word_facts v hv).2.2.1]
  decide

theorem foldl_andi_one {ι : Type} (x : ι → BitVec 1) (hx : ∀ i, x i = 1#1) (l : List ι) :
    l.foldl (fun r i => IntOp.andi r (x i)) 1#1 = 1#1 := by
  induction l with
  | nil => rfl
  | cons a l ih => rw [List.foldl_cons, hx a, show IntOp.andi (1#1 : BitVec 1) 1#1 = 1#1 by decide]; exact ih

/-- With every word in the node range the range test passes everywhere, so the masked gather is the plain one. -/
theorem takeOut_eq (x : FVec Ideal S100000x64 .f32) (w : IVec S1600000 32)
    (hw : ∀ j, (0 : ℤ) ≤ (w j).toInt ∧ (w j).toInt < 100000) :
    takeOut x w = Host.gather gather_S100000x64_S1600000x1_S1600000x64_1_0_n_n_0_1_164 x (wrapIdx w) := by
  have hM : ∀ j, inRange w j = 1#1 := fun j => by
    unfold inRange
    rw [Host.reduce_eq_foldl]
    exact foldl_andi_one _ (fun _ => mask_word (w _) (hw _)) _
  funext i
  unfold takeOut
  rw [select_apply, show broadcastInDim S1600000x64 ![0] bcast_S1600000_S1600000x64_0 (inRange w) i = 1#1 from hM _]
  exact select_one _ _

theorem ofBuf_toBuf {T : BufTy} (r : Ref sig .tc) (h1 h1' : r.ty = T) (h2 h2' : r.space ≠ .host) (h3 h3' : r.isScoped = false)
    (v : T.Contents (Elt Ideal)) :
    (StableHlo.TRef.of r h1 h2 h3 : StableHlo.TRef sig T).ofBuf ((StableHlo.TRef.of r h1' h2' h3' : StableHlo.TRef sig T).toBuf v) = v := by
  subst h1
  rfl

theorem ofBuf_v6 (W : Valuation τ sig (Elt Ideal)) (h1 h2 h3) :
    (StableHlo.TRef.of main_v6 h1 h2 h3 : StableHlo.TRef sig ⟨S1600000, .i32⟩).ofBuf (W (Proc.devRef .tc main_v6)) = W (Proc.devRef .tc main_v6) := rfl
theorem ofBuf_v4 (W : Valuation τ sig (Elt Ideal)) (h1 h2 h3) :
    (StableHlo.TRef.of main_v4 h1 h2 h3 : StableHlo.TRef sig ⟨S1600000, .i32⟩).ofBuf (W (Proc.devRef .tc main_v4)) = W (Proc.devRef .tc main_v4) := rfl
theorem ofBuf_v2 (W : Valuation τ sig (Elt Ideal)) (h1 h2 h3) :
    (StableHlo.TRef.of main_v2 h1 h2 h3 : StableHlo.TRef sig ⟨S100000x64, .f32⟩).ofBuf (W (Proc.devRef .tc main_v2)) = W (Proc.devRef .tc main_v2) := rfl
theorem toBuf_v7 (h1 h2 h3) (v : (⟨S1600000x64, .f32⟩ : BufTy).Contents (Elt Ideal)) :
    (StableHlo.TRef.of main_v7 h1 h2 h3 : StableHlo.TRef sig ⟨S1600000x64, .f32⟩).toBuf v = v := rfl
theorem toBuf_v8 (h1 h2 h3) (v : (⟨S1600000x64, .f32⟩ : BufTy).Contents (Elt Ideal)) :
    (StableHlo.TRef.of main_v8 h1 h2 h3 : StableHlo.TRef sig ⟨S1600000x64, .f32⟩).toBuf v = v := rfl

theorem take0_after (W : Valuation τ sig (Elt Ideal)) :
    StableHlo.after (hostOps1_1 (F := Ideal)) W (Proc.devRef .tc main_v7)
      = takeOut (W (Proc.devRef .tc main_v2)) (W (Proc.devRef .tc main_v6)) := by
  unfold takeOut inRange wrapIdx
  after_results_simp
  simp only [ofBuf_toBuf, ofBuf_v6, ofBuf_v2]
  exact toBuf_v7 _ _ _ _

theorem take1_after (W : Valuation τ sig (Elt Ideal)) :
    StableHlo.after (hostOps1_2 (F := Ideal)) W (Proc.devRef .tc main_v8)
      = takeOut (W (Proc.devRef .tc main_v2)) (W (Proc.devRef .tc main_v4)) := by
  unfold takeOut inRange wrapIdx
  after_results_simp
  simp only [ofBuf_toBuf, ofBuf_v4, ofBuf_v2]
  exact toBuf_v8 _ _ _ _

section
variable (hrange : ∀ i, (0 : ℤ) ≤ ((KArgs.edges m c) i).toInt ∧ ((KArgs.edges m c) i).toInt < 100000)
include hrange

theorem W5_v7 : (W5 m ρ c (Proc.devRef .tc main_v7) : Mat 1600000 64) = gD (KArgs.edges m c) (Net.h (KArgs.argsOf m c)) := by
  refine (show W5 m ρ c _ = W4 m ρ c _ by host_kept).trans ((take0_after (W3 m ρ c)).trans ?_)
  rw [show W3 m ρ c (Proc.devRef .tc main_v2) = W2 m ρ c _ by host_kept, W2_v2, W3_v6]
  exact takeOut_eq _ _ fun _ => hrange _

theorem W5_v8 : (W5 m ρ c (Proc.devRef .tc main_v8) : Mat 1600000 64) = gS (KArgs.edges m c) (Net.h (KArgs.argsOf m c)) := by
  refine (take1_after (W4 m ρ c)).trans ?_
  rw [show W4 m ρ c (Proc.devRef .tc main_v2) = W2 m ρ c _ from Eq.trans (by host_kept) (by host_kept), W2_v2,
    show W4 m ρ c (Proc.devRef .tc main_v4) = W3 m ρ c _ by host_kept, W3_v4]
  exact takeOut_eq _ _ fun _ => hrange _

/-- Region 1 leaves the first message layer, its column sums and its column sums of squares. -/
theorem stage1 : let y := Net.a1 (gD (KArgs.edges m c)) (gS (KArgs.edges m c)) (KArgs.argsOf m c)
    (W7 m ρ c (Proc.devRef .tc main_v11_0) : Mat 1600000 64) = y ∧ (W7 m ρ c (Proc.devRef .tc main_v11_1) : Mat 1 64) = csum y
      ∧ (W7 m ρ c (Proc.devRef .tc main_v11_2) : Mat 1 64) = csumsq y := by
  intro y
  have h : lin (StableHlo.after hostOps1_3 (W5 m ρ c) (Proc.devRef .tc main_v9) : Mat 1600000 128)
      (StableHlo.after hostOps1_3 (W5 m ρ c) (Proc.devRef .tc main_arg5) : Mat 128 64)
      (StableHlo.after hostOps1_3 (W5 m ρ c) (Proc.devRef .tc main_v10) : Mat 1 64) = y := by
    generalize hW : W5 m ρ c = W
    after_results
    subst hW
    rw [W5_v7 m ρ c hrange, W5_v8 m ρ c hrange, arg5 m ρ c main_arg5, arg5 m ρ c main_arg6]
    exact lin_congr (concat_cols_eq (C := 128) rfl _ _ _) rfl (reshape_row_eq _ _)
  exact ⟨((W7_arr m ρ c 3).trans (Reg1.arr3 (V6 m ρ) c)).trans h, ((W7_arr m ρ c 4).trans (Reg1.arr4 (V6 m ρ) c)).trans (congrArg csum h),
    ((W7_arr m ρ c 5).trans (Reg1.arr5 (V6 m ρ) c)).trans (congrArg csumsq h)⟩

/-- Region 2 normalises by the first layer's statistics, clips and leaves the second layer with its statistics. -/
theorem stage2 : let y := Net.a2 Net.cvarK (gD (KArgs.edges m c)) (gS (KArgs.edges m c)) (KArgs.argsOf m c)
    (W9 m ρ c (Proc.devRef .tc main_v25_0) : Mat 1600000 64) = y ∧ (W9 m ρ c (Proc.devRef .tc main_v25_1) : Mat 1 64) = csum y
      ∧ (W9 m ρ c (Proc.devRef .tc main_v25_2) : Mat 1 64) = csumsq y := by
  intro y
  obtain ⟨e0, e1, e2⟩ := stage1 m ρ c hrange
  have h : lin (bnrelu (W8 m ρ c (Proc.devRef .tc main_v11_0) : Mat 1600000 64) (W8 m ρ c (Proc.devRef .tc main_v20) : Mat 1 64)
        (W8 m ρ c (Proc.devRef .tc main_v21) : Mat 1 64) (W8 m ρ c (Proc.devRef .tc main_v22) : Mat 1 64)
        (W8 m ρ c (Proc.devRef .tc main_v23) : Mat 1 64))
      (W8 m ρ c (Proc.devRef .tc main_arg9) : Mat 64 64) (W8 m ρ c (Proc.devRef .tc main_v24) : Mat 1 64) = y := by
    after_results
    rw [e0, e1, e2, arg7 m ρ c main_arg7, arg7 m ρ c main_arg8, arg7 m ρ c main_arg9, arg7 m ρ c main_arg10]
    exact lin_congr (bnrelu_congr _ (meanRow_eq _ _) (varRow_eq _ _) (reshape_row_eq _ _) (reshape_row_eq _ _)) rfl (reshape_row_eq _ _)
  exact ⟨((W9_arr m ρ c 7).trans (Reg2.arr7 (V8 m ρ) c)).trans h, ((W9_arr m ρ c 8).trans (Reg2.arr8 (V8 m ρ) c)).trans (congrArg csum h),
    ((W9_arr m ρ c 9).trans (Reg2.arr9 (V8 m ρ) c)).trans (congrArg csumsq h)⟩

theorem msg_eq : (W11 m ρ c (Proc.devRef .tc main_v38) : Mat 1600000 64) = Net.msg Net.cvarK (gD (KArgs.edges m c)) (gS (KArgs.edges m c)) (KArgs.argsOf m c) := by
  obtain ⟨e0, e1, e2⟩ := stage2 m ρ c hrange
  refine (W11_arr m ρ c 5).trans ((Reg3.arr5 (V10 m ρ) c).trans ?_)
  show bnrelu (W10 m ρ c (Proc.devRef .tc main_v25_0) : Mat 1600000 64) (W10 m ρ c (Proc.devRef .tc main_v34) : Mat 1 64)
      (W10 m ρ c (Proc.devRef .tc main_v35) : Mat 1 64) (W10 m ρ c (Proc.devRef .tc main_v36) : Mat 1 64)
      (W10 m ρ c (Proc.devRef .tc main_v37) : Mat 1 64) = _
  after_results
  rw [e0, e1, e2, arg9 m ρ c main_arg11, arg9 m ρ c main_arg12]
  exact bnrelu_congr _ (meanRow_eq _ _) (varRow_eq _ _) (reshape_row_eq _ _) (reshape_row_eq _ _)

end

end Cert.KernelIdeal.KEdge

end
-- ==== Proof.lean ====
import proofs.«401100_j23158463660136_1_alg».proof.Defs
import proofs.«401100_j23158463660136_1_alg».proof.Proof.Gen.Kernel
import proofs.«401100_j23158463660136_1_alg».proof.Proof.Gen.Kernel.Skeleton
import proofs.«401100_j23158463660136_1_alg».proof.Proof.Gen.Kernel.Launch
import proofs.«401100_j23158463660136_1_alg».proof.Proof.Gen.Kernel.Points
import proofs.«401100_j23158463660136_1_alg».proof.Proof.Gen.Kernel.Frame
import proofs.«401100_j23158463660136_1_alg».proof.Proof.Gen.KernelIdeal
import proofs.«401100_j23158463660136_1_alg».proof.Proof.Gen.KernelIdeal.Skeleton
import proofs.«401100_j23158463660136_1_alg».proof.Proof.Gen.KernelIdeal.Launch
import proofs.«401100_j23158463660136_1_alg».proof.Proof.Gen.KernelIdeal.Points
import proofs.«401100_j23158463660136_1_alg».proof.Proof.Gen.KernelIdeal.Frame
import proofs.«401100_j23158463660136_1_alg».proof.Proof.Gen.ReferenceIdeal
import proofs.«401100_j23158463660136_1_alg».proof.Proof.Gen.Pre_finite_inputs
import proofs.«401100_j23158463660136_1_alg».proof.Proof.Glue
import proofs.«401100_j23158463660136_1_alg».proof.Proof.KEdgeMsg
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

-- The reference's frame is its run with the result dropped.
theorem frame_ri : Cert.frame_ReferenceIdeal := fun m ρ _ =>
  (θ_run Cert.ReferenceIdeal.defs _ _).mono (fun _ h c => (h c).2) (Cert.ReferenceIdeal.RunFold.run m ρ)

-- Both programs compute one network; on real columns E[y²] − E[y]² and E[(y − E[y])²] agree, and the precondition makes every array real.
theorem algebraic : Cert.algebraic_KernelIdeal_ReferenceIdeal :=
  Cert.Glue.algebraic_of_msg Cert.KernelIdeal.KEdge.msg_eq

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
